-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x115x3 : Shape := ⟨3, ![100000, 115, 3]⟩
abbrev S_ : Shape := ⟨0, ![]⟩

class Facts : Prop where
  bcast_S_S100000x115x3 : S_.BroadcastsInDim S100000x115x3 (![] : Fin 0 → Fin S100000x115x3.rank)
  reducesTo_S100000x115x3_S_d0_1_2 : S100000x115x3.ReducesTo [0, 1, 2] S_
  h_S_ : 0 < S_.numel

variable [Facts]

def fn {F : FTy → Type} [FloatOps F] (main_arg0 : FVec F S100000x115x3 .f32) : IVec S_ 1 :=
  let main_v0 : FVec F S100000x115x3 .f32 := Host.absf main_arg0
  let main_cst : FVec F S_ .f32 := constant S_ .f32 0x7F800000#32
  let main_v1 : FVec F S100000x115x3 .f32 := broadcastInDim S100000x115x3 ![] bcast_S_S100000x115x3 main_cst
  let main_v2 : IVec S100000x115x3 1 := cmpf .olt main_v0 main_v1
  let main_c : IVec S_ 1 := constantI S_ 1 1#1
  let main_v3 : IVec S_ 1 := (fun x v => Host.reduce IntOp.andi x v reducesTo_S100000x115x3_S_d0_1_2 h_S_) main_v2 main_c
  main_v3
-- ==== Kernel.lean ====
abbrev S100000x115x3 : Shape := ⟨3, ![100000, 115, 3]⟩
abbrev S210 : Shape := ⟨1, ![210]⟩
abbrev S300 : Shape := ⟨1, ![300]⟩
abbrev S190 : Shape := ⟨1, ![190]⟩
abbrev S1x1 : Shape := ⟨2, ![1, 1]⟩
abbrev S5000x115x3 : Shape := ⟨3, ![5000, 115, 3]⟩
abbrev S5000x21x3 : Shape := ⟨3, ![5000, 21, 3]⟩
abbrev S5000x3 : Shape := ⟨2, ![5000, 3]⟩
abbrev S5000x1x3 : Shape := ⟨3, ![5000, 1, 3]⟩
abbrev S5000x1 : Shape := ⟨2, ![5000, 1]⟩
abbrev S5000x1x1 : Shape := ⟨3, ![5000, 1, 1]⟩
abbrev S_ : Shape := ⟨0, ![]⟩
abbrev S201x115x3 : Shape := ⟨3, ![201, 115, 3]⟩
abbrev S201x21x3 : Shape := ⟨3, ![201, 21, 3]⟩
abbrev S201x25x3 : Shape := ⟨3, ![201, 25, 3]⟩
abbrev S201x40x3 : Shape := ⟨3, ![201, 40, 3]⟩
abbrev S201x86x3 : Shape := ⟨3, ![201, 86, 3]⟩
abbrev S201x86x1 : Shape := ⟨3, ![201, 86, 1]⟩
abbrev S201x86 : Shape := ⟨2, ![201, 86]⟩
abbrev S201x86x2 : Shape := ⟨3, ![201, 86, 2]⟩
abbrev S201x63 : Shape := ⟨2, ![201, 63]⟩
abbrev S201 : Shape := ⟨1, ![201]⟩
abbrev S200x86x3 : Shape := ⟨3, ![200, 86, 3]⟩
abbrev S210x1 : Shape := ⟨2, ![210, 1]⟩
abbrev S201x210x3 : Shape := ⟨3, ![201, 210, 3]⟩
abbrev S201x210 : Shape := ⟨2, ![201, 210]⟩
abbrev S201x25x2 : Shape := ⟨3, ![201, 25, 2]⟩
abbrev S300x1 : Shape := ⟨2, ![300, 1]⟩
abbrev S201x300x2 : Shape := ⟨3, ![201, 300, 2]⟩
abbrev S201x300 : Shape := ⟨2, ![201, 300]⟩
abbrev S201x20x2 : Shape := ⟨3, ![201, 20, 2]⟩
abbrev S190x1 : Shape := ⟨2, ![190, 1]⟩
abbrev S201x190x2 : Shape := ⟨3, ![201, 190, 2]⟩
abbrev S201x190 : Shape := ⟨2, ![201, 190]⟩
abbrev S200x21x3 : Shape := ⟨3, ![200, 21, 3]⟩
abbrev S200x63 : Shape := ⟨2, ![200, 63]⟩
abbrev S200x25x2 : Shape := ⟨3, ![200, 25, 2]⟩
abbrev S200x50 : Shape := ⟨2, ![200, 50]⟩
abbrev S200x20x2 : Shape := ⟨3, ![200, 20, 2]⟩
abbrev S200x40 : Shape := ⟨2, ![200, 40]⟩
abbrev S200x210 : Shape := ⟨2, ![200, 210]⟩
abbrev S200x300 : Shape := ⟨2, ![200, 300]⟩
abbrev S200x190 : Shape := ⟨2, ![200, 190]⟩
abbrev S200 : Shape := ⟨1, ![200]⟩
abbrev S200x1 : Shape := ⟨2, ![200, 1]⟩
abbrev S200x1198 : Shape := ⟨2, ![200, 1198]⟩
abbrev S1x200x1198 : Shape := ⟨3, ![1, 200, 1198]⟩

abbrev nBuf : Space → Nat
  | .hbm => 150
  | .vmem => 6
  | .smem => 0
  | _ => 0

abbrev hbmTy0_0 (i : Nat) : BufTy := match i % 128 with
  | 0 => ⟨S100000x115x3, .f32⟩
  | 1 => ⟨S210, .i32⟩
  | 2 => ⟨S210, .i1⟩
  | 3 => ⟨S210, .i32⟩
  | 4 => ⟨S210, .i1⟩
  | 5 => ⟨S300, .i32⟩
  | 6 => ⟨S300, .i1⟩
  | 7 => ⟨S300, .i32⟩
  | 8 => ⟨S300, .i1⟩
  | 9 => ⟨S190, .i32⟩
  | 10 => ⟨S190, .i1⟩
  | 11 => ⟨S190, .i32⟩
  | 12 => ⟨S190, .i1⟩
  | 13 => ⟨S190, .i1⟩
  | 14 => ⟨S190, .i1⟩
  | 15 => ⟨S1x1, .f32⟩
  | 16 => ⟨S1x1, .f32⟩
  | 17 => ⟨S_, .f32⟩
  | 18 => ⟨S_, .f32⟩
  | 19 => ⟨S_, .i1⟩
  | 20 => ⟨S201x115x3, .f32⟩
  | 21 => ⟨S201x115x3, .i1⟩
  | 22 => ⟨S_, .f32⟩
  | 23 => ⟨S_, .f32⟩
  | 24 => ⟨S201x115x3, .f32⟩
  | 25 => ⟨S201x115x3, .f32⟩
  | 26 => ⟨S201x21x3, .f32⟩
  | 27 => ⟨S201x21x3, .f32⟩
  | 28 => ⟨S201x25x3, .f32⟩
  | 29 => ⟨S201x40x3, .f32⟩
  | 30 => ⟨S201x21x3, .f32⟩
  | 31 => ⟨S201x86x3, .f32⟩
  | 32 => ⟨S201x86x3, .f32⟩
  | 33 => ⟨S201x86x3, .f32⟩
  | 34 => ⟨S201x86x1, .f32⟩
  | 35 => ⟨S201x86, .f32⟩
  | 36 => ⟨S201x86, .f32⟩
  | 37 => ⟨S201x86x1, .f32⟩
  | 38 => ⟨S201x86, .f32⟩
  | 39 => ⟨S201x86, .f32⟩
  | 40 => ⟨S201x86x1, .f32⟩
  | 41 => ⟨S201x86x2, .f32⟩
  | 42 => ⟨S201x86x3, .f32⟩
  | 43 => ⟨S201x63, .f32⟩
  | 44 => ⟨S_, .f32⟩
  | 45 => ⟨S201, .f32⟩
  | 46 => ⟨S_, .f32⟩
  | 47 => ⟨S201, .f32⟩
  | 48 => ⟨S201, .i1⟩
  | 49 => ⟨S201, .f32⟩
  | 50 => ⟨S_, .f32⟩
  | 51 => ⟨S201, .f32⟩
  | 52 => ⟨S201, .f32⟩
  | 53 => ⟨S200x86x3, .f32⟩
  | 54 => ⟨S200x86x3, .f32⟩
  | 55 => ⟨S200x86x3, .f32⟩
  | 56 => ⟨S201x21x3, .f32⟩
  | 57 => ⟨S_, .i32⟩
  | 58 => ⟨S210, .i32⟩
  | 59 => ⟨S210, .i32⟩
  | 60 => ⟨S210, .i32⟩
  | 61 => ⟨S210x1, .i32⟩
  | 62 => ⟨S201x210x3, .f32⟩
  | 63 => ⟨S_, .i32⟩
  | 64 => ⟨S210, .i32⟩
  | 65 => ⟨S210, .i32⟩
  | 66 => ⟨S210, .i32⟩
  | 67 => ⟨S210x1, .i32⟩
  | 68 => ⟨S201x210x3, .f32⟩
  | 69 => ⟨S201x210x3, .f32⟩
  | 70 => ⟨S201x210x3, .f32⟩
  | 71 => ⟨S_, .f32⟩
  | 72 => ⟨S201x210, .f32⟩
  | 73 => ⟨S201x210, .f32⟩
  | 74 => ⟨S201x25x2, .f32⟩
  | 75 => ⟨S_, .i32⟩
  | 76 => ⟨S300, .i32⟩
  | 77 => ⟨S300, .i32⟩
  | 78 => ⟨S300, .i32⟩
  | 79 => ⟨S300x1, .i32⟩
  | 80 => ⟨S201x300x2, .f32⟩
  | 81 => ⟨S_, .i32⟩
  | 82 => ⟨S300, .i32⟩
  | 83 => ⟨S300, .i32⟩
  | 84 => ⟨S300, .i32⟩
  | 85 => ⟨S300x1, .i32⟩
  | 86 => ⟨S201x300x2, .f32⟩
  | 87 => ⟨S201x300x2, .f32⟩
  | 88 => ⟨S201x300x2, .f32⟩
  | 89 => ⟨S_, .f32⟩
  | 90 => ⟨S201x300, .f32⟩
  | 91 => ⟨S201x300, .f32⟩
  | 92 => ⟨S201x20x2, .f32⟩
  | 93 => ⟨S_, .i32⟩
  | 94 => ⟨S190, .i32⟩
  | 95 => ⟨S190, .i32⟩
  | 96 => ⟨S190, .i32⟩
  | 97 => ⟨S190x1, .i32⟩
  | 98 => ⟨S201x190x2, .f32⟩
  | 99 => ⟨S_, .i32⟩
  | 100 => ⟨S190, .i32⟩
  | 101 => ⟨S190, .i32⟩
  | 102 => ⟨S190, .i32⟩
  | 103 => ⟨S190x1, .i32⟩
  | 104 => ⟨S201x190x2, .f32⟩
  | 105 => ⟨S201x190x2, .f32⟩
  | 106 => ⟨S201x190x2, .f32⟩
  | 107 => ⟨S_, .f32⟩
  | 108 => ⟨S201x190, .f32⟩
  | 109 => ⟨S201x190, .f32⟩
  | 110 => ⟨S201x20x2, .f32⟩
  | 111 => ⟨S_, .i32⟩
  | 112 => ⟨S190, .i32⟩
  | 113 => ⟨S190, .i32⟩
  | 114 => ⟨S190, .i32⟩
  | 115 => ⟨S190x1, .i32⟩
  | 116 => ⟨S201x190x2, .f32⟩
  | 117 => ⟨S_, .i32⟩
  | 118 => ⟨S190, .i32⟩
  | 119 => ⟨S190, .i32⟩
  | 120 => ⟨S190, .i32⟩
  | 121 => ⟨S190x1, .i32⟩
  | 122 => ⟨S201x190x2, .f32⟩
  | 123 => ⟨S201x190x2, .f32⟩
  | 124 => ⟨S201x190x2, .f32⟩
  | 125 => ⟨S_, .f32⟩
  | 126 => ⟨S201x190, .f32⟩
  | 127 => ⟨S201x190, .f32⟩
  | _ => ⟨S100000x115x3, .f32⟩

abbrev hbmTy0_1 (i : Nat) : BufTy := match i % 128 with
  | 0 => ⟨S200x21x3, .f32⟩
  | 1 => ⟨S200x63, .f32⟩
  | 2 => ⟨S200x25x2, .f32⟩
  | 3 => ⟨S200x50, .f32⟩
  | 4 => ⟨S200x20x2, .f32⟩
  | 5 => ⟨S200x40, .f32⟩
  | 6 => ⟨S200x21x3, .f32⟩
  | 7 => ⟨S200x63, .f32⟩
  | 8 => ⟨S200x25x2, .f32⟩
  | 9 => ⟨S200x50, .f32⟩
  | 10 => ⟨S200x20x2, .f32⟩
  | 11 => ⟨S200x40, .f32⟩
  | 12 => ⟨S200x210, .f32⟩
  | 13 => ⟨S200x300, .f32⟩
  | 14 => ⟨S200x190, .f32⟩
  | 15 => ⟨S200x190, .f32⟩
  | 16 => ⟨S200, .f32⟩
  | 17 => ⟨S200x1, .f32⟩
  | 18 => ⟨S200, .f32⟩
  | 19 => ⟨S200x1, .f32⟩
  | 20 => ⟨S200x1198, .f32⟩
  | 21 => ⟨S1x200x1198, .f32⟩
  | _ => ⟨S100000x115x3, .f32⟩

abbrev hbmTy (i : Nat) : BufTy := match i / 128 with
  | 0 => hbmTy0_0 i
  | 1 => hbmTy0_1 i
  | _ => ⟨S100000x115x3, .f32⟩

abbrev bufTy : (tb : Table) → Fin (tcTables nBuf tb) → BufTy
  | .hbm, ⟨i, _⟩ => hbmTy i
  | .local _ .vmem, ⟨0, _⟩ => ⟨S5000x115x3, .f32⟩
  | .local _ .vmem, ⟨1, _⟩ => ⟨S5000x115x3, .f32⟩
  | .local _ .vmem, ⟨2, _⟩ => ⟨S1x1, .f32⟩
  | .local _ .vmem, ⟨3, _⟩ => ⟨S1x1, .f32⟩
  | .local _ .vmem, ⟨4, _⟩ => ⟨S1x1, .f32⟩
  | .local _ .vmem, ⟨5, _⟩ => ⟨S1x1, .f32⟩
  | _, _ => ⟨S100000x115x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_c_4 : Ref sig .tc := ⟨.hbm, 6, rfl⟩
abbrev main_c_5 : Ref sig .tc := ⟨.hbm, 7, rfl⟩
abbrev main_c_6 : Ref sig .tc := ⟨.hbm, 8, rfl⟩
abbrev main_c_7 : Ref sig .tc := ⟨.hbm, 9, rfl⟩
abbrev main_c_8 : Ref sig .tc := ⟨.hbm, 10, rfl⟩
abbrev main_c_9 : Ref sig .tc := ⟨.hbm, 11, rfl⟩
abbrev main_c_10 : Ref sig .tc := ⟨.hbm, 12, rfl⟩
abbrev main_c_11 : Ref sig .tc := ⟨.hbm, 13, rfl⟩
abbrev main_c_12 : Ref sig .tc := ⟨.hbm, 14, rfl⟩
abbrev main_v0_0 : Ref sig .tc := ⟨.hbm, 15, rfl⟩
abbrev main_v0_1 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_13 : Ref sig .tc := ⟨.hbm, 44, rfl⟩
abbrev main_v25 : Ref sig .tc := ⟨.hbm, 45, rfl⟩
abbrev main_cst_14 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_15 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_16 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_17 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_18 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_19 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_20 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_21 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_22 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_23 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_24 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_25 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_c_26 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_27 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v40 : BitVec 1 := Scalar.cmpi .eq arg0 c19_i32
  let v41 : BitVec 32 := Scalar.extui v40
  let c0_i32_20 : BitVec 32 := 0#32
  let v42 : BitVec 1 := Scalar.cmpi .ne v41 c0_i32_20
  v42

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x115x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S5000x115x3_S5000x115x3_0_0_0 : ∀ a, (![0, 0, 0] : Fin 3 → Nat) a + S5000x115x3.size a ≤ S5000x115x3.size a
  h_S5000x115x3 : 0 < S5000x115x3.numel
  slices_S5000x115x3_o0_40_0_S5000x21x3 : S5000x115x3.Slices ![0, 40, 0] S5000x21x3
  slices_S5000x115x3_o0_94_0_S5000x21x3 : S5000x115x3.Slices ![0, 94, 0] S5000x21x3
  natLt_1_32 : 1 < 32
  reduces_S5000x21x3_S5000x3 : S5000x21x3.Reduces [1] S5000x3
  shapeCasts_S5000x3_S5000x1x3 : S5000x3.ShapeCasts S5000x1x3
  reduces_S5000x1x3_S5000x1 : S5000x1x3.Reduces [2] S5000x1
  shapeCasts_S5000x1_S5000x1x1 : S5000x1.ShapeCasts S5000x1x1
  reduces_S5000x1x1_S1x1 : S5000x1x1.Reduces [0] S1x1
  shapeCasts_S1x1_S_ : S1x1.ShapeCasts S_
  slices_S100000x115x3_S201x115x3_0_0_0 : S100000x115x3.Slices ![0, 0, 0] S201x115x3
  bcast_S_S201x115x3 : S_.BroadcastsInDim S201x115x3 (![] : Fin 0 → Fin S201x115x3.rank)
  slices_S201x115x3_S201x21x3_0_40_0 : S201x115x3.Slices ![0, 40, 0] S201x21x3
  slices_S201x115x3_S201x21x3_0_94_0 : S201x115x3.Slices ![0, 94, 0] S201x21x3
  slices_S201x115x3_S201x25x3_0_61_0 : S201x115x3.Slices ![0, 61, 0] S201x25x3
  slices_S201x115x3_S201x40x3_0_0_0 : S201x115x3.Slices ![0, 0, 0] S201x40x3
  bcast_S_S201x21x3 : S_.BroadcastsInDim S201x21x3 (![] : Fin 0 → Fin S201x21x3.rank)
  concatenates_S201x21x3_S201x25x3_S201x40x3_S201x86x3_d1 : Shape.Concatenates [S201x21x3, S201x25x3, S201x40x3] S201x86x3 1
  bcast_S_S201x86x3 : S_.BroadcastsInDim S201x86x3 (![] : Fin 0 → Fin S201x86x3.rank)
  slices_S201x86x3_S201x86x1_0_0_0 : S201x86x3.Slices ![0, 0, 0] S201x86x1
  shapeCasts_S201x86x1_S201x86 : S201x86x1.ShapeCasts S201x86
  bcast_S_S201x86 : S_.BroadcastsInDim S201x86 (![] : Fin 0 → Fin S201x86.rank)
  bcast_S201x86_S201x86x1_0_1 : S201x86.BroadcastsInDim S201x86x1 (![0, 1] : Fin 2 → Fin S201x86x1.rank)
  slices_S201x86x3_S201x86x2_0_0_1 : S201x86x3.Slices ![0, 0, 1] S201x86x2
  concatenates_S201x86x1_S201x86x2_S201x86x3_d2 : Shape.Concatenates [S201x86x1, S201x86x2] S201x86x3 2
  shapeCasts_S201x21x3_S201x63 : S201x21x3.ShapeCasts S201x63
  reducesTo_S201x63_S201_d1 : S201x63.ReducesTo [1] S201
  h_S_ : 0 < S_.numel
  bcast_S_S201 : S_.BroadcastsInDim S201 (![] : Fin 0 → Fin S201.rank)
  slices_S201x86x3_S200x86x3_0_0_0 : S201x86x3.Slices ![0, 0, 0] S200x86x3
  slices_S201x86x3_S200x86x3_1_0_0 : S201x86x3.Slices ![1, 0, 0] S200x86x3
  slices_S201x86x3_S201x21x3_0_0_0 : S201x86x3.Slices ![0, 0, 0] S201x21x3
  bcast_S_S210 : S_.BroadcastsInDim S210 (![] : Fin 0 → Fin S210.rank)
  bcast_S210_S210x1_0 : S210.BroadcastsInDim S210x1 (![0] : Fin 1 → Fin S210x1.rank)
  reducesTo_S201x210x3_S201x210_d2 : S201x210x3.ReducesTo [2] S201x210
  slices_S201x86x3_S201x25x2_0_21_0 : S201x86x3.Slices ![0, 21, 0] S201x25x2
  bcast_S_S300 : S_.BroadcastsInDim S300 (![] : Fin 0 → Fin S300.rank)
  bcast_S300_S300x1_0 : S300.BroadcastsInDim S300x1 (![0] : Fin 1 → Fin S300x1.rank)
  reducesTo_S201x300x2_S201x300_d2 : S201x300x2.ReducesTo [2] S201x300
  slices_S201x86x3_S201x20x2_0_46_0 : S201x86x3.Slices ![0, 46, 0] S201x20x2
  bcast_S_S190 : S_.BroadcastsInDim S190 (![] : Fin 0 → Fin S190.rank)
  bcast_S190_S190x1_0 : S190.BroadcastsInDim S190x1 (![0] : Fin 1 → Fin S190x1.rank)
  reducesTo_S201x190x2_S201x190_d2 : S201x190x2.ReducesTo [2] S201x190
  slices_S201x86x3_S201x20x2_0_66_0 : S201x86x3.Slices ![0, 66, 0] S201x20x2
  slices_S201x86x3_S200x21x3_0_0_0 : S201x86x3.Slices ![0, 0, 0] S200x21x3
  shapeCasts_S200x21x3_S200x63 : S200x21x3.ShapeCasts S200x63
  slices_S201x86x3_S200x25x2_0_21_0 : S201x86x3.Slices ![0, 21, 0] S200x25x2
  shapeCasts_S200x25x2_S200x50 : S200x25x2.ShapeCasts S200x50
  slices_S201x86x3_S200x20x2_0_46_0 : S201x86x3.Slices ![0, 46, 0] S200x20x2
  shapeCasts_S200x20x2_S200x40 : S200x20x2.ShapeCasts S200x40
  slices_S200x86x3_S200x21x3_0_0_0 : S200x86x3.Slices ![0, 0, 0] S200x21x3
  slices_S200x86x3_S200x25x2_0_21_0 : S200x86x3.Slices ![0, 21, 0] S200x25x2
  slices_S200x86x3_S200x20x2_0_46_0 : S200x86x3.Slices ![0, 46, 0] S200x20x2
  slices_S201x210_S200x210_0_0 : S201x210.Slices ![0, 0] S200x210
  slices_S201x300_S200x300_0_0 : S201x300.Slices ![0, 0] S200x300
  slices_S201x190_S200x190_0_0 : S201x190.Slices ![0, 0] S200x190
  slices_S201_S200_0 : S201.Slices ![0] S200
  bcast_S200_S200x1_0 : S200.BroadcastsInDim S200x1 (![0] : Fin 1 → Fin S200x1.rank)
  concatenates_S200x63_S200x50_S200x40_S200x63_S200x50_S200x40_S200x210_S200x300_S200x190_S200x190_S200x1_S200x1_S200x1198_d1 : Shape.Concatenates [S200x63, S200x50, S200x40, S200x63, S200x50, S200x40, S200x210, S200x300, S200x190, S200x190, S200x1, S200x1] S200x1198 1
  shapeCasts_S200x1198_S1x200x1198 : S200x1198.ShapeCasts S1x200x1198
  gather_S201x21x3_S210x1_S201x210x3_02_1_n_n_1_1_20113_wf : GatherDims.WF S201x21x3 S210x1 S201x210x3 [0, 2] [1] [] [1] [] 1 ![201, 1, 3]
  gather_S201x25x2_S300x1_S201x300x2_02_1_n_n_1_1_20112_wf : GatherDims.WF S201x25x2 S300x1 S201x300x2 [0, 2] [1] [] [1] [] 1 ![201, 1, 2]
  gather_S201x20x2_S190x1_S201x190x2_02_1_n_n_1_1_20112_wf : GatherDims.WF S201x20x2 S190x1 S201x190x2 [0, 2] [1] [] [1] [] 1 ![201, 1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x115x3.size a ≤ S100000x115x3.size a
  hwx0_0 : ∀ i : grid0.Coords, EltTy.bits .f32 = 32 ∨ (Rect.block (s := S100000x115x3) S5000x115x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def gather_S201x21x3_S210x1_S201x210x3_02_1_n_n_1_1_20113 : GatherDims S201x21x3 S210x1 S201x210x3 where
  offsetDims := [0, 2]
  collapsedSliceDims := [1]
  operandBatchingDims := []
  startIndicesBatchingDims := []
  startIndexMap := [1]
  indexVectorDim := 1
  sliceSizes := ![201, 1, 3]
  wf := gather_S201x21x3_S210x1_S201x210x3_02_1_n_n_1_1_20113_wf
def gather_S201x25x2_S300x1_S201x300x2_02_1_n_n_1_1_20112 : GatherDims S201x25x2 S300x1 S201x300x2 where
  offsetDims := [0, 2]
  collapsedSliceDims := [1]
  operandBatchingDims := []
  startIndicesBatchingDims := []
  startIndexMap := [1]
  indexVectorDim := 1
  sliceSizes := ![201, 1, 2]
  wf := gather_S201x25x2_S300x1_S201x300x2_02_1_n_n_1_1_20112_wf
def gather_S201x20x2_S190x1_S201x190x2_02_1_n_n_1_1_20112 : GatherDims S201x20x2 S190x1 S201x190x2 where
  offsetDims := [0, 2]
  collapsedSliceDims := [1]
  operandBatchingDims := []
  startIndicesBatchingDims := []
  startIndexMap := [1]
  indexVectorDim := 1
  sliceSizes := ![201, 1, 2]
  wf := gather_S201x20x2_S190x1_S201x190x2_02_1_n_n_1_1_20112_wf

abbrev win0_0 : Pipeline.Window sig grid0 :=
  Pipeline.Window.ofSpec (Memref.whole main_arg0) S5000x115x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

class Facts : Prop extends Facts₀ where

variable [Facts]
-- ==== ReferenceIdeal.lean ====
abbrev S100000x115x3 : Shape := ⟨3, ![100000, 115, 3]⟩
abbrev S210 : Shape := ⟨1, ![210]⟩
abbrev S300 : Shape := ⟨1, ![300]⟩
abbrev S190 : Shape := ⟨1, ![190]⟩
abbrev S_ : Shape := ⟨0, ![]⟩
abbrev S100000x21x3 : Shape := ⟨3, ![100000, 21, 3]⟩
abbrev S100000x25x3 : Shape := ⟨3, ![100000, 25, 3]⟩
abbrev S100000x40x3 : Shape := ⟨3, ![100000, 40, 3]⟩
abbrev S100000x86x3 : Shape := ⟨3, ![100000, 86, 3]⟩
abbrev S100000x86x1 : Shape := ⟨3, ![100000, 86, 1]⟩
abbrev S100000x86 : Shape := ⟨2, ![100000, 86]⟩
abbrev S100000x86x2 : Shape := ⟨3, ![100000, 86, 2]⟩
abbrev S100000x63 : Shape := ⟨2, ![100000, 63]⟩
abbrev S100000 : Shape := ⟨1, ![100000]⟩
abbrev S99999x86x3 : Shape := ⟨3, ![99999, 86, 3]⟩
abbrev S1x86x3 : Shape := ⟨3, ![1, 86, 3]⟩
abbrev S210x1 : Shape := ⟨2, ![210, 1]⟩
abbrev S100000x210x3 : Shape := ⟨3, ![100000, 210, 3]⟩
abbrev S100000x210 : Shape := ⟨2, ![100000, 210]⟩
abbrev S100000x25x2 : Shape := ⟨3, ![100000, 25, 2]⟩
abbrev S300x1 : Shape := ⟨2, ![300, 1]⟩
abbrev S100000x300x2 : Shape := ⟨3, ![100000, 300, 2]⟩
abbrev S100000x300 : Shape := ⟨2, ![100000, 300]⟩
abbrev S100000x20x2 : Shape := ⟨3, ![100000, 20, 2]⟩
abbrev S190x1 : Shape := ⟨2, ![190, 1]⟩
abbrev S100000x190x2 : Shape := ⟨3, ![100000, 190, 2]⟩
abbrev S100000x190 : Shape := ⟨2, ![100000, 190]⟩
abbrev S100000x50 : Shape := ⟨2, ![100000, 50]⟩
abbrev S100000x40 : Shape := ⟨2, ![100000, 40]⟩
abbrev S100000x1 : Shape := ⟨2, ![100000, 1]⟩
abbrev S100000x1198 : Shape := ⟨2, ![100000, 1198]⟩
abbrev S200x1198 : Shape := ⟨2, ![200, 1198]⟩
abbrev S1x200x1198 : Shape := ⟨3, ![1, 200, 1198]⟩

abbrev nBuf : Space → Nat
  | .hbm => 154
  | .vmem => 0
  | .smem => 0
  | _ => 0

abbrev hbmTy0_0 (i : Nat) : BufTy := match i % 128 with
  | 0 => ⟨S100000x115x3, .f32⟩
  | 1 => ⟨S210, .i32⟩
  | 2 => ⟨S210, .i1⟩
  | 3 => ⟨S210, .i32⟩
  | 4 => ⟨S210, .i1⟩
  | 5 => ⟨S300, .i32⟩
  | 6 => ⟨S300, .i1⟩
  | 7 => ⟨S300, .i32⟩
  | 8 => ⟨S300, .i1⟩
  | 9 => ⟨S190, .i32⟩
  | 10 => ⟨S190, .i1⟩
  | 11 => ⟨S190, .i32⟩
  | 12 => ⟨S190, .i1⟩
  | 13 => ⟨S190, .i1⟩
  | 14 => ⟨S190, .i1⟩
  | 15 => ⟨S100000x115x3, .i1⟩
  | 16 => ⟨S_, .f32⟩
  | 17 => ⟨S100000x115x3, .f32⟩
  | 18 => ⟨S100000x115x3, .f32⟩
  | 19 => ⟨S100000x21x3, .f32⟩
  | 20 => ⟨S100000x21x3, .f32⟩
  | 21 => ⟨S100000x25x3, .f32⟩
  | 22 => ⟨S100000x40x3, .f32⟩
  | 23 => ⟨S_, .f32⟩
  | 24 => ⟨S100000x21x3, .f32⟩
  | 25 => ⟨S100000x21x3, .i1⟩
  | 26 => ⟨S100000x21x3, .f32⟩
  | 27 => ⟨S_, .f32⟩
  | 28 => ⟨S_, .f32⟩
  | 29 => ⟨S_, .f32⟩
  | 30 => ⟨S100000x21x3, .f32⟩
  | 31 => ⟨S100000x21x3, .i1⟩
  | 32 => ⟨S100000x21x3, .f32⟩
  | 33 => ⟨S_, .f32⟩
  | 34 => ⟨S_, .f32⟩
  | 35 => ⟨S_, .i1⟩
  | 36 => ⟨S100000x21x3, .f32⟩
  | 37 => ⟨S100000x86x3, .f32⟩
  | 38 => ⟨S100000x86x3, .f32⟩
  | 39 => ⟨S100000x86x3, .f32⟩
  | 40 => ⟨S100000x86x1, .f32⟩
  | 41 => ⟨S100000x86, .f32⟩
  | 42 => ⟨S100000x86, .f32⟩
  | 43 => ⟨S100000x86x1, .f32⟩
  | 44 => ⟨S100000x86, .f32⟩
  | 45 => ⟨S100000x86, .f32⟩
  | 46 => ⟨S100000x86x1, .f32⟩
  | 47 => ⟨S100000x86x2, .f32⟩
  | 48 => ⟨S100000x86x3, .f32⟩
  | 49 => ⟨S100000x63, .f32⟩
  | 50 => ⟨S_, .f32⟩
  | 51 => ⟨S100000, .f32⟩
  | 52 => ⟨S_, .f32⟩
  | 53 => ⟨S100000, .f32⟩
  | 54 => ⟨S100000, .i1⟩
  | 55 => ⟨S100000, .f32⟩
  | 56 => ⟨S_, .f32⟩
  | 57 => ⟨S100000, .f32⟩
  | 58 => ⟨S100000, .f32⟩
  | 59 => ⟨S99999x86x3, .f32⟩
  | 60 => ⟨S99999x86x3, .f32⟩
  | 61 => ⟨S99999x86x3, .f32⟩
  | 62 => ⟨S_, .f32⟩
  | 63 => ⟨S1x86x3, .f32⟩
  | 64 => ⟨S100000x86x3, .f32⟩
  | 65 => ⟨S100000x21x3, .f32⟩
  | 66 => ⟨S_, .i32⟩
  | 67 => ⟨S210, .i32⟩
  | 68 => ⟨S210, .i32⟩
  | 69 => ⟨S210, .i32⟩
  | 70 => ⟨S210x1, .i32⟩
  | 71 => ⟨S100000x210x3, .f32⟩
  | 72 => ⟨S_, .i32⟩
  | 73 => ⟨S210, .i32⟩
  | 74 => ⟨S210, .i32⟩
  | 75 => ⟨S210, .i32⟩
  | 76 => ⟨S210x1, .i32⟩
  | 77 => ⟨S100000x210x3, .f32⟩
  | 78 => ⟨S100000x210x3, .f32⟩
  | 79 => ⟨S100000x210x3, .f32⟩
  | 80 => ⟨S_, .f32⟩
  | 81 => ⟨S100000x210, .f32⟩
  | 82 => ⟨S100000x210, .f32⟩
  | 83 => ⟨S100000x25x2, .f32⟩
  | 84 => ⟨S_, .i32⟩
  | 85 => ⟨S300, .i32⟩
  | 86 => ⟨S300, .i32⟩
  | 87 => ⟨S300, .i32⟩
  | 88 => ⟨S300x1, .i32⟩
  | 89 => ⟨S100000x300x2, .f32⟩
  | 90 => ⟨S_, .i32⟩
  | 91 => ⟨S300, .i32⟩
  | 92 => ⟨S300, .i32⟩
  | 93 => ⟨S300, .i32⟩
  | 94 => ⟨S300x1, .i32⟩
  | 95 => ⟨S100000x300x2, .f32⟩
  | 96 => ⟨S100000x300x2, .f32⟩
  | 97 => ⟨S100000x300x2, .f32⟩
  | 98 => ⟨S_, .f32⟩
  | 99 => ⟨S100000x300, .f32⟩
  | 100 => ⟨S100000x300, .f32⟩
  | 101 => ⟨S100000x20x2, .f32⟩
  | 102 => ⟨S_, .i32⟩
  | 103 => ⟨S190, .i32⟩
  | 104 => ⟨S190, .i32⟩
  | 105 => ⟨S190, .i32⟩
  | 106 => ⟨S190x1, .i32⟩
  | 107 => ⟨S100000x190x2, .f32⟩
  | 108 => ⟨S_, .i32⟩
  | 109 => ⟨S190, .i32⟩
  | 110 => ⟨S190, .i32⟩
  | 111 => ⟨S190, .i32⟩
  | 112 => ⟨S190x1, .i32⟩
  | 113 => ⟨S100000x190x2, .f32⟩
  | 114 => ⟨S100000x190x2, .f32⟩
  | 115 => ⟨S100000x190x2, .f32⟩
  | 116 => ⟨S_, .f32⟩
  | 117 => ⟨S100000x190, .f32⟩
  | 118 => ⟨S100000x190, .f32⟩
  | 119 => ⟨S100000x20x2, .f32⟩
  | 120 => ⟨S_, .i32⟩
  | 121 => ⟨S190, .i32⟩
  | 122 => ⟨S190, .i32⟩
  | 123 => ⟨S190, .i32⟩
  | 124 => ⟨S190x1, .i32⟩
  | 125 => ⟨S100000x190x2, .f32⟩
  | 126 => ⟨S_, .i32⟩
  | 127 => ⟨S190, .i32⟩
  | _ => ⟨S100000x115x3, .f32⟩

abbrev hbmTy0_1 (i : Nat) : BufTy := match i % 128 with
  | 0 => ⟨S190, .i32⟩
  | 1 => ⟨S190, .i32⟩
  | 2 => ⟨S190x1, .i32⟩
  | 3 => ⟨S100000x190x2, .f32⟩
  | 4 => ⟨S100000x190x2, .f32⟩
  | 5 => ⟨S100000x190x2, .f32⟩
  | 6 => ⟨S_, .f32⟩
  | 7 => ⟨S100000x190, .f32⟩
  | 8 => ⟨S100000x190, .f32⟩
  | 9 => ⟨S100000x21x3, .f32⟩
  | 10 => ⟨S100000x63, .f32⟩
  | 11 => ⟨S100000x25x2, .f32⟩
  | 12 => ⟨S100000x50, .f32⟩
  | 13 => ⟨S100000x20x2, .f32⟩
  | 14 => ⟨S100000x40, .f32⟩
  | 15 => ⟨S100000x21x3, .f32⟩
  | 16 => ⟨S100000x63, .f32⟩
  | 17 => ⟨S100000x25x2, .f32⟩
  | 18 => ⟨S100000x50, .f32⟩
  | 19 => ⟨S100000x20x2, .f32⟩
  | 20 => ⟨S100000x40, .f32⟩
  | 21 => ⟨S100000x1, .f32⟩
  | 22 => ⟨S100000x1, .f32⟩
  | 23 => ⟨S100000x1198, .f32⟩
  | 24 => ⟨S200x1198, .f32⟩
  | 25 => ⟨S1x200x1198, .f32⟩
  | _ => ⟨S100000x115x3, .f32⟩

abbrev hbmTy (i : Nat) : BufTy := match i / 128 with
  | 0 => hbmTy0_0 i
  | 1 => hbmTy0_1 i
  | _ => ⟨S100000x115x3, .f32⟩

abbrev bufTy : (tb : Table) → Fin (tcTables nBuf tb) → BufTy
  | .hbm, ⟨i, _⟩ => hbmTy i
  | _, _ => ⟨S100000x115x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_c_4 : Ref sig .tc := ⟨.hbm, 6, rfl⟩
abbrev main_c_5 : Ref sig .tc := ⟨.hbm, 7, rfl⟩
abbrev main_c_6 : Ref sig .tc := ⟨.hbm, 8, rfl⟩
abbrev main_c_7 : Ref sig .tc := ⟨.hbm, 9, rfl⟩
abbrev main_c_8 : Ref sig .tc := ⟨.hbm, 10, rfl⟩
abbrev main_c_9 : Ref sig .tc := ⟨.hbm, 11, rfl⟩
abbrev main_c_10 : Ref sig .tc := ⟨.hbm, 12, rfl⟩
abbrev main_c_11 : Ref sig .tc := ⟨.hbm, 13, rfl⟩
abbrev main_c_12 : Ref sig .tc := ⟨.hbm, 14, rfl⟩
abbrev main_v0 : Ref sig .tc := ⟨.hbm, 15, rfl⟩
abbrev main_cst : Ref sig .tc := ⟨.hbm, 16, rfl⟩
abbrev main_call0_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst_13 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_14 : Ref sig .tc := ⟨.hbm, 27, rfl⟩
abbrev main_v9 : Ref sig .tc := ⟨.hbm, 28, rfl⟩
abbrev main_cst_15 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_16 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_17 : Ref sig .tc := ⟨.hbm, 50, rfl⟩
abbrev main_v29 : Ref sig .tc := ⟨.hbm, 51, rfl⟩
abbrev main_cst_18 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_19 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_20 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_21 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_22 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_23 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_24 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_25 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_26 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_27 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_28 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_29 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_c_30 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c_31 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_32 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩

abbrev nD : Nat := 1
abbrev τ : Topo := Topo.v7x

variable {F : FTy → Type} [FloatOps F]

class Facts₀ : Prop where
  bcast_S_S100000x115x3 : S_.BroadcastsInDim S100000x115x3 (![] : Fin 0 → Fin S100000x115x3.rank)
  slices_S100000x115x3_S100000x21x3_0_40_0 : S100000x115x3.Slices ![0, 40, 0] S100000x21x3
  slices_S100000x115x3_S100000x21x3_0_94_0 : S100000x115x3.Slices ![0, 94, 0] S100000x21x3
  slices_S100000x115x3_S100000x25x3_0_61_0 : S100000x115x3.Slices ![0, 61, 0] S100000x25x3
  slices_S100000x115x3_S100000x40x3_0_0_0 : S100000x115x3.Slices ![0, 0, 0] S100000x40x3
  bcast_S_S100000x21x3 : S_.BroadcastsInDim S100000x21x3 (![] : Fin 0 → Fin S100000x21x3.rank)
  reducesTo_S100000x21x3_S_d0_1_2 : S100000x21x3.ReducesTo [0, 1, 2] S_
  h_S_ : 0 < S_.numel
  concatenates_S100000x21x3_S100000x25x3_S100000x40x3_S100000x86x3_d1 : Shape.Concatenates [S100000x21x3, S100000x25x3, S100000x40x3] S100000x86x3 1
  bcast_S_S100000x86x3 : S_.BroadcastsInDim S100000x86x3 (![] : Fin 0 → Fin S100000x86x3.rank)
  slices_S100000x86x3_S100000x86x1_0_0_0 : S100000x86x3.Slices ![0, 0, 0] S100000x86x1
  shapeCasts_S100000x86x1_S100000x86 : S100000x86x1.ShapeCasts S100000x86
  bcast_S_S100000x86 : S_.BroadcastsInDim S100000x86 (![] : Fin 0 → Fin S100000x86.rank)
  bcast_S100000x86_S100000x86x1_0_1 : S100000x86.BroadcastsInDim S100000x86x1 (![0, 1] : Fin 2 → Fin S100000x86x1.rank)
  slices_S100000x86x3_S100000x86x2_0_0_1 : S100000x86x3.Slices ![0, 0, 1] S100000x86x2
  concatenates_S100000x86x1_S100000x86x2_S100000x86x3_d2 : Shape.Concatenates [S100000x86x1, S100000x86x2] S100000x86x3 2
  shapeCasts_S100000x21x3_S100000x63 : S100000x21x3.ShapeCasts S100000x63
  reducesTo_S100000x63_S100000_d1 : S100000x63.ReducesTo [1] S100000
  bcast_S_S100000 : S_.BroadcastsInDim S100000 (![] : Fin 0 → Fin S100000.rank)
  slices_S100000x86x3_S99999x86x3_0_0_0 : S100000x86x3.Slices ![0, 0, 0] S99999x86x3
  slices_S100000x86x3_S99999x86x3_1_0_0 : S100000x86x3.Slices ![1, 0, 0] S99999x86x3
  bcast_S_S1x86x3 : S_.BroadcastsInDim S1x86x3 (![] : Fin 0 → Fin S1x86x3.rank)
  concatenates_S99999x86x3_S1x86x3_S100000x86x3_d0 : Shape.Concatenates [S99999x86x3, S1x86x3] S100000x86x3 0
  slices_S100000x86x3_S100000x21x3_0_0_0 : S100000x86x3.Slices ![0, 0, 0] S100000x21x3
  bcast_S_S210 : S_.BroadcastsInDim S210 (![] : Fin 0 → Fin S210.rank)
  bcast_S210_S210x1_0 : S210.BroadcastsInDim S210x1 (![0] : Fin 1 → Fin S210x1.rank)
  reducesTo_S100000x210x3_S100000x210_d2 : S100000x210x3.ReducesTo [2] S100000x210
  slices_S100000x86x3_S100000x25x2_0_21_0 : S100000x86x3.Slices ![0, 21, 0] S100000x25x2
  bcast_S_S300 : S_.BroadcastsInDim S300 (![] : Fin 0 → Fin S300.rank)
  bcast_S300_S300x1_0 : S300.BroadcastsInDim S300x1 (![0] : Fin 1 → Fin S300x1.rank)
  reducesTo_S100000x300x2_S100000x300_d2 : S100000x300x2.ReducesTo [2] S100000x300
  slices_S100000x86x3_S100000x20x2_0_46_0 : S100000x86x3.Slices ![0, 46, 0] S100000x20x2
  bcast_S_S190 : S_.BroadcastsInDim S190 (![] : Fin 0 → Fin S190.rank)
  bcast_S190_S190x1_0 : S190.BroadcastsInDim S190x1 (![0] : Fin 1 → Fin S190x1.rank)
  reducesTo_S100000x190x2_S100000x190_d2 : S100000x190x2.ReducesTo [2] S100000x190
  slices_S100000x86x3_S100000x20x2_0_66_0 : S100000x86x3.Slices ![0, 66, 0] S100000x20x2
  shapeCasts_S100000x25x2_S100000x50 : S100000x25x2.ShapeCasts S100000x50
  shapeCasts_S100000x20x2_S100000x40 : S100000x20x2.ShapeCasts S100000x40
  bcast_S100000_S100000x1_0 : S100000.BroadcastsInDim S100000x1 (![0] : Fin 1 → Fin S100000x1.rank)
  concatenates_S100000x63_S100000x50_S100000x40_S100000x63_S100000x50_S100000x40_S100000x210_S100000x300_S100000x190_S100000x190_S100000x1_S100000x1_S100000x1198_d1 : Shape.Concatenates [S100000x63, S100000x50, S100000x40, S100000x63, S100000x50, S100000x40, S100000x210, S100000x300, S100000x190, S100000x190, S100000x1, S100000x1] S100000x1198 1
  slices_S100000x1198_S200x1198_0_0 : S100000x1198.Slices ![0, 0] S200x1198
  shapeCasts_S200x1198_S1x200x1198 : S200x1198.ShapeCasts S1x200x1198
  gather_S100000x21x3_S210x1_S100000x210x3_02_1_n_n_1_1_10000013_wf : GatherDims.WF S100000x21x3 S210x1 S100000x210x3 [0, 2] [1] [] [1] [] 1 ![100000, 1, 3]
  gather_S100000x25x2_S300x1_S100000x300x2_02_1_n_n_1_1_10000012_wf : GatherDims.WF S100000x25x2 S300x1 S100000x300x2 [0, 2] [1] [] [1] [] 1 ![100000, 1, 2]
  gather_S100000x20x2_S190x1_S100000x190x2_02_1_n_n_1_1_10000012_wf : GatherDims.WF S100000x20x2 S190x1 S100000x190x2 [0, 2] [1] [] [1] [] 1 ![100000, 1, 2]

variable [Facts₀]

def gather_S100000x21x3_S210x1_S100000x210x3_02_1_n_n_1_1_10000013 : GatherDims S100000x21x3 S210x1 S100000x210x3 where
  offsetDims := [0, 2]
  collapsedSliceDims := [1]
  operandBatchingDims := []
  startIndicesBatchingDims := []
  startIndexMap := [1]
  indexVectorDim := 1
  sliceSizes := ![100000, 1, 3]
  wf := gather_S100000x21x3_S210x1_S100000x210x3_02_1_n_n_1_1_10000013_wf
def gather_S100000x25x2_S300x1_S100000x300x2_02_1_n_n_1_1_10000012 : GatherDims S100000x25x2 S300x1 S100000x300x2 where
  offsetDims := [0, 2]
  collapsedSliceDims := [1]
  operandBatchingDims := []
  startIndicesBatchingDims := []
  startIndexMap := [1]
  indexVectorDim := 1
  sliceSizes := ![100000, 1, 2]
  wf := gather_S100000x25x2_S300x1_S100000x300x2_02_1_n_n_1_1_10000012_wf
def gather_S100000x20x2_S190x1_S100000x190x2_02_1_n_n_1_1_10000012 : GatherDims S100000x20x2 S190x1 S100000x190x2 where
  offsetDims := [0, 2]
  collapsedSliceDims := [1]
  operandBatchingDims := []
  startIndicesBatchingDims := []
  startIndexMap := [1]
  indexVectorDim := 1
  sliceSizes := ![100000, 1, 2]
  wf := gather_S100000x20x2_S190x1_S100000x190x2_02_1_n_n_1_1_10000012_wf

class Facts : Prop extends Facts₀ where

variable [Facts]
-- ==== Proof.K.Kit.lean ====
import proofs.«101359_j2095944041143_1_alg».proof.Proof.Gen.Kernel.Launch
import proofs.«101359_j2095944041143_1_alg».proof.Proof.Gen.Kernel.Skeleton
import proofs.«101359_j2095944041143_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! @main around the counting region, and the body's two branch conditions in closed form. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev opss : List (List (HloOp τ sig (Elt F))) :=
  [hostOps1, hostOps1_1, hostOps1_2, hostOps1_3, hostOps1_4, hostOps1_5, hostOps1_6, hostOps1_7, hostOps1_8]

abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- A property of every host line after the region, from its statement over the list of stretches. -/
theorem of_forall {p : HloOp τ sig (Elt F) → Prop} (h : (opss (F := F)).Forall fun ops => ops.Forall p) :
    ∀ ops ∈ (opss : List (List (HloOp τ sig (Elt F)))), ∀ op ∈ ops, p op :=
  fun ops hops => List.forall_iff_forall_mem.mp (List.forall_iff_forall_mem.mp h ops hops)

set_option maxHeartbeats 4000000 in
theorem sfx_fresh : ∀ ops ∈ (opss : List (List (HloOp τ sig (Elt F)))), ∀ op ∈ ops, op.fresh = ∅ :=
  of_forall (by simp only [List.Forall]; repeat' constructor)

set_option maxHeartbeats 4000000 in
/-- No later line writes the input array or either count array: each writes only its own result buffer. -/
theorem sfx_keeps : ∀ ops ∈ (opss : List (List (HloOp τ sig (Elt F)))), ∀ op ∈ ops,
    ∀ w, Proc.devRef .tc (Pipeline.arrRef spec0 w) ∉ op.writes :=
  of_forall (by
    simp only [List.Forall]; repeat' constructor
    all_goals (intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)))

theorem sfx_sub : ∀ ops ∈ (opss : List (List (HloOp τ sig (Elt F)))), ∀ op ∈ ops,
    op.bufs ⊆ Pipeline.tailRefs sig Pipeline.Prefetch.none spec0 := by
  rw [Pipeline.tailRefs_none spec0 launch0.win.arr_unscoped]
  exact of_forall (p := fun op => op.bufs ⊆ Pipeline.ucRefs τ sig)
    ⟨hostOps1_sub.imp Pipeline.sub_ucRefs, hostOps1_1_sub.imp Pipeline.sub_ucRefs, hostOps1_2_sub.imp Pipeline.sub_ucRefs,
      hostOps1_3_sub.imp Pipeline.sub_ucRefs, hostOps1_4_sub.imp Pipeline.sub_ucRefs, hostOps1_5_sub.imp Pipeline.sub_ucRefs,
      hostOps1_6_sub.imp Pipeline.sub_ucRefs, hostOps1_7_sub.imp Pipeline.sub_ucRefs, hostOps1_8_sub.imp Pipeline.sub_ucRefs⟩

theorem hmain (𝒱₀ : Variants) : Pipeline.HMainK (Ix := Unit) (Name := ℕ) (U := UR sig nD τ) (Lvl := ℕ) cfgs 0 defs₀ 𝒱₀ m (main (F := F)) (V m)
      (fun _ => Pipeline.chain ((opss (F := F)).map StableHlo.seq)) :=
  Pipeline.hmain_around cfgs 0 defs₀ 𝒱₀ m main [hostOps0] opss hostOps0_sub hostOps0_fresh main_chain

theorem V_main_arg0 (c : Dev nD) : V m c main_arg0 = m ((c : Thread nD τ).loc main_arg0) := by
  dsimp only [V, V0]
  simp only [hostOps0, List.flatten_cons, List.flatten_nil, List.append_nil]
  after_results

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t := by
  exact (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) opss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 20 = 0 :=
  (by decide +kernel : ∀ t : Fin grid0.N, cond0_0 (grid0.coords t) ↔ t.val % 20 = 0)

abbrev cond0_1 (i : grid0.Coords) : Prop := k0_cond2 i = 1#1
theorem hcond0_1 : ∀ t : Fin cfg0.N, cond0_1 (grid0.coords t) ↔ t.val % 20 = 19 :=
  (by decide +kernel : ∀ t : Fin grid0.N, cond0_1 (grid0.coords t) ↔ t.val % 20 = 19)

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

abbrev ms0_0 (t : Fin cfg0.N) : Memref sig .tc .vmem S5000x115x3 .f32 := win0_0.stage (cfg0.slots t 0)
abbrev ms0_1 (t : Fin cfg0.N) : Memref sig .tc .vmem S1x1 .f32 := win0_1.stage (cfg0.slots t 1)
abbrev ms0_2 (t : Fin cfg0.N) : Memref sig .tc .vmem S1x1 .f32 := win0_2.stage (cfg0.slots t 2)
abbrev scM0_0 : Memref sig .tc .vmem S1x1 .f32 := Memref.whole cc0_scratch0
abbrev scM0_1 : Memref sig .tc .vmem S1x1 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.K.Runs.lean ====
import proofs.«101359_j2095944041143_1_alg».proof.Proof.K.Kit
import Idealize.ShloMosaic.Lib.Pipeline.Value

/-! The counting body, once per control case: the first grid point, a middle one, the last one. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The left counter after a block: its old value plus the block's count of nonzero left-hand coordinates. -/
abbrev updL (x : Vec F S5000x115x3 .f32) (s : Vec F S1x1 .f32) : Vec F S1x1 .f32 := k0_pay5 x s
/-- The right counter after a block. -/
abbrev updR (x : Vec F S5000x115x3 .f32) (s : Vec F S1x1 .f32) : Vec F S1x1 .f32 := k0_pay1 (k0_pay4 x) s

/-- Names what a one-word buffer holds after the body's last store to it. -/
theorem read_last {S : Shape} {e : EltTy} (v : View sig .tc .vmem S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ fun y => ⟨_, List.mem_cons_self, View.mem_set_unit_zero h inb y⟩).trans
    (View.canon_cons_unit_zero h inb w L)

variable (c : Dev nD) (i : grid0.Coords)
    (arg1 : Memref sig .tc .vmem S5000x115x3 .f32) (harg1 : arg1.IsWhole)
    (arg2 : Memref sig .tc .vmem S1x1 .f32) (harg2 : arg2.IsWhole)
    (arg3 : Memref sig .tc .vmem S1x1 .f32) (harg3 : arg3.IsWhole)
    (arg4 : Memref sig .tc .vmem S1x1 .f32) (harg4 : arg4.IsWhole)
    (arg5 : Memref sig .tc .vmem S1x1 .f32) (harg5 : arg5.IsWhole)
    (x0 : Vec F S5000x115x3 .f32)

/-- The body from `P` and the input block, to the input block back with the two result buffers and the two counters at the given contents. -/
abbrev Runs (P : sProp 𝕄) (o1 o2 s0 s1 : Vec F S1x1 .f32) : Prop :=
  ∀ (E : Set ℕ) (K : PUnit → sProp 𝕄),
    iprop(owns (c : Thread nD τ) arg1 fullShare x0 ∗ P
        ∗ (iprop(owns (c : Thread nD τ) arg1 fullShare x0 ∗ owns (c : Thread nD τ) arg2 fullShare o1 ∗ owns (c : Thread nD τ) arg3 fullShare o2
            ∗ owns (c : Thread nD τ) arg4 fullShare s0 ∗ owns (c : Thread nD τ) arg5 fullShare s1) -∗ K ⟨⟩))
      ⊢ wp frame (wpE (defs₀ (F := F)) Variants.none c none) E (cc0__reduce_kernel i arg1 harg1 arg2 harg2 arg3 harg3 arg4 harg4 arg5 harg5) K

set_option maxHeartbeats 1000000 in
/-- The first point: both counters, held at anything, are reset to zero and then updated. -/
theorem runA (hc0 : cond0_0 i) (hc1 : ¬cond0_1 i) (xi1 xi2 : Vec F S1x1 .f32) :
    Runs c i arg1 harg1 arg2 harg2 arg3 harg3 arg4 harg4 arg5 harg5 x0
      iprop(owns (c : Thread nD τ) arg2 fullShare xi1 ∗ owns (c : Thread nD τ) arg3 fullShare xi2 ∗ (∃ d, owns (c : Thread nD τ) arg4 fullShare d) ∗ (∃ d, owns (c : Thread nD τ) arg5 fullShare d))
      xi1 xi2 (updL x0 k0_pay2) (updR x0 k0_pay3) := by
  intro E K
  simp only [cc0__reduce_kernel_eq_skeleton]; unfold cc0__reduce_kernel_skel
  simp only [k0_part1_eq_skeleton]
  unfold owns
  iintro ⟨⟨%f0, %hf0, H0⟩, ⟨⟨%f1, %hf1, H1⟩, ⟨%f2, %hf2, H2⟩, ⟨%ds0, %fs0, -, HS0⟩, ⟨%ds1, %fs1, -, HS1⟩⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]; rotate_left; isplitl [H2]; rotate_left; isplitl [HS0]
  all_goals (iexists _; isplitr; swap; · first | iexact H1 | iexact H2 | iexact HS0 | iexact HS1)
  all_goals
    ipureintro
    first
    | exact harg2.read_unread _
    | exact harg3.read_unread _
    | sl_unfold_words; refine (read_last (S := S1x1) _ _ hz2 _ _ _).trans ?_
      simp only [View.readCov_unit_zero (S := S1x1) _ hz2, View.readAt_eq_ld, harg1.read_unread, harg4.read_unread, harg5.read_unread,
        View.ld_unit_zero (S := S5000x115x3) hz3, View.ld_unit_zero (S := S1x1) hz2]

set_option maxHeartbeats 1000000 in
/-- A middle point: each counter is updated from what it held. -/
theorem runB (hc0 : ¬cond0_0 i) (hc1 : ¬cond0_1 i) (xi1 xi2 xs0 xs1 : Vec F S1x1 .f32) :
    Runs c i arg1 harg1 arg2 harg2 arg3 harg3 arg4 harg4 arg5 harg5 x0
      iprop(owns (c : Thread nD τ) arg2 fullShare xi1 ∗ owns (c : Thread nD τ) arg3 fullShare xi2 ∗ owns (c : Thread nD τ) arg4 fullShare xs0 ∗ owns (c : Thread nD τ) arg5 fullShare xs1)
      xi1 xi2 (updL x0 xs0) (updR x0 xs1) := by
  intro E K
  simp only [cc0__reduce_kernel_eq_skeleton]; unfold cc0__reduce_kernel_skel
  simp only [k0_part1_eq_skeleton]
  unfold owns
  iintro ⟨⟨%f0, %hf0, H0⟩, ⟨⟨%f1, %hf1, H1⟩, ⟨%f2, %hf2, H2⟩, ⟨%fs0, %hfs0, HS0⟩, ⟨%fs1, %hfs1, HS1⟩⟩, Hk⟩
  obtain rfl := harg1.eq_unread hf0; obtain rfl := harg2.eq_unread hf1; obtain rfl := harg3.eq_unread hf2
  obtain rfl := harg4.eq_unread hfs0; obtain rfl := harg5.eq_unread hfs1
  sl_exec (disch := first | exact hc0 | exact hc1)
  sl_step
  iapply Hk
  isplitl [H0]
  · iexists _; isplitr; · ipureintro; exact harg1.read_unread _
    iexact H0
  isplitl [H1]; rotate_left; isplitl [H2]; rotate_left; isplitl [HS0]
  all_goals (iexists _; isplitr; swap; · first | iexact H1 | iexact H2 | iexact HS0 | iexact HS1)
  all_goals
    ipureintro
    first
    | exact harg2.read_unread _
    | exact harg3.read_unread _
    | sl_unfold_words; refine (read_last (S := S1x1) _ _ hz2 _ _ _).trans ?_
      simp only [View.readCov_unit_zero (S := S1x1) _ hz2, View.readAt_eq_ld, harg1.read_unread, harg4.read_unread, harg5.read_unread,
        View.ld_unit_zero (S := S5000x115x3) hz3, View.ld_unit_zero (S := S1x1) hz2]

set_option maxHeartbeats 1000000 in
/-- The last point: the counters are updated and each result buffer, held at anything, receives its counter's value. -/
theorem runC (hc0 : ¬cond0_0 i) (hc1 : cond0_1 i) (xs0 xs1 : Vec F S1x1 .f32) :
    Runs c i arg1 harg1 arg2 harg2 arg3 harg3 arg4 harg4 arg5 harg5 x0
      iprop((∃ d, owns (c : Thread nD τ) arg2 fullShare d) ∗ (∃ d, owns (c : Thread nD τ) arg3 fullShare d) ∗ owns (c : Thread nD τ) arg4 fullShare xs0 ∗ owns (c : Thread nD τ) arg5 fullShare xs1)
      (updL x0 xs0) (updR x0 xs1) (updL x0 xs0) (updR x0 xs1) := by
  intro E K
  simp only [cc0__reduce_kernel_eq_skeleton]; unfold cc0__reduce_kernel_skel
  simp only [k0_part1_eq_skeleton]
  unfold owns
  iintro ⟨⟨%f0, %hf0, H0⟩, ⟨⟨%d1, %f1, -, H1⟩, ⟨%d2, %f2, -, H2⟩, ⟨%fs0, %hfs0, HS0⟩, ⟨%fs1, %hfs1, HS1⟩⟩, Hk⟩
  obtain rfl := harg1.eq_unread hf0
  obtain rfl := harg4.eq_unread hfs0; obtain rfl := harg5.eq_unread hfs1
  sl_exec (disch := first | exact hc0 | exact hc1)
  sl_step
  iapply Hk
  isplitl [H0]
  · iexists _; isplitr; · ipureintro; exact harg1.read_unread _
    iexact H0
  isplitl [H1]; rotate_left; isplitl [H2]; rotate_left; isplitl [HS0]
  all_goals (iexists _; isplitr; swap; · first | iexact H1 | iexact H2 | iexact HS0 | iexact HS1)
  all_goals
    ipureintro
    first
    | exact harg2.read_unread _
    | exact harg3.read_unread _
    | sl_unfold_words; refine (read_last (S := S1x1) _ _ hz2 _ _ _).trans ?_
      simp only [View.readCov_unit_zero (S := S1x1) _ hz2, View.readAt_eq_ld, harg1.read_unread, harg4.read_unread, harg5.read_unread,
        View.ld_unit_zero (S := S5000x115x3) hz3, View.ld_unit_zero (S := S1x1) hz2]

end Cert.Kernel.Hand

end
-- ==== Proof.K.Frame.lean ====
import proofs.«101359_j2095944041143_1_alg».proof.Proof.K.Runs

/-! The counting region runs to its end; the invariant carried from grid point to grid point names the two counters. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two counters after point `n`: the first point updates the zero word, each later point what the point before left. -/
def acc (c : Dev nD) : (n : ℕ) → n < cfg0.N → Vec F S1x1 .f32 × Vec F S1x1 .f32
  | 0, hn => (updL (iblk m c 0 ⟨0, hn⟩) k0_pay2, updR (iblk m c 0 ⟨0, hn⟩) k0_pay3)
  | n + 1, hn => (updL (iblk m c 0 ⟨n + 1, hn⟩) (acc c n (Nat.lt_of_succ_lt hn)).1, updR (iblk m c 0 ⟨n + 1, hn⟩) (acc c n (Nat.lt_of_succ_lt hn)).2)

theorem acc_first (c : Dev nD) (t : Fin cfg0.N) (h : t.val = 0) :
    acc m c t.val t.isLt = (updL (iblk m c 0 t) k0_pay2, updR (iblk m c 0 t) k0_pay3) := by
  obtain ⟨n, hn⟩ := t
  cases n with
  | zero => rfl
  | succ n => exact absurd h (Nat.succ_ne_zero n)

theorem acc_next (c : Dev nD) (t : Fin cfg0.N) (h : t.val ≠ 0) :
    acc m c t.val t.isLt = (updL (iblk m c 0 t) (acc m c (t.val - 1) (by omega)).1, updR (iblk m c 0 t) (acc m c (t.val - 1) (by omega)).2) := by
  obtain ⟨n, hn⟩ := t
  cases n with
  | zero => exact absurd rfl h
  | succ n => rfl

/-- Before point `n` the counters hold what point `n - 1` left. -/
def PhiS (c : Dev nD) : (n : ℕ) → n ≤ cfg0.N → sProp 𝕄
  | 0, _ => Pipeline.ΦA spec0 c
  | n + 1, hn => iprop(iprop(owns (c : Thread nD τ) scM0_0 fullShare (acc m c n hn).1 ∗ owns (c : Thread nD τ) scM0_1 fullShare (acc m c n hn).2) ∗ (∃ r, prngReg c r))

theorem PhiS_pos (c : Dev nD) (n : ℕ) (h : n ≤ cfg0.N) (hz : n ≠ 0) :
    PhiS m c n h = iprop(iprop(owns (c : Thread nD τ) scM0_0 fullShare (acc m c (n - 1) (by omega)).1 ∗ owns (c : Thread nD τ) scM0_1 fullShare (acc m c (n - 1) (by omega)).2) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (acc m c t.val t.isLt).1
    | ⟨2, _⟩ => (acc m c t.val t.isLt).2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (acc m c t.val t.isLt).1 := by dsimp only [dats]
theorem after0_2 (c : Dev nD) (t : Fin cfg0.N) : (dats m 0 c).after 2 t = (acc m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the closed forms of the two conditions pick the case, and that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl,
    show (dats m 0 c).Φ t.succ = iprop(iprop(owns (c : Thread nD τ) scM0_0 fullShare (acc m c t.val t.isLt).1 ∗ owns (c : Thread nD τ) scM0_1 fullShare (acc m c t.val t.isLt).2) ∗ (∃ r, prngReg c r)) from rfl,
    show (dats m 0 c).Φ t.castSucc = PhiS m c t.val (Nat.le_of_lt t.isLt) from by dsimp only [dats]; simp only [Fin.coe_castSucc],
    show (dats m 0 c).leavesExact 0 t = owns (c : Thread nD τ) (ms0_0 t) fullShare (iblk m c 0 t) from by
      unfold Dat.leavesExact; rw [liveAt0_0 t, after0_0]]
  have hN : t.val < 20 := lt_of_lt_of_eq t.isLt (show cfg0.N = 20 from N_0)
  by_cases h1 : t.val % 20 = 19
  · have hc0 : ¬cond0_0 (grid0.coords t) := fun h => by have := (hcond0_0 t).mp h; omega
    have hc1 : cond0_1 (grid0.coords t) := (hcond0_1 t).mpr h1
    have hz : t.val ≠ 0 := by omega
    rw [show (dats m 0 c).leavesExact 1 t = owns (c : Thread nD τ) (ms0_1 t) fullShare ((dats m 0 c).after 1 t) from by
        unfold Dat.leavesExact; rw [liveAt0_1 t hc1],
      show (dats m 0 c).leavesExact 2 t = owns (c : Thread nD τ) (ms0_2 t) fullShare ((dats m 0 c).after 2 t) from by
        unfold Dat.leavesExact; rw [liveAt0_2 t hc1],
      after0_1, after0_2, acc_next m c t hz, PhiS_pos m c _ _ hz]
    iintro ⟨⟨⟨HS0, HS1⟩, Hg⟩, Ho, ⟨%d0, H0⟩, ⟨%d1, H1⟩, ⟨%d2, H2⟩⟩
    iapply (runC c (grid0.coords t) _ _ _ _ _ _ _ _ _ _ (iblk m c 0 t) hc0 hc1 _ _ Set.univ _)
    isplitl [H0]; · iexact H0
    isplitl [H1 H2 HS0 HS1]
    · isplitl [H1]; · iexists _; iexact H1
      isplitl [H2]; · iexists _; iexact H2
      isplitl [HS0]; · iexact HS0
      iexact HS1
    iintro ⟨H0, H1, H2, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    iexact H2
  · have hc1 : ¬cond0_1 (grid0.coords t) := fun h => h1 ((hcond0_1 t).mp h)
    rw [Dat.leavesExact_idle (dats m 0 c) 1 t (idleAt0_1 t hc1) (noFlush0_1 t hc1),
      Dat.leavesExact_idle (dats m 0 c) 2 t (idleAt0_2 t hc1) (noFlush0_2 t hc1)]
    by_cases h0 : t.val % 20 = 0
    · have hc0 : cond0_0 (grid0.coords t) := (hcond0_0 t).mpr h0
      have hz : t.val = 0 := by omega
      rw [acc_first m c t hz, show PhiS m c t.val (Nat.le_of_lt t.isLt) = Pipeline.ΦA spec0 c from by
          obtain ⟨n, hn⟩ := t; obtain rfl : n = 0 := hz; rfl, PhiA0_eq]
      iintro ⟨⟨⟨HS0, HS1⟩, Hg⟩, Ho, ⟨%d0, H0⟩, ⟨%d1, H1⟩, ⟨%d2, H2⟩⟩
      iapply (runA c (grid0.coords t) _ _ _ _ _ _ _ _ _ _ (iblk m c 0 t) hc0 hc1 _ _ Set.univ _)
      isplitl [H0]; · iexact H0
      isplitl [H1 H2 HS0 HS1]
      · isplitl [H1]; · iexact H1
        isplitl [H2]; · iexact H2
        isplitl [HS0]; · iexact HS0
        iexact HS1
      iintro ⟨H0, H1, H2, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexists _; iexact H1
      iexists _; iexact H2
    · have hc0 : ¬cond0_0 (grid0.coords t) := fun h => h0 ((hcond0_0 t).mp h)
      have hz : t.val ≠ 0 := by omega
      rw [acc_next m c t hz, PhiS_pos m c _ _ hz]
      iintro ⟨⟨⟨HS0, HS1⟩, Hg⟩, Ho, ⟨%d0, H0⟩, ⟨%d1, H1⟩, ⟨%d2, H2⟩⟩
      iapply (runB c (grid0.coords t) _ _ _ _ _ _ _ _ _ _ (iblk m c 0 t) hc0 hc1 _ _ _ _ Set.univ _)
      isplitl [H0]; · iexact H0
      isplitl [H1 H2 HS0 HS1]
      · isplitl [H1]; · iexact H1
        isplitl [H2]; · iexact H2
        isplitl [HS0]; · iexact HS0
        iexact HS1
      iintro ⟨H0, H1, H2, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexists _; iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 20 := N_0; omega), PhiA0_eq]
  iintro ⟨⟨HS0, HS1⟩, Hg⟩
  isplitl [HS0 HS1]
  · isplitl [HS0]
    · iexists _; iexact HS0
    · iexists _; iexact HS1
  iexact Hg

set_option backward.isDefEq.respectTransparency.types false in
theorem run_main : θ_run defs (onTc (τ := τ) (main (F := F))) (s₀ m ρ) (Pipeline.FramePost cfgs (dats m) 0 (Pipeline.afterTail₀ cfgs (dats m) 0 (V0 m) opss)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := opss) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Hand

end
-- ==== Proof.KI.Kit.lean ====
import proofs.«101359_j2095944041143_1_alg».proof.Proof.Gen.KernelIdeal.Launch
import proofs.«101359_j2095944041143_1_alg».proof.Proof.Gen.KernelIdeal.Skeleton
import proofs.«101359_j2095944041143_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! @main around the counting region, and the body's two branch conditions in closed form. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev opss : List (List (HloOp τ sig (Elt F))) :=
  [hostOps1, hostOps1_1, hostOps1_2, hostOps1_3, hostOps1_4, hostOps1_5, hostOps1_6, hostOps1_7, hostOps1_8]

abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- A property of every host line after the region, from its statement over the list of stretches. -/
theorem of_forall {p : HloOp τ sig (Elt F) → Prop} (h : (opss (F := F)).Forall fun ops => ops.Forall p) :
    ∀ ops ∈ (opss : List (List (HloOp τ sig (Elt F)))), ∀ op ∈ ops, p op :=
  fun ops hops => List.forall_iff_forall_mem.mp (List.forall_iff_forall_mem.mp h ops hops)

set_option maxHeartbeats 4000000 in
theorem sfx_fresh : ∀ ops ∈ (opss : List (List (HloOp τ sig (Elt F)))), ∀ op ∈ ops, op.fresh = ∅ :=
  of_forall (by simp only [List.Forall]; repeat' constructor)

set_option maxHeartbeats 4000000 in
/-- No later line writes the input array or either count array: each writes only its own result buffer. -/
theorem sfx_keeps : ∀ ops ∈ (opss : List (List (HloOp τ sig (Elt F)))), ∀ op ∈ ops,
    ∀ w, Proc.devRef .tc (Pipeline.arrRef spec0 w) ∉ op.writes :=
  of_forall (by
    simp only [List.Forall]; repeat' constructor
    all_goals (intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)))

theorem sfx_sub : ∀ ops ∈ (opss : List (List (HloOp τ sig (Elt F)))), ∀ op ∈ ops,
    op.bufs ⊆ Pipeline.tailRefs sig Pipeline.Prefetch.none spec0 := by
  rw [Pipeline.tailRefs_none spec0 launch0.win.arr_unscoped]
  exact of_forall (p := fun op => op.bufs ⊆ Pipeline.ucRefs τ sig)
    ⟨hostOps1_sub.imp Pipeline.sub_ucRefs, hostOps1_1_sub.imp Pipeline.sub_ucRefs, hostOps1_2_sub.imp Pipeline.sub_ucRefs,
      hostOps1_3_sub.imp Pipeline.sub_ucRefs, hostOps1_4_sub.imp Pipeline.sub_ucRefs, hostOps1_5_sub.imp Pipeline.sub_ucRefs,
      hostOps1_6_sub.imp Pipeline.sub_ucRefs, hostOps1_7_sub.imp Pipeline.sub_ucRefs, hostOps1_8_sub.imp Pipeline.sub_ucRefs⟩

theorem hmain (𝒱₀ : Variants) : Pipeline.HMainK (Ix := Unit) (Name := ℕ) (U := UR sig nD τ) (Lvl := ℕ) cfgs 0 defs₀ 𝒱₀ m (main (F := F)) (V m)
      (fun _ => Pipeline.chain ((opss (F := F)).map StableHlo.seq)) :=
  Pipeline.hmain_around cfgs 0 defs₀ 𝒱₀ m main [hostOps0] opss hostOps0_sub hostOps0_fresh main_chain

theorem V_main_arg0 (c : Dev nD) : V m c main_arg0 = m ((c : Thread nD τ).loc main_arg0) := by
  dsimp only [V, V0]
  simp only [hostOps0, List.flatten_cons, List.flatten_nil, List.append_nil]
  after_results

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t := by
  exact (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) opss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 20 = 0 :=
  (by decide +kernel : ∀ t : Fin grid0.N, cond0_0 (grid0.coords t) ↔ t.val % 20 = 0)

abbrev cond0_1 (i : grid0.Coords) : Prop := k0_cond2 i = 1#1
theorem hcond0_1 : ∀ t : Fin cfg0.N, cond0_1 (grid0.coords t) ↔ t.val % 20 = 19 :=
  (by decide +kernel : ∀ t : Fin grid0.N, cond0_1 (grid0.coords t) ↔ t.val % 20 = 19)

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

abbrev ms0_0 (t : Fin cfg0.N) : Memref sig .tc .vmem S5000x115x3 .f32 := win0_0.stage (cfg0.slots t 0)
abbrev ms0_1 (t : Fin cfg0.N) : Memref sig .tc .vmem S1x1 .f32 := win0_1.stage (cfg0.slots t 1)
abbrev ms0_2 (t : Fin cfg0.N) : Memref sig .tc .vmem S1x1 .f32 := win0_2.stage (cfg0.slots t 2)
abbrev scM0_0 : Memref sig .tc .vmem S1x1 .f32 := Memref.whole cc0_scratch0
abbrev scM0_1 : Memref sig .tc .vmem S1x1 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KI.Runs.lean ====
import proofs.«101359_j2095944041143_1_alg».proof.Proof.KI.Kit
import Idealize.ShloMosaic.Lib.Pipeline.Value

/-! The counting body, once per control case: the first grid point, a middle one, the last one. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The left counter after a block: its old value plus the block's count of nonzero left-hand coordinates. -/
abbrev updL (x : Vec F S5000x115x3 .f32) (s : Vec F S1x1 .f32) : Vec F S1x1 .f32 := k0_pay5 x s
/-- The right counter after a block. -/
abbrev updR (x : Vec F S5000x115x3 .f32) (s : Vec F S1x1 .f32) : Vec F S1x1 .f32 := k0_pay1 (k0_pay4 x) s

/-- Names what a one-word buffer holds after the body's last store to it. -/
theorem read_last {S : Shape} {e : EltTy} (v : View sig .tc .vmem S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ fun y => ⟨_, List.mem_cons_self, View.mem_set_unit_zero h inb y⟩).trans
    (View.canon_cons_unit_zero h inb w L)

variable (c : Dev nD) (i : grid0.Coords)
    (arg1 : Memref sig .tc .vmem S5000x115x3 .f32) (harg1 : arg1.IsWhole)
    (arg2 : Memref sig .tc .vmem S1x1 .f32) (harg2 : arg2.IsWhole)
    (arg3 : Memref sig .tc .vmem S1x1 .f32) (harg3 : arg3.IsWhole)
    (arg4 : Memref sig .tc .vmem S1x1 .f32) (harg4 : arg4.IsWhole)
    (arg5 : Memref sig .tc .vmem S1x1 .f32) (harg5 : arg5.IsWhole)
    (x0 : Vec F S5000x115x3 .f32)

/-- The body from `P` and the input block, to the input block back with the two result buffers and the two counters at the given contents. -/
abbrev Runs (P : sProp 𝕄) (o1 o2 s0 s1 : Vec F S1x1 .f32) : Prop :=
  ∀ (E : Set ℕ) (K : PUnit → sProp 𝕄),
    iprop(owns (c : Thread nD τ) arg1 fullShare x0 ∗ P
        ∗ (iprop(owns (c : Thread nD τ) arg1 fullShare x0 ∗ owns (c : Thread nD τ) arg2 fullShare o1 ∗ owns (c : Thread nD τ) arg3 fullShare o2
            ∗ owns (c : Thread nD τ) arg4 fullShare s0 ∗ owns (c : Thread nD τ) arg5 fullShare s1) -∗ K ⟨⟩))
      ⊢ wp frame (wpE (defs₀ (F := F)) Variants.none c none) E (cc0__reduce_kernel i arg1 harg1 arg2 harg2 arg3 harg3 arg4 harg4 arg5 harg5) K

set_option maxHeartbeats 1000000 in
/-- The first point: both counters, held at anything, are reset to zero and then updated. -/
theorem runA (hc0 : cond0_0 i) (hc1 : ¬cond0_1 i) (xi1 xi2 : Vec F S1x1 .f32) :
    Runs c i arg1 harg1 arg2 harg2 arg3 harg3 arg4 harg4 arg5 harg5 x0
      iprop(owns (c : Thread nD τ) arg2 fullShare xi1 ∗ owns (c : Thread nD τ) arg3 fullShare xi2 ∗ (∃ d, owns (c : Thread nD τ) arg4 fullShare d) ∗ (∃ d, owns (c : Thread nD τ) arg5 fullShare d))
      xi1 xi2 (updL x0 k0_pay2) (updR x0 k0_pay3) := by
  intro E K
  simp only [cc0__reduce_kernel_eq_skeleton]; unfold cc0__reduce_kernel_skel
  simp only [k0_part1_eq_skeleton]
  unfold owns
  iintro ⟨⟨%f0, %hf0, H0⟩, ⟨⟨%f1, %hf1, H1⟩, ⟨%f2, %hf2, H2⟩, ⟨%ds0, %fs0, -, HS0⟩, ⟨%ds1, %fs1, -, HS1⟩⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]; rotate_left; isplitl [H2]; rotate_left; isplitl [HS0]
  all_goals (iexists _; isplitr; swap; · first | iexact H1 | iexact H2 | iexact HS0 | iexact HS1)
  all_goals
    ipureintro
    first
    | exact harg2.read_unread _
    | exact harg3.read_unread _
    | sl_unfold_words; refine (read_last (S := S1x1) _ _ hz2 _ _ _).trans ?_
      simp only [View.readCov_unit_zero (S := S1x1) _ hz2, View.readAt_eq_ld, harg1.read_unread, harg4.read_unread, harg5.read_unread,
        View.ld_unit_zero (S := S5000x115x3) hz3, View.ld_unit_zero (S := S1x1) hz2]

set_option maxHeartbeats 1000000 in
/-- A middle point: each counter is updated from what it held. -/
theorem runB (hc0 : ¬cond0_0 i) (hc1 : ¬cond0_1 i) (xi1 xi2 xs0 xs1 : Vec F S1x1 .f32) :
    Runs c i arg1 harg1 arg2 harg2 arg3 harg3 arg4 harg4 arg5 harg5 x0
      iprop(owns (c : Thread nD τ) arg2 fullShare xi1 ∗ owns (c : Thread nD τ) arg3 fullShare xi2 ∗ owns (c : Thread nD τ) arg4 fullShare xs0 ∗ owns (c : Thread nD τ) arg5 fullShare xs1)
      xi1 xi2 (updL x0 xs0) (updR x0 xs1) := by
  intro E K
  simp only [cc0__reduce_kernel_eq_skeleton]; unfold cc0__reduce_kernel_skel
  simp only [k0_part1_eq_skeleton]
  unfold owns
  iintro ⟨⟨%f0, %hf0, H0⟩, ⟨⟨%f1, %hf1, H1⟩, ⟨%f2, %hf2, H2⟩, ⟨%fs0, %hfs0, HS0⟩, ⟨%fs1, %hfs1, HS1⟩⟩, Hk⟩
  obtain rfl := harg1.eq_unread hf0; obtain rfl := harg2.eq_unread hf1; obtain rfl := harg3.eq_unread hf2
  obtain rfl := harg4.eq_unread hfs0; obtain rfl := harg5.eq_unread hfs1
  sl_exec (disch := first | exact hc0 | exact hc1)
  sl_step
  iapply Hk
  isplitl [H0]
  · iexists _; isplitr; · ipureintro; exact harg1.read_unread _
    iexact H0
  isplitl [H1]; rotate_left; isplitl [H2]; rotate_left; isplitl [HS0]
  all_goals (iexists _; isplitr; swap; · first | iexact H1 | iexact H2 | iexact HS0 | iexact HS1)
  all_goals
    ipureintro
    first
    | exact harg2.read_unread _
    | exact harg3.read_unread _
    | sl_unfold_words; refine (read_last (S := S1x1) _ _ hz2 _ _ _).trans ?_
      simp only [View.readCov_unit_zero (S := S1x1) _ hz2, View.readAt_eq_ld, harg1.read_unread, harg4.read_unread, harg5.read_unread,
        View.ld_unit_zero (S := S5000x115x3) hz3, View.ld_unit_zero (S := S1x1) hz2]

set_option maxHeartbeats 1000000 in
/-- The last point: the counters are updated and each result buffer, held at anything, receives its counter's value. -/
theorem runC (hc0 : ¬cond0_0 i) (hc1 : cond0_1 i) (xs0 xs1 : Vec F S1x1 .f32) :
    Runs c i arg1 harg1 arg2 harg2 arg3 harg3 arg4 harg4 arg5 harg5 x0
      iprop((∃ d, owns (c : Thread nD τ) arg2 fullShare d) ∗ (∃ d, owns (c : Thread nD τ) arg3 fullShare d) ∗ owns (c : Thread nD τ) arg4 fullShare xs0 ∗ owns (c : Thread nD τ) arg5 fullShare xs1)
      (updL x0 xs0) (updR x0 xs1) (updL x0 xs0) (updR x0 xs1) := by
  intro E K
  simp only [cc0__reduce_kernel_eq_skeleton]; unfold cc0__reduce_kernel_skel
  simp only [k0_part1_eq_skeleton]
  unfold owns
  iintro ⟨⟨%f0, %hf0, H0⟩, ⟨⟨%d1, %f1, -, H1⟩, ⟨%d2, %f2, -, H2⟩, ⟨%fs0, %hfs0, HS0⟩, ⟨%fs1, %hfs1, HS1⟩⟩, Hk⟩
  obtain rfl := harg1.eq_unread hf0
  obtain rfl := harg4.eq_unread hfs0; obtain rfl := harg5.eq_unread hfs1
  sl_exec (disch := first | exact hc0 | exact hc1)
  sl_step
  iapply Hk
  isplitl [H0]
  · iexists _; isplitr; · ipureintro; exact harg1.read_unread _
    iexact H0
  isplitl [H1]; rotate_left; isplitl [H2]; rotate_left; isplitl [HS0]
  all_goals (iexists _; isplitr; swap; · first | iexact H1 | iexact H2 | iexact HS0 | iexact HS1)
  all_goals
    ipureintro
    first
    | exact harg2.read_unread _
    | exact harg3.read_unread _
    | sl_unfold_words; refine (read_last (S := S1x1) _ _ hz2 _ _ _).trans ?_
      simp only [View.readCov_unit_zero (S := S1x1) _ hz2, View.readAt_eq_ld, harg1.read_unread, harg4.read_unread, harg5.read_unread,
        View.ld_unit_zero (S := S5000x115x3) hz3, View.ld_unit_zero (S := S1x1) hz2]

end Cert.KernelIdeal.Hand

end
-- ==== Proof.KI.Frame.lean ====
import proofs.«101359_j2095944041143_1_alg».proof.Proof.KI.Runs

/-! The counting region runs to its end; the invariant carried from grid point to grid point names the two counters. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two counters after point `n`: the first point updates the zero word, each later point what the point before left. -/
def acc (c : Dev nD) : (n : ℕ) → n < cfg0.N → Vec F S1x1 .f32 × Vec F S1x1 .f32
  | 0, hn => (updL (iblk m c 0 ⟨0, hn⟩) k0_pay2, updR (iblk m c 0 ⟨0, hn⟩) k0_pay3)
  | n + 1, hn => (updL (iblk m c 0 ⟨n + 1, hn⟩) (acc c n (Nat.lt_of_succ_lt hn)).1, updR (iblk m c 0 ⟨n + 1, hn⟩) (acc c n (Nat.lt_of_succ_lt hn)).2)

theorem acc_first (c : Dev nD) (t : Fin cfg0.N) (h : t.val = 0) :
    acc m c t.val t.isLt = (updL (iblk m c 0 t) k0_pay2, updR (iblk m c 0 t) k0_pay3) := by
  obtain ⟨n, hn⟩ := t
  cases n with
  | zero => rfl
  | succ n => exact absurd h (Nat.succ_ne_zero n)

theorem acc_next (c : Dev nD) (t : Fin cfg0.N) (h : t.val ≠ 0) :
    acc m c t.val t.isLt = (updL (iblk m c 0 t) (acc m c (t.val - 1) (by omega)).1, updR (iblk m c 0 t) (acc m c (t.val - 1) (by omega)).2) := by
  obtain ⟨n, hn⟩ := t
  cases n with
  | zero => exact absurd rfl h
  | succ n => rfl

/-- Before point `n` the counters hold what point `n - 1` left. -/
def PhiS (c : Dev nD) : (n : ℕ) → n ≤ cfg0.N → sProp 𝕄
  | 0, _ => Pipeline.ΦA spec0 c
  | n + 1, hn => iprop(iprop(owns (c : Thread nD τ) scM0_0 fullShare (acc m c n hn).1 ∗ owns (c : Thread nD τ) scM0_1 fullShare (acc m c n hn).2) ∗ (∃ r, prngReg c r))

theorem PhiS_pos (c : Dev nD) (n : ℕ) (h : n ≤ cfg0.N) (hz : n ≠ 0) :
    PhiS m c n h = iprop(iprop(owns (c : Thread nD τ) scM0_0 fullShare (acc m c (n - 1) (by omega)).1 ∗ owns (c : Thread nD τ) scM0_1 fullShare (acc m c (n - 1) (by omega)).2) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (acc m c t.val t.isLt).1
    | ⟨2, _⟩ => (acc m c t.val t.isLt).2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (acc m c t.val t.isLt).1 := by dsimp only [dats]
theorem after0_2 (c : Dev nD) (t : Fin cfg0.N) : (dats m 0 c).after 2 t = (acc m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the closed forms of the two conditions pick the case, and that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl,
    show (dats m 0 c).Φ t.succ = iprop(iprop(owns (c : Thread nD τ) scM0_0 fullShare (acc m c t.val t.isLt).1 ∗ owns (c : Thread nD τ) scM0_1 fullShare (acc m c t.val t.isLt).2) ∗ (∃ r, prngReg c r)) from rfl,
    show (dats m 0 c).Φ t.castSucc = PhiS m c t.val (Nat.le_of_lt t.isLt) from by dsimp only [dats]; simp only [Fin.coe_castSucc],
    show (dats m 0 c).leavesExact 0 t = owns (c : Thread nD τ) (ms0_0 t) fullShare (iblk m c 0 t) from by
      unfold Dat.leavesExact; rw [liveAt0_0 t, after0_0]]
  have hN : t.val < 20 := lt_of_lt_of_eq t.isLt (show cfg0.N = 20 from N_0)
  by_cases h1 : t.val % 20 = 19
  · have hc0 : ¬cond0_0 (grid0.coords t) := fun h => by have := (hcond0_0 t).mp h; omega
    have hc1 : cond0_1 (grid0.coords t) := (hcond0_1 t).mpr h1
    have hz : t.val ≠ 0 := by omega
    rw [show (dats m 0 c).leavesExact 1 t = owns (c : Thread nD τ) (ms0_1 t) fullShare ((dats m 0 c).after 1 t) from by
        unfold Dat.leavesExact; rw [liveAt0_1 t hc1],
      show (dats m 0 c).leavesExact 2 t = owns (c : Thread nD τ) (ms0_2 t) fullShare ((dats m 0 c).after 2 t) from by
        unfold Dat.leavesExact; rw [liveAt0_2 t hc1],
      after0_1, after0_2, acc_next m c t hz, PhiS_pos m c _ _ hz]
    iintro ⟨⟨⟨HS0, HS1⟩, Hg⟩, Ho, ⟨%d0, H0⟩, ⟨%d1, H1⟩, ⟨%d2, H2⟩⟩
    iapply (runC c (grid0.coords t) _ _ _ _ _ _ _ _ _ _ (iblk m c 0 t) hc0 hc1 _ _ Set.univ _)
    isplitl [H0]; · iexact H0
    isplitl [H1 H2 HS0 HS1]
    · isplitl [H1]; · iexists _; iexact H1
      isplitl [H2]; · iexists _; iexact H2
      isplitl [HS0]; · iexact HS0
      iexact HS1
    iintro ⟨H0, H1, H2, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    iexact H2
  · have hc1 : ¬cond0_1 (grid0.coords t) := fun h => h1 ((hcond0_1 t).mp h)
    rw [Dat.leavesExact_idle (dats m 0 c) 1 t (idleAt0_1 t hc1) (noFlush0_1 t hc1),
      Dat.leavesExact_idle (dats m 0 c) 2 t (idleAt0_2 t hc1) (noFlush0_2 t hc1)]
    by_cases h0 : t.val % 20 = 0
    · have hc0 : cond0_0 (grid0.coords t) := (hcond0_0 t).mpr h0
      have hz : t.val = 0 := by omega
      rw [acc_first m c t hz, show PhiS m c t.val (Nat.le_of_lt t.isLt) = Pipeline.ΦA spec0 c from by
          obtain ⟨n, hn⟩ := t; obtain rfl : n = 0 := hz; rfl, PhiA0_eq]
      iintro ⟨⟨⟨HS0, HS1⟩, Hg⟩, Ho, ⟨%d0, H0⟩, ⟨%d1, H1⟩, ⟨%d2, H2⟩⟩
      iapply (runA c (grid0.coords t) _ _ _ _ _ _ _ _ _ _ (iblk m c 0 t) hc0 hc1 _ _ Set.univ _)
      isplitl [H0]; · iexact H0
      isplitl [H1 H2 HS0 HS1]
      · isplitl [H1]; · iexact H1
        isplitl [H2]; · iexact H2
        isplitl [HS0]; · iexact HS0
        iexact HS1
      iintro ⟨H0, H1, H2, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexists _; iexact H1
      iexists _; iexact H2
    · have hc0 : ¬cond0_0 (grid0.coords t) := fun h => h0 ((hcond0_0 t).mp h)
      have hz : t.val ≠ 0 := by omega
      rw [acc_next m c t hz, PhiS_pos m c _ _ hz]
      iintro ⟨⟨⟨HS0, HS1⟩, Hg⟩, Ho, ⟨%d0, H0⟩, ⟨%d1, H1⟩, ⟨%d2, H2⟩⟩
      iapply (runB c (grid0.coords t) _ _ _ _ _ _ _ _ _ _ (iblk m c 0 t) hc0 hc1 _ _ _ _ Set.univ _)
      isplitl [H0]; · iexact H0
      isplitl [H1 H2 HS0 HS1]
      · isplitl [H1]; · iexact H1
        isplitl [H2]; · iexact H2
        isplitl [HS0]; · iexact HS0
        iexact HS1
      iintro ⟨H0, H1, H2, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexists _; iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 20 := N_0; omega), PhiA0_eq]
  iintro ⟨⟨HS0, HS1⟩, Hg⟩
  isplitl [HS0 HS1]
  · isplitl [HS0]
    · iexists _; iexact HS0
    · iexists _; iexact HS1
  iexact Hg

set_option backward.isDefEq.respectTransparency.types false in
theorem run_main : θ_run defs (onTc (τ := τ) (main (F := F))) (s₀ m ρ) (Pipeline.FramePost cfgs (dats m) 0 (Pipeline.afterTail₀ cfgs (dats m) 0 (V0 m) opss)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := opss) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Hand

end
-- ==== Proof.KI.Stages.lean ====
import proofs.«101359_j2095944041143_1_alg».proof.Proof.Gen.KernelIdeal.Launch
import Idealize.ShloMosaic.PureOps.Ideal

noncomputable section

namespace Cert.KernelIdeal.Stages

open Cert.KernelIdeal Idealize.ShloMosaic Idealize.ShloMosaic.TcCoe Idealize.SL.Sem Idealize.ShloMosaic.StableHlo
open Cert.KernelIdeal.Facts₀ Cert.KernelIdeal.Facts

variable {F : FTy → Type} [FloatOps F]

/-- What `main_v1` holds: its operation applied to what its operands hold. -/
def k_main_v1 (W : Valuation τ sig (Elt F)) : (⟨S_, .f32⟩ : BufTy).Contents (Elt F) :=
  shapeCast _ (W (Proc.devRef .tc main_v0_0)) shapeCasts_S1x1_S_

/-- What `main_v2` holds: its operation applied to what its operands hold. -/
def k_main_v2 (W : Valuation τ sig (Elt F)) : (⟨S_, .f32⟩ : BufTy).Contents (Elt F) :=
  shapeCast _ (W (Proc.devRef .tc main_v0_1)) shapeCasts_S1x1_S_

/-- What `main_v3` holds: its operation applied to what its operands hold. -/
def k_main_v3 (W : Valuation τ sig (Elt F)) : (⟨S_, .i1⟩ : BufTy).Contents (Elt F) :=
  (cmpf .ogt : (⟨S_, .f32⟩ : BufTy).Contents (Elt F) → (⟨S_, .f32⟩ : BufTy).Contents (Elt F) → (⟨S_, .i1⟩ : BufTy).Contents (Elt F)) (k_main_v1 W) (k_main_v2 W)

/-- What `main_v4` holds: its operation applied to what its operands hold. -/
def k_main_v4 (W : Valuation τ sig (Elt F)) : (⟨S201x115x3, .f32⟩ : BufTy).Contents (Elt F) :=
  ((extractStridedSlice S201x115x3 ![0, 0, 0] · slices_S100000x115x3_S201x115x3_0_0_0) : (⟨S100000x115x3, .f32⟩ : BufTy).Contents (Elt F) → (⟨S201x115x3, .f32⟩ : BufTy).Contents (Elt F)) (W (Proc.devRef .tc main_arg0))

/-- What `main_v5` holds: its operation applied to what its operands hold. -/
def k_main_v5 (W : Valuation τ sig (Elt F)) : (⟨S201x115x3, .i1⟩ : BufTy).Contents (Elt F) :=
  (cmpf .une : (⟨S201x115x3, .f32⟩ : BufTy).Contents (Elt F) → (⟨S201x115x3, .f32⟩ : BufTy).Contents (Elt F) → (⟨S201x115x3, .i1⟩ : BufTy).Contents (Elt F)) (k_main_v4 W) (k_main_v4 W)

/-- What `main_cst` holds: its operation applied to what its operands hold. -/
def k_main_cst (W : Valuation τ sig (Elt F)) : (⟨S_, .f32⟩ : BufTy).Contents (Elt F) :=
  constant S_ .f32 0x00000000#32

/-- What `main_call0_v0` holds: its operation applied to what its operands hold. -/
def k_main_call0_v0 (W : Valuation τ sig (Elt F)) : (⟨S_, .f32⟩ : BufTy).Contents (Elt F) :=
  id (k_main_cst W)

/-- What `main_call0_v1` holds: its operation applied to what its operands hold. -/
def k_main_call0_v1 (W : Valuation τ sig (Elt F)) : (⟨S201x115x3, .f32⟩ : BufTy).Contents (Elt F) :=
  (broadcastInDim S201x115x3 ![] bcast_S_S201x115x3) (k_main_call0_v0 W)

/-- What `main_v6` holds: its operation applied to what its operands hold. -/
def k_main_v6 (W : Valuation τ sig (Elt F)) : (⟨S201x115x3, .f32⟩ : BufTy).Contents (Elt F) :=
  select (k_main_v5 W) (k_main_call0_v1 W) (k_main_v4 W)

/-- What `main_v7` holds: its operation applied to what its operands hold. -/
def k_main_v7 (W : Valuation τ sig (Elt F)) : (⟨S201x21x3, .f32⟩ : BufTy).Contents (Elt F) :=
  ((extractStridedSlice S201x21x3 ![0, 40, 0] · slices_S201x115x3_S201x21x3_0_40_0) : (⟨S201x115x3, .f32⟩ : BufTy).Contents (Elt F) → (⟨S201x21x3, .f32⟩ : BufTy).Contents (Elt F)) (k_main_v6 W)

/-- What `main_v8` holds: its operation applied to what its operands hold. -/
def k_main_v8 (W : Valuation τ sig (Elt F)) : (⟨S201x21x3, .f32⟩ : BufTy).Contents (Elt F) :=
  ((extractStridedSlice S201x21x3 ![0, 94, 0] · slices_S201x115x3_S201x21x3_0_94_0) : (⟨S201x115x3, .f32⟩ : BufTy).Contents (Elt F) → (⟨S201x21x3, .f32⟩ : BufTy).Contents (Elt F)) (k_main_v6 W)

/-- What `main_v9` holds: its operation applied to what its operands hold. -/
def k_main_v9 (W : Valuation τ sig (Elt F)) : (⟨S201x25x3, .f32⟩ : BufTy).Contents (Elt F) :=
  ((extractStridedSlice S201x25x3 ![0, 61, 0] · slices_S201x115x3_S201x25x3_0_61_0) : (⟨S201x115x3, .f32⟩ : BufTy).Contents (Elt F) → (⟨S201x25x3, .f32⟩ : BufTy).Contents (Elt F)) (k_main_v6 W)

/-- What `main_v10` holds: its operation applied to what its operands hold. -/
def k_main_v10 (W : Valuation τ sig (Elt F)) : (⟨S201x40x3, .f32⟩ : BufTy).Contents (Elt F) :=
  ((extractStridedSlice S201x40x3 ![0, 0, 0] · slices_S201x115x3_S201x40x3_0_0_0) : (⟨S201x115x3, .f32⟩ : BufTy).Contents (Elt F) → (⟨S201x40x3, .f32⟩ : BufTy).Contents (Elt F)) (k_main_v6 W)

/-- What `main_v11` holds: its operation applied to what its operands hold. -/
def k_main_v11 (W : Valuation τ sig (Elt F)) : (⟨S201x21x3, .f32⟩ : BufTy).Contents (Elt F) :=
  (fun p a b => select (broadcastInDim S201x21x3 ![] bcast_S_S201x21x3 p) a b) (k_main_v3 W) (k_main_v7 W) (k_main_v8 W)

/-- What `main_v12` holds: its operation applied to what its operands hold. -/
def k_main_v12 (W : Valuation τ sig (Elt F)) : (⟨S201x86x3, .f32⟩ : BufTy).Contents (Elt F) :=
  concatenate S201x86x3 1 [⟨S201x21x3, (k_main_v7 W)⟩, ⟨S201x25x3, (k_main_v9 W)⟩, ⟨S201x40x3, (k_main_v10 W)⟩] concatenates_S201x21x3_S201x25x3_S201x40x3_S201x86x3_d1

/-- What `main_v13` holds: its operation applied to what its operands hold. -/
def k_main_v13 (W : Valuation τ sig (Elt F)) : (⟨S201x86x3, .f32⟩ : BufTy).Contents (Elt F) :=
  concatenate S201x86x3 1 [⟨S201x21x3, (k_main_v8 W)⟩, ⟨S201x25x3, (k_main_v9 W)⟩, ⟨S201x40x3, (k_main_v10 W)⟩] concatenates_S201x21x3_S201x25x3_S201x40x3_S201x86x3_d1

/-- What `main_v14` holds: its operation applied to what its operands hold. -/
def k_main_v14 (W : Valuation τ sig (Elt F)) : (⟨S201x86x3, .f32⟩ : BufTy).Contents (Elt F) :=
  (fun p a b => select (broadcastInDim S201x86x3 ![] bcast_S_S201x86x3 p) a b) (k_main_v3 W) (k_main_v12 W) (k_main_v13 W)

/-- What `main_v15` holds: its operation applied to what its operands hold. -/
def k_main_v15 (W : Valuation τ sig (Elt F)) : (⟨S201x86x1, .f32⟩ : BufTy).Contents (Elt F) :=
  ((extractStridedSlice S201x86x1 ![0, 0, 0] · slices_S201x86x3_S201x86x1_0_0_0) : (⟨S201x86x3, .f32⟩ : BufTy).Contents (Elt F) → (⟨S201x86x1, .f32⟩ : BufTy).Contents (Elt F)) (k_main_v14 W)

/-- What `main_v16` holds: its operation applied to what its operands hold. -/
def k_main_v16 (W : Valuation τ sig (Elt F)) : (⟨S201x86, .f32⟩ : BufTy).Contents (Elt F) :=
  shapeCast _ (k_main_v15 W) shapeCasts_S201x86x1_S201x86

/-- What `main_v17` holds: its operation applied to what its operands hold. -/
def k_main_v17 (W : Valuation τ sig (Elt F)) : (⟨S201x86, .f32⟩ : BufTy).Contents (Elt F) :=
  (Host.negf : (⟨S201x86, .f32⟩ : BufTy).Contents (Elt F) → (⟨S201x86, .f32⟩ : BufTy).Contents (Elt F)) (k_main_v16 W)

/-- What `main_v18` holds: its operation applied to what its operands hold. -/
def k_main_v18 (W : Valuation τ sig (Elt F)) : (⟨S201x86x1, .f32⟩ : BufTy).Contents (Elt F) :=
  ((extractStridedSlice S201x86x1 ![0, 0, 0] · slices_S201x86x3_S201x86x1_0_0_0) : (⟨S201x86x3, .f32⟩ : BufTy).Contents (Elt F) → (⟨S201x86x1, .f32⟩ : BufTy).Contents (Elt F)) (k_main_v14 W)

/-- What `main_v19` holds: its operation applied to what its operands hold. -/
def k_main_v19 (W : Valuation τ sig (Elt F)) : (⟨S201x86, .f32⟩ : BufTy).Contents (Elt F) :=
  shapeCast _ (k_main_v18 W) shapeCasts_S201x86x1_S201x86

/-- What `main_v20` holds: its operation applied to what its operands hold. -/
def k_main_v20 (W : Valuation τ sig (Elt F)) : (⟨S201x86, .f32⟩ : BufTy).Contents (Elt F) :=
  (fun p a b => select (broadcastInDim S201x86 ![] bcast_S_S201x86 p) a b) (k_main_v3 W) (k_main_v17 W) (k_main_v19 W)

/-- What `main_v21` holds: its operation applied to what its operands hold. -/
def k_main_v21 (W : Valuation τ sig (Elt F)) : (⟨S201x86x1, .f32⟩ : BufTy).Contents (Elt F) :=
  (broadcastInDim S201x86x1 ![0, 1] bcast_S201x86_S201x86x1_0_1 : (⟨S201x86, .f32⟩ : BufTy).Contents (Elt F) → (⟨S201x86x1, .f32⟩ : BufTy).Contents (Elt F)) (k_main_v20 W)

/-- What `main_v22` holds: its operation applied to what its operands hold. -/
def k_main_v22 (W : Valuation τ sig (Elt F)) : (⟨S201x86x2, .f32⟩ : BufTy).Contents (Elt F) :=
  ((extractStridedSlice S201x86x2 ![0, 0, 1] · slices_S201x86x3_S201x86x2_0_0_1) : (⟨S201x86x3, .f32⟩ : BufTy).Contents (Elt F) → (⟨S201x86x2, .f32⟩ : BufTy).Contents (Elt F)) (k_main_v14 W)

/-- What `main_v23` holds: its operation applied to what its operands hold. -/
def k_main_v23 (W : Valuation τ sig (Elt F)) : (⟨S201x86x3, .f32⟩ : BufTy).Contents (Elt F) :=
  ((fun a b => concatenate S201x86x3 2 [⟨S201x86x1, a⟩, ⟨S201x86x2, b⟩] concatenates_S201x86x1_S201x86x2_S201x86x3_d2) : (⟨S201x86x1, .f32⟩ : BufTy).Contents (Elt F) → (⟨S201x86x2, .f32⟩ : BufTy).Contents (Elt F) → (⟨S201x86x3, .f32⟩ : BufTy).Contents (Elt F)) (k_main_v21 W) (k_main_v22 W)

/-- What `main_v24` holds: its operation applied to what its operands hold. -/
def k_main_v24 (W : Valuation τ sig (Elt F)) : (⟨S201x63, .f32⟩ : BufTy).Contents (Elt F) :=
  shapeCast _ (k_main_v11 W) shapeCasts_S201x21x3_S201x63

/-- What `main_cst_13` holds: its operation applied to what its operands hold. -/
def k_main_cst_13 (W : Valuation τ sig (Elt F)) : (⟨S_, .f32⟩ : BufTy).Contents (Elt F) :=
  constant S_ .f32 0x00000000#32

/-- What `main_v25` holds: its operation applied to what its operands hold. -/
def k_main_v25 (W : Valuation τ sig (Elt F)) : (⟨S201, .f32⟩ : BufTy).Contents (Elt F) :=
  ((fun x v => Host.reduceAdd x v reducesTo_S201x63_S201_d1 h_S_) : (⟨S201x63, .f32⟩ : BufTy).Contents (Elt F) → (⟨S_, .f32⟩ : BufTy).Contents (Elt F) → (⟨S201, .f32⟩ : BufTy).Contents (Elt F)) (k_main_v24 W) (k_main_cst_13 W)

/-- What `main_cst_14` holds: its operation applied to what its operands hold. -/
def k_main_cst_14 (W : Valuation τ sig (Elt F)) : (⟨S_, .f32⟩ : BufTy).Contents (Elt F) :=
  constant S_ .f32 0x00000000#32

/-- What `main_v26` holds: its operation applied to what its operands hold. -/
def k_main_v26 (W : Valuation τ sig (Elt F)) : (⟨S201, .f32⟩ : BufTy).Contents (Elt F) :=
  (broadcastInDim S201 ![] bcast_S_S201 : (⟨S_, .f32⟩ : BufTy).Contents (Elt F) → (⟨S201, .f32⟩ : BufTy).Contents (Elt F)) (k_main_cst_14 W)

/-- What `main_v27` holds: its operation applied to what its operands hold. -/
def k_main_v27 (W : Valuation τ sig (Elt F)) : (⟨S201, .i1⟩ : BufTy).Contents (Elt F) :=
  (cmpf .une : (⟨S201, .f32⟩ : BufTy).Contents (Elt F) → (⟨S201, .f32⟩ : BufTy).Contents (Elt F) → (⟨S201, .i1⟩ : BufTy).Contents (Elt F)) (k_main_v25 W) (k_main_v26 W)

/-- What `main_v28` holds: its operation applied to what its operands hold. -/
def k_main_v28 (W : Valuation τ sig (Elt F)) : (⟨S201, .f32⟩ : BufTy).Contents (Elt F) :=
  (uitofp .f32 : (⟨S201, .i1⟩ : BufTy).Contents (Elt F) → (⟨S201, .f32⟩ : BufTy).Contents (Elt F)) (k_main_v27 W)

/-- What `main_cst_15` holds: its operation applied to what its operands hold. -/
def k_main_cst_15 (W : Valuation τ sig (Elt F)) : (⟨S_, .f32⟩ : BufTy).Contents (Elt F) :=
  constant S_ .f32 0x3F800000#32

/-- What `main_v29` holds: its operation applied to what its operands hold. -/
def k_main_v29 (W : Valuation τ sig (Elt F)) : (⟨S201, .f32⟩ : BufTy).Contents (Elt F) :=
  (broadcastInDim S201 ![] bcast_S_S201 : (⟨S_, .f32⟩ : BufTy).Contents (Elt F) → (⟨S201, .f32⟩ : BufTy).Contents (Elt F)) (k_main_cst_15 W)

/-- What `main_v30` holds: its operation applied to what its operands hold. -/
def k_main_v30 (W : Valuation τ sig (Elt F)) : (⟨S201, .f32⟩ : BufTy).Contents (Elt F) :=
  (addf : (⟨S201, .f32⟩ : BufTy).Contents (Elt F) → (⟨S201, .f32⟩ : BufTy).Contents (Elt F) → (⟨S201, .f32⟩ : BufTy).Contents (Elt F)) (k_main_v28 W) (k_main_v29 W)

/-- What `main_v31` holds: its operation applied to what its operands hold. -/
def k_main_v31 (W : Valuation τ sig (Elt F)) : (⟨S200x86x3, .f32⟩ : BufTy).Contents (Elt F) :=
  ((extractStridedSlice S200x86x3 ![0, 0, 0] · slices_S201x86x3_S200x86x3_0_0_0) : (⟨S201x86x3, .f32⟩ : BufTy).Contents (Elt F) → (⟨S200x86x3, .f32⟩ : BufTy).Contents (Elt F)) (k_main_v23 W)

/-- What `main_v32` holds: its operation applied to what its operands hold. -/
def k_main_v32 (W : Valuation τ sig (Elt F)) : (⟨S200x86x3, .f32⟩ : BufTy).Contents (Elt F) :=
  ((extractStridedSlice S200x86x3 ![1, 0, 0] · slices_S201x86x3_S200x86x3_1_0_0) : (⟨S201x86x3, .f32⟩ : BufTy).Contents (Elt F) → (⟨S200x86x3, .f32⟩ : BufTy).Contents (Elt F)) (k_main_v23 W)

/-- What `main_v33` holds: its operation applied to what its operands hold. -/
def k_main_v33 (W : Valuation τ sig (Elt F)) : (⟨S200x86x3, .f32⟩ : BufTy).Contents (Elt F) :=
  (subf : (⟨S200x86x3, .f32⟩ : BufTy).Contents (Elt F) → (⟨S200x86x3, .f32⟩ : BufTy).Contents (Elt F) → (⟨S200x86x3, .f32⟩ : BufTy).Contents (Elt F)) (k_main_v31 W) (k_main_v32 W)

/-- What `main_v34` holds: its operation applied to what its operands hold. -/
def k_main_v34 (W : Valuation τ sig (Elt F)) : (⟨S201x21x3, .f32⟩ : BufTy).Contents (Elt F) :=
  ((extractStridedSlice S201x21x3 ![0, 0, 0] · slices_S201x86x3_S201x21x3_0_0_0) : (⟨S201x86x3, .f32⟩ : BufTy).Contents (Elt F) → (⟨S201x21x3, .f32⟩ : BufTy).Contents (Elt F)) (k_main_v23 W)

/-- What `main_c_16` holds: its operation applied to what its operands hold. -/
def k_main_c_16 (W : Valuation τ sig (Elt F)) : (⟨S_, .i32⟩ : BufTy).Contents (Elt F) :=
  constantI S_ 32 21#32

/-- What `main_v35` holds: its operation applied to what its operands hold. -/
def k_main_v35 (W : Valuation τ sig (Elt F)) : (⟨S210, .i32⟩ : BufTy).Contents (Elt F) :=
  (broadcastInDim S210 ![] bcast_S_S210 : (⟨S_, .i32⟩ : BufTy).Contents (Elt F) → (⟨S210, .i32⟩ : BufTy).Contents (Elt F)) (k_main_c_16 W)

/-- What `main_v36` holds: its operation applied to what its operands hold. -/
def k_main_v36 (W : Valuation τ sig (Elt F)) : (⟨S210, .i32⟩ : BufTy).Contents (Elt F) :=
  (addi : (⟨S210, .i32⟩ : BufTy).Contents (Elt F) → (⟨S210, .i32⟩ : BufTy).Contents (Elt F) → (⟨S210, .i32⟩ : BufTy).Contents (Elt F)) (W (Proc.devRef .tc main_c)) (k_main_v35 W)

/-- What `main_v37` holds: its operation applied to what its operands hold. -/
def k_main_v37 (W : Valuation τ sig (Elt F)) : (⟨S210, .i32⟩ : BufTy).Contents (Elt F) :=
  (select : (⟨S210, .i1⟩ : BufTy).Contents (Elt F) → (⟨S210, .i32⟩ : BufTy).Contents (Elt F) → (⟨S210, .i32⟩ : BufTy).Contents (Elt F) → (⟨S210, .i32⟩ : BufTy).Contents (Elt F)) (W (Proc.devRef .tc main_c_0)) (k_main_v36 W) (W (Proc.devRef .tc main_c))

/-- What `main_v38` holds: its operation applied to what its operands hold. -/
def k_main_v38 (W : Valuation τ sig (Elt F)) : (⟨S210x1, .i32⟩ : BufTy).Contents (Elt F) :=
  (broadcastInDim S210x1 ![0] bcast_S210_S210x1_0 : (⟨S210, .i32⟩ : BufTy).Contents (Elt F) → (⟨S210x1, .i32⟩ : BufTy).Contents (Elt F)) (k_main_v37 W)

/-- What `main_v39` holds: its operation applied to what its operands hold. -/
def k_main_v39 (W : Valuation τ sig (Elt F)) : (⟨S201x210x3, .f32⟩ : BufTy).Contents (Elt F) :=
  ((fun x i => Host.gather gather_S201x21x3_S210x1_S201x210x3_02_1_n_n_1_1_20113 x i) : (⟨S201x21x3, .f32⟩ : BufTy).Contents (Elt F) → (⟨S210x1, .i32⟩ : BufTy).Contents (Elt F) → (⟨S201x210x3, .f32⟩ : BufTy).Contents (Elt F)) (k_main_v34 W) (k_main_v38 W)

/-- What `main_c_17` holds: its operation applied to what its operands hold. -/
def k_main_c_17 (W : Valuation τ sig (Elt F)) : (⟨S_, .i32⟩ : BufTy).Contents (Elt F) :=
  constantI S_ 32 21#32

/-- What `main_v40` holds: its operation applied to what its operands hold. -/
def k_main_v40 (W : Valuation τ sig (Elt F)) : (⟨S210, .i32⟩ : BufTy).Contents (Elt F) :=
  (broadcastInDim S210 ![] bcast_S_S210 : (⟨S_, .i32⟩ : BufTy).Contents (Elt F) → (⟨S210, .i32⟩ : BufTy).Contents (Elt F)) (k_main_c_17 W)

/-- What `main_v41` holds: its operation applied to what its operands hold. -/
def k_main_v41 (W : Valuation τ sig (Elt F)) : (⟨S210, .i32⟩ : BufTy).Contents (Elt F) :=
  (addi : (⟨S210, .i32⟩ : BufTy).Contents (Elt F) → (⟨S210, .i32⟩ : BufTy).Contents (Elt F) → (⟨S210, .i32⟩ : BufTy).Contents (Elt F)) (W (Proc.devRef .tc main_c_1)) (k_main_v40 W)

/-- What `main_v42` holds: its operation applied to what its operands hold. -/
def k_main_v42 (W : Valuation τ sig (Elt F)) : (⟨S210, .i32⟩ : BufTy).Contents (Elt F) :=
  (select : (⟨S210, .i1⟩ : BufTy).Contents (Elt F) → (⟨S210, .i32⟩ : BufTy).Contents (Elt F) → (⟨S210, .i32⟩ : BufTy).Contents (Elt F) → (⟨S210, .i32⟩ : BufTy).Contents (Elt F)) (W (Proc.devRef .tc main_c_2)) (k_main_v41 W) (W (Proc.devRef .tc main_c_1))

/-- What `main_v43` holds: its operation applied to what its operands hold. -/
def k_main_v43 (W : Valuation τ sig (Elt F)) : (⟨S210x1, .i32⟩ : BufTy).Contents (Elt F) :=
  (broadcastInDim S210x1 ![0] bcast_S210_S210x1_0 : (⟨S210, .i32⟩ : BufTy).Contents (Elt F) → (⟨S210x1, .i32⟩ : BufTy).Contents (Elt F)) (k_main_v42 W)

/-- What `main_v44` holds: its operation applied to what its operands hold. -/
def k_main_v44 (W : Valuation τ sig (Elt F)) : (⟨S201x210x3, .f32⟩ : BufTy).Contents (Elt F) :=
  ((fun x i => Host.gather gather_S201x21x3_S210x1_S201x210x3_02_1_n_n_1_1_20113 x i) : (⟨S201x21x3, .f32⟩ : BufTy).Contents (Elt F) → (⟨S210x1, .i32⟩ : BufTy).Contents (Elt F) → (⟨S201x210x3, .f32⟩ : BufTy).Contents (Elt F)) (k_main_v34 W) (k_main_v43 W)

/-- What `main_v45` holds: its operation applied to what its operands hold. -/
def k_main_v45 (W : Valuation τ sig (Elt F)) : (⟨S201x210x3, .f32⟩ : BufTy).Contents (Elt F) :=
  (subf : (⟨S201x210x3, .f32⟩ : BufTy).Contents (Elt F) → (⟨S201x210x3, .f32⟩ : BufTy).Contents (Elt F) → (⟨S201x210x3, .f32⟩ : BufTy).Contents (Elt F)) (k_main_v39 W) (k_main_v44 W)

/-- What `main_v46` holds: its operation applied to what its operands hold. -/
def k_main_v46 (W : Valuation τ sig (Elt F)) : (⟨S201x210x3, .f32⟩ : BufTy).Contents (Elt F) :=
  (mulf : (⟨S201x210x3, .f32⟩ : BufTy).Contents (Elt F) → (⟨S201x210x3, .f32⟩ : BufTy).Contents (Elt F) → (⟨S201x210x3, .f32⟩ : BufTy).Contents (Elt F)) (k_main_v45 W) (k_main_v45 W)

/-- What `main_cst_18` holds: its operation applied to what its operands hold. -/
def k_main_cst_18 (W : Valuation τ sig (Elt F)) : (⟨S_, .f32⟩ : BufTy).Contents (Elt F) :=
  constant S_ .f32 0x00000000#32

/-- What `main_v47` holds: its operation applied to what its operands hold. -/
def k_main_v47 (W : Valuation τ sig (Elt F)) : (⟨S201x210, .f32⟩ : BufTy).Contents (Elt F) :=
  ((fun x v => Host.reduceAdd x v reducesTo_S201x210x3_S201x210_d2 h_S_) : (⟨S201x210x3, .f32⟩ : BufTy).Contents (Elt F) → (⟨S_, .f32⟩ : BufTy).Contents (Elt F) → (⟨S201x210, .f32⟩ : BufTy).Contents (Elt F)) (k_main_v46 W) (k_main_cst_18 W)

/-- What `main_v48` holds: its operation applied to what its operands hold. -/
def k_main_v48 (W : Valuation τ sig (Elt F)) : (⟨S201x210, .f32⟩ : BufTy).Contents (Elt F) :=
  (Host.sqrt : (⟨S201x210, .f32⟩ : BufTy).Contents (Elt F) → (⟨S201x210, .f32⟩ : BufTy).Contents (Elt F)) (k_main_v47 W)

/-- What `main_v49` holds: its operation applied to what its operands hold. -/
def k_main_v49 (W : Valuation τ sig (Elt F)) : (⟨S201x25x2, .f32⟩ : BufTy).Contents (Elt F) :=
  ((extractStridedSlice S201x25x2 ![0, 21, 0] · slices_S201x86x3_S201x25x2_0_21_0) : (⟨S201x86x3, .f32⟩ : BufTy).Contents (Elt F) → (⟨S201x25x2, .f32⟩ : BufTy).Contents (Elt F)) (k_main_v23 W)

/-- What `main_c_19` holds: its operation applied to what its operands hold. -/
def k_main_c_19 (W : Valuation τ sig (Elt F)) : (⟨S_, .i32⟩ : BufTy).Contents (Elt F) :=
  constantI S_ 32 25#32

/-- What `main_v50` holds: its operation applied to what its operands hold. -/
def k_main_v50 (W : Valuation τ sig (Elt F)) : (⟨S300, .i32⟩ : BufTy).Contents (Elt F) :=
  (broadcastInDim S300 ![] bcast_S_S300 : (⟨S_, .i32⟩ : BufTy).Contents (Elt F) → (⟨S300, .i32⟩ : BufTy).Contents (Elt F)) (k_main_c_19 W)

/-- What `main_v51` holds: its operation applied to what its operands hold. -/
def k_main_v51 (W : Valuation τ sig (Elt F)) : (⟨S300, .i32⟩ : BufTy).Contents (Elt F) :=
  (addi : (⟨S300, .i32⟩ : BufTy).Contents (Elt F) → (⟨S300, .i32⟩ : BufTy).Contents (Elt F) → (⟨S300, .i32⟩ : BufTy).Contents (Elt F)) (W (Proc.devRef .tc main_c_3)) (k_main_v50 W)

/-- What `main_v52` holds: its operation applied to what its operands hold. -/
def k_main_v52 (W : Valuation τ sig (Elt F)) : (⟨S300, .i32⟩ : BufTy).Contents (Elt F) :=
  (select : (⟨S300, .i1⟩ : BufTy).Contents (Elt F) → (⟨S300, .i32⟩ : BufTy).Contents (Elt F) → (⟨S300, .i32⟩ : BufTy).Contents (Elt F) → (⟨S300, .i32⟩ : BufTy).Contents (Elt F)) (W (Proc.devRef .tc main_c_4)) (k_main_v51 W) (W (Proc.devRef .tc main_c_3))

/-- What `main_v53` holds: its operation applied to what its operands hold. -/
def k_main_v53 (W : Valuation τ sig (Elt F)) : (⟨S300x1, .i32⟩ : BufTy).Contents (Elt F) :=
  (broadcastInDim S300x1 ![0] bcast_S300_S300x1_0 : (⟨S300, .i32⟩ : BufTy).Contents (Elt F) → (⟨S300x1, .i32⟩ : BufTy).Contents (Elt F)) (k_main_v52 W)

/-- What `main_v54` holds: its operation applied to what its operands hold. -/
def k_main_v54 (W : Valuation τ sig (Elt F)) : (⟨S201x300x2, .f32⟩ : BufTy).Contents (Elt F) :=
  ((fun x i => Host.gather gather_S201x25x2_S300x1_S201x300x2_02_1_n_n_1_1_20112 x i) : (⟨S201x25x2, .f32⟩ : BufTy).Contents (Elt F) → (⟨S300x1, .i32⟩ : BufTy).Contents (Elt F) → (⟨S201x300x2, .f32⟩ : BufTy).Contents (Elt F)) (k_main_v49 W) (k_main_v53 W)

/-- What `main_c_20` holds: its operation applied to what its operands hold. -/
def k_main_c_20 (W : Valuation τ sig (Elt F)) : (⟨S_, .i32⟩ : BufTy).Contents (Elt F) :=
  constantI S_ 32 25#32

/-- What `main_v55` holds: its operation applied to what its operands hold. -/
def k_main_v55 (W : Valuation τ sig (Elt F)) : (⟨S300, .i32⟩ : BufTy).Contents (Elt F) :=
  (broadcastInDim S300 ![] bcast_S_S300 : (⟨S_, .i32⟩ : BufTy).Contents (Elt F) → (⟨S300, .i32⟩ : BufTy).Contents (Elt F)) (k_main_c_20 W)

/-- What `main_v56` holds: its operation applied to what its operands hold. -/
def k_main_v56 (W : Valuation τ sig (Elt F)) : (⟨S300, .i32⟩ : BufTy).Contents (Elt F) :=
  (addi : (⟨S300, .i32⟩ : BufTy).Contents (Elt F) → (⟨S300, .i32⟩ : BufTy).Contents (Elt F) → (⟨S300, .i32⟩ : BufTy).Contents (Elt F)) (W (Proc.devRef .tc main_c_5)) (k_main_v55 W)

/-- What `main_v57` holds: its operation applied to what its operands hold. -/
def k_main_v57 (W : Valuation τ sig (Elt F)) : (⟨S300, .i32⟩ : BufTy).Contents (Elt F) :=
  (select : (⟨S300, .i1⟩ : BufTy).Contents (Elt F) → (⟨S300, .i32⟩ : BufTy).Contents (Elt F) → (⟨S300, .i32⟩ : BufTy).Contents (Elt F) → (⟨S300, .i32⟩ : BufTy).Contents (Elt F)) (W (Proc.devRef .tc main_c_6)) (k_main_v56 W) (W (Proc.devRef .tc main_c_5))

/-- What `main_v58` holds: its operation applied to what its operands hold. -/
def k_main_v58 (W : Valuation τ sig (Elt F)) : (⟨S300x1, .i32⟩ : BufTy).Contents (Elt F) :=
  (broadcastInDim S300x1 ![0] bcast_S300_S300x1_0 : (⟨S300, .i32⟩ : BufTy).Contents (Elt F) → (⟨S300x1, .i32⟩ : BufTy).Contents (Elt F)) (k_main_v57 W)

/-- What `main_v59` holds: its operation applied to what its operands hold. -/
def k_main_v59 (W : Valuation τ sig (Elt F)) : (⟨S201x300x2, .f32⟩ : BufTy).Contents (Elt F) :=
  ((fun x i => Host.gather gather_S201x25x2_S300x1_S201x300x2_02_1_n_n_1_1_20112 x i) : (⟨S201x25x2, .f32⟩ : BufTy).Contents (Elt F) → (⟨S300x1, .i32⟩ : BufTy).Contents (Elt F) → (⟨S201x300x2, .f32⟩ : BufTy).Contents (Elt F)) (k_main_v49 W) (k_main_v58 W)

/-- What `main_v60` holds: its operation applied to what its operands hold. -/
def k_main_v60 (W : Valuation τ sig (Elt F)) : (⟨S201x300x2, .f32⟩ : BufTy).Contents (Elt F) :=
  (subf : (⟨S201x300x2, .f32⟩ : BufTy).Contents (Elt F) → (⟨S201x300x2, .f32⟩ : BufTy).Contents (Elt F) → (⟨S201x300x2, .f32⟩ : BufTy).Contents (Elt F)) (k_main_v54 W) (k_main_v59 W)

/-- What `main_v61` holds: its operation applied to what its operands hold. -/
def k_main_v61 (W : Valuation τ sig (Elt F)) : (⟨S201x300x2, .f32⟩ : BufTy).Contents (Elt F) :=
  (mulf : (⟨S201x300x2, .f32⟩ : BufTy).Contents (Elt F) → (⟨S201x300x2, .f32⟩ : BufTy).Contents (Elt F) → (⟨S201x300x2, .f32⟩ : BufTy).Contents (Elt F)) (k_main_v60 W) (k_main_v60 W)

/-- What `main_cst_21` holds: its operation applied to what its operands hold. -/
def k_main_cst_21 (W : Valuation τ sig (Elt F)) : (⟨S_, .f32⟩ : BufTy).Contents (Elt F) :=
  constant S_ .f32 0x00000000#32

/-- What `main_v62` holds: its operation applied to what its operands hold. -/
def k_main_v62 (W : Valuation τ sig (Elt F)) : (⟨S201x300, .f32⟩ : BufTy).Contents (Elt F) :=
  ((fun x v => Host.reduceAdd x v reducesTo_S201x300x2_S201x300_d2 h_S_) : (⟨S201x300x2, .f32⟩ : BufTy).Contents (Elt F) → (⟨S_, .f32⟩ : BufTy).Contents (Elt F) → (⟨S201x300, .f32⟩ : BufTy).Contents (Elt F)) (k_main_v61 W) (k_main_cst_21 W)

/-- What `main_v63` holds: its operation applied to what its operands hold. -/
def k_main_v63 (W : Valuation τ sig (Elt F)) : (⟨S201x300, .f32⟩ : BufTy).Contents (Elt F) :=
  (Host.sqrt : (⟨S201x300, .f32⟩ : BufTy).Contents (Elt F) → (⟨S201x300, .f32⟩ : BufTy).Contents (Elt F)) (k_main_v62 W)

/-- What `main_v64` holds: its operation applied to what its operands hold. -/
def k_main_v64 (W : Valuation τ sig (Elt F)) : (⟨S201x20x2, .f32⟩ : BufTy).Contents (Elt F) :=
  ((extractStridedSlice S201x20x2 ![0, 46, 0] · slices_S201x86x3_S201x20x2_0_46_0) : (⟨S201x86x3, .f32⟩ : BufTy).Contents (Elt F) → (⟨S201x20x2, .f32⟩ : BufTy).Contents (Elt F)) (k_main_v23 W)

/-- What `main_c_22` holds: its operation applied to what its operands hold. -/
def k_main_c_22 (W : Valuation τ sig (Elt F)) : (⟨S_, .i32⟩ : BufTy).Contents (Elt F) :=
  constantI S_ 32 20#32

/-- What `main_v65` holds: its operation applied to what its operands hold. -/
def k_main_v65 (W : Valuation τ sig (Elt F)) : (⟨S190, .i32⟩ : BufTy).Contents (Elt F) :=
  (broadcastInDim S190 ![] bcast_S_S190 : (⟨S_, .i32⟩ : BufTy).Contents (Elt F) → (⟨S190, .i32⟩ : BufTy).Contents (Elt F)) (k_main_c_22 W)

/-- What `main_v66` holds: its operation applied to what its operands hold. -/
def k_main_v66 (W : Valuation τ sig (Elt F)) : (⟨S190, .i32⟩ : BufTy).Contents (Elt F) :=
  (addi : (⟨S190, .i32⟩ : BufTy).Contents (Elt F) → (⟨S190, .i32⟩ : BufTy).Contents (Elt F) → (⟨S190, .i32⟩ : BufTy).Contents (Elt F)) (W (Proc.devRef .tc main_c_7)) (k_main_v65 W)

/-- What `main_v67` holds: its operation applied to what its operands hold. -/
def k_main_v67 (W : Valuation τ sig (Elt F)) : (⟨S190, .i32⟩ : BufTy).Contents (Elt F) :=
  (select : (⟨S190, .i1⟩ : BufTy).Contents (Elt F) → (⟨S190, .i32⟩ : BufTy).Contents (Elt F) → (⟨S190, .i32⟩ : BufTy).Contents (Elt F) → (⟨S190, .i32⟩ : BufTy).Contents (Elt F)) (W (Proc.devRef .tc main_c_8)) (k_main_v66 W) (W (Proc.devRef .tc main_c_7))

/-- What `main_v68` holds: its operation applied to what its operands hold. -/
def k_main_v68 (W : Valuation τ sig (Elt F)) : (⟨S190x1, .i32⟩ : BufTy).Contents (Elt F) :=
  (broadcastInDim S190x1 ![0] bcast_S190_S190x1_0 : (⟨S190, .i32⟩ : BufTy).Contents (Elt F) → (⟨S190x1, .i32⟩ : BufTy).Contents (Elt F)) (k_main_v67 W)

/-- What `main_v69` holds: its operation applied to what its operands hold. -/
def k_main_v69 (W : Valuation τ sig (Elt F)) : (⟨S201x190x2, .f32⟩ : BufTy).Contents (Elt F) :=
  ((fun x i => Host.gather gather_S201x20x2_S190x1_S201x190x2_02_1_n_n_1_1_20112 x i) : (⟨S201x20x2, .f32⟩ : BufTy).Contents (Elt F) → (⟨S190x1, .i32⟩ : BufTy).Contents (Elt F) → (⟨S201x190x2, .f32⟩ : BufTy).Contents (Elt F)) (k_main_v64 W) (k_main_v68 W)

/-- What `main_c_23` holds: its operation applied to what its operands hold. -/
def k_main_c_23 (W : Valuation τ sig (Elt F)) : (⟨S_, .i32⟩ : BufTy).Contents (Elt F) :=
  constantI S_ 32 20#32

/-- What `main_v70` holds: its operation applied to what its operands hold. -/
def k_main_v70 (W : Valuation τ sig (Elt F)) : (⟨S190, .i32⟩ : BufTy).Contents (Elt F) :=
  (broadcastInDim S190 ![] bcast_S_S190 : (⟨S_, .i32⟩ : BufTy).Contents (Elt F) → (⟨S190, .i32⟩ : BufTy).Contents (Elt F)) (k_main_c_23 W)

/-- What `main_v71` holds: its operation applied to what its operands hold. -/
def k_main_v71 (W : Valuation τ sig (Elt F)) : (⟨S190, .i32⟩ : BufTy).Contents (Elt F) :=
  (addi : (⟨S190, .i32⟩ : BufTy).Contents (Elt F) → (⟨S190, .i32⟩ : BufTy).Contents (Elt F) → (⟨S190, .i32⟩ : BufTy).Contents (Elt F)) (W (Proc.devRef .tc main_c_9)) (k_main_v70 W)

/-- What `main_v72` holds: its operation applied to what its operands hold. -/
def k_main_v72 (W : Valuation τ sig (Elt F)) : (⟨S190, .i32⟩ : BufTy).Contents (Elt F) :=
  (select : (⟨S190, .i1⟩ : BufTy).Contents (Elt F) → (⟨S190, .i32⟩ : BufTy).Contents (Elt F) → (⟨S190, .i32⟩ : BufTy).Contents (Elt F) → (⟨S190, .i32⟩ : BufTy).Contents (Elt F)) (W (Proc.devRef .tc main_c_10)) (k_main_v71 W) (W (Proc.devRef .tc main_c_9))

/-- What `main_v73` holds: its operation applied to what its operands hold. -/
def k_main_v73 (W : Valuation τ sig (Elt F)) : (⟨S190x1, .i32⟩ : BufTy).Contents (Elt F) :=
  (broadcastInDim S190x1 ![0] bcast_S190_S190x1_0 : (⟨S190, .i32⟩ : BufTy).Contents (Elt F) → (⟨S190x1, .i32⟩ : BufTy).Contents (Elt F)) (k_main_v72 W)

/-- What `main_v74` holds: its operation applied to what its operands hold. -/
def k_main_v74 (W : Valuation τ sig (Elt F)) : (⟨S201x190x2, .f32⟩ : BufTy).Contents (Elt F) :=
  ((fun x i => Host.gather gather_S201x20x2_S190x1_S201x190x2_02_1_n_n_1_1_20112 x i) : (⟨S201x20x2, .f32⟩ : BufTy).Contents (Elt F) → (⟨S190x1, .i32⟩ : BufTy).Contents (Elt F) → (⟨S201x190x2, .f32⟩ : BufTy).Contents (Elt F)) (k_main_v64 W) (k_main_v73 W)

/-- What `main_v75` holds: its operation applied to what its operands hold. -/
def k_main_v75 (W : Valuation τ sig (Elt F)) : (⟨S201x190x2, .f32⟩ : BufTy).Contents (Elt F) :=
  (subf : (⟨S201x190x2, .f32⟩ : BufTy).Contents (Elt F) → (⟨S201x190x2, .f32⟩ : BufTy).Contents (Elt F) → (⟨S201x190x2, .f32⟩ : BufTy).Contents (Elt F)) (k_main_v69 W) (k_main_v74 W)

/-- What `main_v76` holds: its operation applied to what its operands hold. -/
def k_main_v76 (W : Valuation τ sig (Elt F)) : (⟨S201x190x2, .f32⟩ : BufTy).Contents (Elt F) :=
  (mulf : (⟨S201x190x2, .f32⟩ : BufTy).Contents (Elt F) → (⟨S201x190x2, .f32⟩ : BufTy).Contents (Elt F) → (⟨S201x190x2, .f32⟩ : BufTy).Contents (Elt F)) (k_main_v75 W) (k_main_v75 W)

/-- What `main_cst_24` holds: its operation applied to what its operands hold. -/
def k_main_cst_24 (W : Valuation τ sig (Elt F)) : (⟨S_, .f32⟩ : BufTy).Contents (Elt F) :=
  constant S_ .f32 0x00000000#32

/-- What `main_v77` holds: its operation applied to what its operands hold. -/
def k_main_v77 (W : Valuation τ sig (Elt F)) : (⟨S201x190, .f32⟩ : BufTy).Contents (Elt F) :=
  ((fun x v => Host.reduceAdd x v reducesTo_S201x190x2_S201x190_d2 h_S_) : (⟨S201x190x2, .f32⟩ : BufTy).Contents (Elt F) → (⟨S_, .f32⟩ : BufTy).Contents (Elt F) → (⟨S201x190, .f32⟩ : BufTy).Contents (Elt F)) (k_main_v76 W) (k_main_cst_24 W)

/-- What `main_v78` holds: its operation applied to what its operands hold. -/
def k_main_v78 (W : Valuation τ sig (Elt F)) : (⟨S201x190, .f32⟩ : BufTy).Contents (Elt F) :=
  (Host.sqrt : (⟨S201x190, .f32⟩ : BufTy).Contents (Elt F) → (⟨S201x190, .f32⟩ : BufTy).Contents (Elt F)) (k_main_v77 W)

/-- What `main_v79` holds: its operation applied to what its operands hold. -/
def k_main_v79 (W : Valuation τ sig (Elt F)) : (⟨S201x20x2, .f32⟩ : BufTy).Contents (Elt F) :=
  ((extractStridedSlice S201x20x2 ![0, 66, 0] · slices_S201x86x3_S201x20x2_0_66_0) : (⟨S201x86x3, .f32⟩ : BufTy).Contents (Elt F) → (⟨S201x20x2, .f32⟩ : BufTy).Contents (Elt F)) (k_main_v23 W)

/-- What `main_c_25` holds: its operation applied to what its operands hold. -/
def k_main_c_25 (W : Valuation τ sig (Elt F)) : (⟨S_, .i32⟩ : BufTy).Contents (Elt F) :=
  constantI S_ 32 20#32

/-- What `main_v80` holds: its operation applied to what its operands hold. -/
def k_main_v80 (W : Valuation τ sig (Elt F)) : (⟨S190, .i32⟩ : BufTy).Contents (Elt F) :=
  (broadcastInDim S190 ![] bcast_S_S190 : (⟨S_, .i32⟩ : BufTy).Contents (Elt F) → (⟨S190, .i32⟩ : BufTy).Contents (Elt F)) (k_main_c_25 W)

/-- What `main_v81` holds: its operation applied to what its operands hold. -/
def k_main_v81 (W : Valuation τ sig (Elt F)) : (⟨S190, .i32⟩ : BufTy).Contents (Elt F) :=
  (addi : (⟨S190, .i32⟩ : BufTy).Contents (Elt F) → (⟨S190, .i32⟩ : BufTy).Contents (Elt F) → (⟨S190, .i32⟩ : BufTy).Contents (Elt F)) (W (Proc.devRef .tc main_c_7)) (k_main_v80 W)

/-- What `main_v82` holds: its operation applied to what its operands hold. -/
def k_main_v82 (W : Valuation τ sig (Elt F)) : (⟨S190, .i32⟩ : BufTy).Contents (Elt F) :=
  (select : (⟨S190, .i1⟩ : BufTy).Contents (Elt F) → (⟨S190, .i32⟩ : BufTy).Contents (Elt F) → (⟨S190, .i32⟩ : BufTy).Contents (Elt F) → (⟨S190, .i32⟩ : BufTy).Contents (Elt F)) (W (Proc.devRef .tc main_c_11)) (k_main_v81 W) (W (Proc.devRef .tc main_c_7))

/-- What `main_v83` holds: its operation applied to what its operands hold. -/
def k_main_v83 (W : Valuation τ sig (Elt F)) : (⟨S190x1, .i32⟩ : BufTy).Contents (Elt F) :=
  (broadcastInDim S190x1 ![0] bcast_S190_S190x1_0 : (⟨S190, .i32⟩ : BufTy).Contents (Elt F) → (⟨S190x1, .i32⟩ : BufTy).Contents (Elt F)) (k_main_v82 W)

/-- What `main_v84` holds: its operation applied to what its operands hold. -/
def k_main_v84 (W : Valuation τ sig (Elt F)) : (⟨S201x190x2, .f32⟩ : BufTy).Contents (Elt F) :=
  ((fun x i => Host.gather gather_S201x20x2_S190x1_S201x190x2_02_1_n_n_1_1_20112 x i) : (⟨S201x20x2, .f32⟩ : BufTy).Contents (Elt F) → (⟨S190x1, .i32⟩ : BufTy).Contents (Elt F) → (⟨S201x190x2, .f32⟩ : BufTy).Contents (Elt F)) (k_main_v79 W) (k_main_v83 W)

/-- What `main_c_26` holds: its operation applied to what its operands hold. -/
def k_main_c_26 (W : Valuation τ sig (Elt F)) : (⟨S_, .i32⟩ : BufTy).Contents (Elt F) :=
  constantI S_ 32 20#32

/-- What `main_v85` holds: its operation applied to what its operands hold. -/
def k_main_v85 (W : Valuation τ sig (Elt F)) : (⟨S190, .i32⟩ : BufTy).Contents (Elt F) :=
  (broadcastInDim S190 ![] bcast_S_S190 : (⟨S_, .i32⟩ : BufTy).Contents (Elt F) → (⟨S190, .i32⟩ : BufTy).Contents (Elt F)) (k_main_c_26 W)

/-- What `main_v86` holds: its operation applied to what its operands hold. -/
def k_main_v86 (W : Valuation τ sig (Elt F)) : (⟨S190, .i32⟩ : BufTy).Contents (Elt F) :=
  (addi : (⟨S190, .i32⟩ : BufTy).Contents (Elt F) → (⟨S190, .i32⟩ : BufTy).Contents (Elt F) → (⟨S190, .i32⟩ : BufTy).Contents (Elt F)) (W (Proc.devRef .tc main_c_9)) (k_main_v85 W)

/-- What `main_v87` holds: its operation applied to what its operands hold. -/
def k_main_v87 (W : Valuation τ sig (Elt F)) : (⟨S190, .i32⟩ : BufTy).Contents (Elt F) :=
  (select : (⟨S190, .i1⟩ : BufTy).Contents (Elt F) → (⟨S190, .i32⟩ : BufTy).Contents (Elt F) → (⟨S190, .i32⟩ : BufTy).Contents (Elt F) → (⟨S190, .i32⟩ : BufTy).Contents (Elt F)) (W (Proc.devRef .tc main_c_12)) (k_main_v86 W) (W (Proc.devRef .tc main_c_9))

/-- What `main_v88` holds: its operation applied to what its operands hold. -/
def k_main_v88 (W : Valuation τ sig (Elt F)) : (⟨S190x1, .i32⟩ : BufTy).Contents (Elt F) :=
  (broadcastInDim S190x1 ![0] bcast_S190_S190x1_0 : (⟨S190, .i32⟩ : BufTy).Contents (Elt F) → (⟨S190x1, .i32⟩ : BufTy).Contents (Elt F)) (k_main_v87 W)

/-- What `main_v89` holds: its operation applied to what its operands hold. -/
def k_main_v89 (W : Valuation τ sig (Elt F)) : (⟨S201x190x2, .f32⟩ : BufTy).Contents (Elt F) :=
  ((fun x i => Host.gather gather_S201x20x2_S190x1_S201x190x2_02_1_n_n_1_1_20112 x i) : (⟨S201x20x2, .f32⟩ : BufTy).Contents (Elt F) → (⟨S190x1, .i32⟩ : BufTy).Contents (Elt F) → (⟨S201x190x2, .f32⟩ : BufTy).Contents (Elt F)) (k_main_v79 W) (k_main_v88 W)

/-- What `main_v90` holds: its operation applied to what its operands hold. -/
def k_main_v90 (W : Valuation τ sig (Elt F)) : (⟨S201x190x2, .f32⟩ : BufTy).Contents (Elt F) :=
  (subf : (⟨S201x190x2, .f32⟩ : BufTy).Contents (Elt F) → (⟨S201x190x2, .f32⟩ : BufTy).Contents (Elt F) → (⟨S201x190x2, .f32⟩ : BufTy).Contents (Elt F)) (k_main_v84 W) (k_main_v89 W)

/-- What `main_v91` holds: its operation applied to what its operands hold. -/
def k_main_v91 (W : Valuation τ sig (Elt F)) : (⟨S201x190x2, .f32⟩ : BufTy).Contents (Elt F) :=
  (mulf : (⟨S201x190x2, .f32⟩ : BufTy).Contents (Elt F) → (⟨S201x190x2, .f32⟩ : BufTy).Contents (Elt F) → (⟨S201x190x2, .f32⟩ : BufTy).Contents (Elt F)) (k_main_v90 W) (k_main_v90 W)

/-- What `main_cst_27` holds: its operation applied to what its operands hold. -/
def k_main_cst_27 (W : Valuation τ sig (Elt F)) : (⟨S_, .f32⟩ : BufTy).Contents (Elt F) :=
  constant S_ .f32 0x00000000#32

/-- What `main_v92` holds: its operation applied to what its operands hold. -/
def k_main_v92 (W : Valuation τ sig (Elt F)) : (⟨S201x190, .f32⟩ : BufTy).Contents (Elt F) :=
  ((fun x v => Host.reduceAdd x v reducesTo_S201x190x2_S201x190_d2 h_S_) : (⟨S201x190x2, .f32⟩ : BufTy).Contents (Elt F) → (⟨S_, .f32⟩ : BufTy).Contents (Elt F) → (⟨S201x190, .f32⟩ : BufTy).Contents (Elt F)) (k_main_v91 W) (k_main_cst_27 W)

/-- What `main_v93` holds: its operation applied to what its operands hold. -/
def k_main_v93 (W : Valuation τ sig (Elt F)) : (⟨S201x190, .f32⟩ : BufTy).Contents (Elt F) :=
  (Host.sqrt : (⟨S201x190, .f32⟩ : BufTy).Contents (Elt F) → (⟨S201x190, .f32⟩ : BufTy).Contents (Elt F)) (k_main_v92 W)

/-- What `main_v94` holds: its operation applied to what its operands hold. -/
def k_main_v94 (W : Valuation τ sig (Elt F)) : (⟨S200x21x3, .f32⟩ : BufTy).Contents (Elt F) :=
  ((extractStridedSlice S200x21x3 ![0, 0, 0] · slices_S201x86x3_S200x21x3_0_0_0) : (⟨S201x86x3, .f32⟩ : BufTy).Contents (Elt F) → (⟨S200x21x3, .f32⟩ : BufTy).Contents (Elt F)) (k_main_v23 W)

/-- What `main_v95` holds: its operation applied to what its operands hold. -/
def k_main_v95 (W : Valuation τ sig (Elt F)) : (⟨S200x63, .f32⟩ : BufTy).Contents (Elt F) :=
  shapeCast _ (k_main_v94 W) shapeCasts_S200x21x3_S200x63

/-- What `main_v96` holds: its operation applied to what its operands hold. -/
def k_main_v96 (W : Valuation τ sig (Elt F)) : (⟨S200x25x2, .f32⟩ : BufTy).Contents (Elt F) :=
  ((extractStridedSlice S200x25x2 ![0, 21, 0] · slices_S201x86x3_S200x25x2_0_21_0) : (⟨S201x86x3, .f32⟩ : BufTy).Contents (Elt F) → (⟨S200x25x2, .f32⟩ : BufTy).Contents (Elt F)) (k_main_v23 W)

/-- What `main_v97` holds: its operation applied to what its operands hold. -/
def k_main_v97 (W : Valuation τ sig (Elt F)) : (⟨S200x50, .f32⟩ : BufTy).Contents (Elt F) :=
  shapeCast _ (k_main_v96 W) shapeCasts_S200x25x2_S200x50

/-- What `main_v98` holds: its operation applied to what its operands hold. -/
def k_main_v98 (W : Valuation τ sig (Elt F)) : (⟨S200x20x2, .f32⟩ : BufTy).Contents (Elt F) :=
  ((extractStridedSlice S200x20x2 ![0, 46, 0] · slices_S201x86x3_S200x20x2_0_46_0) : (⟨S201x86x3, .f32⟩ : BufTy).Contents (Elt F) → (⟨S200x20x2, .f32⟩ : BufTy).Contents (Elt F)) (k_main_v23 W)

/-- What `main_v99` holds: its operation applied to what its operands hold. -/
def k_main_v99 (W : Valuation τ sig (Elt F)) : (⟨S200x40, .f32⟩ : BufTy).Contents (Elt F) :=
  shapeCast _ (k_main_v98 W) shapeCasts_S200x20x2_S200x40

/-- What `main_v100` holds: its operation applied to what its operands hold. -/
def k_main_v100 (W : Valuation τ sig (Elt F)) : (⟨S200x21x3, .f32⟩ : BufTy).Contents (Elt F) :=
  ((extractStridedSlice S200x21x3 ![0, 0, 0] · slices_S200x86x3_S200x21x3_0_0_0) : (⟨S200x86x3, .f32⟩ : BufTy).Contents (Elt F) → (⟨S200x21x3, .f32⟩ : BufTy).Contents (Elt F)) (k_main_v33 W)

/-- What `main_v101` holds: its operation applied to what its operands hold. -/
def k_main_v101 (W : Valuation τ sig (Elt F)) : (⟨S200x63, .f32⟩ : BufTy).Contents (Elt F) :=
  shapeCast _ (k_main_v100 W) shapeCasts_S200x21x3_S200x63

/-- What `main_v102` holds: its operation applied to what its operands hold. -/
def k_main_v102 (W : Valuation τ sig (Elt F)) : (⟨S200x25x2, .f32⟩ : BufTy).Contents (Elt F) :=
  ((extractStridedSlice S200x25x2 ![0, 21, 0] · slices_S200x86x3_S200x25x2_0_21_0) : (⟨S200x86x3, .f32⟩ : BufTy).Contents (Elt F) → (⟨S200x25x2, .f32⟩ : BufTy).Contents (Elt F)) (k_main_v33 W)

/-- What `main_v103` holds: its operation applied to what its operands hold. -/
def k_main_v103 (W : Valuation τ sig (Elt F)) : (⟨S200x50, .f32⟩ : BufTy).Contents (Elt F) :=
  shapeCast _ (k_main_v102 W) shapeCasts_S200x25x2_S200x50

/-- What `main_v104` holds: its operation applied to what its operands hold. -/
def k_main_v104 (W : Valuation τ sig (Elt F)) : (⟨S200x20x2, .f32⟩ : BufTy).Contents (Elt F) :=
  ((extractStridedSlice S200x20x2 ![0, 46, 0] · slices_S200x86x3_S200x20x2_0_46_0) : (⟨S200x86x3, .f32⟩ : BufTy).Contents (Elt F) → (⟨S200x20x2, .f32⟩ : BufTy).Contents (Elt F)) (k_main_v33 W)

/-- What `main_v105` holds: its operation applied to what its operands hold. -/
def k_main_v105 (W : Valuation τ sig (Elt F)) : (⟨S200x40, .f32⟩ : BufTy).Contents (Elt F) :=
  shapeCast _ (k_main_v104 W) shapeCasts_S200x20x2_S200x40

/-- What `main_v106` holds: its operation applied to what its operands hold. -/
def k_main_v106 (W : Valuation τ sig (Elt F)) : (⟨S200x210, .f32⟩ : BufTy).Contents (Elt F) :=
  ((extractStridedSlice S200x210 ![0, 0] · slices_S201x210_S200x210_0_0) : (⟨S201x210, .f32⟩ : BufTy).Contents (Elt F) → (⟨S200x210, .f32⟩ : BufTy).Contents (Elt F)) (k_main_v48 W)

/-- What `main_v107` holds: its operation applied to what its operands hold. -/
def k_main_v107 (W : Valuation τ sig (Elt F)) : (⟨S200x300, .f32⟩ : BufTy).Contents (Elt F) :=
  ((extractStridedSlice S200x300 ![0, 0] · slices_S201x300_S200x300_0_0) : (⟨S201x300, .f32⟩ : BufTy).Contents (Elt F) → (⟨S200x300, .f32⟩ : BufTy).Contents (Elt F)) (k_main_v63 W)

/-- What `main_v108` holds: its operation applied to what its operands hold. -/
def k_main_v108 (W : Valuation τ sig (Elt F)) : (⟨S200x190, .f32⟩ : BufTy).Contents (Elt F) :=
  ((extractStridedSlice S200x190 ![0, 0] · slices_S201x190_S200x190_0_0) : (⟨S201x190, .f32⟩ : BufTy).Contents (Elt F) → (⟨S200x190, .f32⟩ : BufTy).Contents (Elt F)) (k_main_v78 W)

/-- What `main_v109` holds: its operation applied to what its operands hold. -/
def k_main_v109 (W : Valuation τ sig (Elt F)) : (⟨S200x190, .f32⟩ : BufTy).Contents (Elt F) :=
  ((extractStridedSlice S200x190 ![0, 0] · slices_S201x190_S200x190_0_0) : (⟨S201x190, .f32⟩ : BufTy).Contents (Elt F) → (⟨S200x190, .f32⟩ : BufTy).Contents (Elt F)) (k_main_v93 W)

/-- What `main_v110` holds: its operation applied to what its operands hold. -/
def k_main_v110 (W : Valuation τ sig (Elt F)) : (⟨S200, .f32⟩ : BufTy).Contents (Elt F) :=
  ((extractStridedSlice S200 ![0] · slices_S201_S200_0) : (⟨S201, .f32⟩ : BufTy).Contents (Elt F) → (⟨S200, .f32⟩ : BufTy).Contents (Elt F)) (k_main_v28 W)

/-- What `main_v111` holds: its operation applied to what its operands hold. -/
def k_main_v111 (W : Valuation τ sig (Elt F)) : (⟨S200x1, .f32⟩ : BufTy).Contents (Elt F) :=
  (broadcastInDim S200x1 ![0] bcast_S200_S200x1_0 : (⟨S200, .f32⟩ : BufTy).Contents (Elt F) → (⟨S200x1, .f32⟩ : BufTy).Contents (Elt F)) (k_main_v110 W)

/-- What `main_v112` holds: its operation applied to what its operands hold. -/
def k_main_v112 (W : Valuation τ sig (Elt F)) : (⟨S200, .f32⟩ : BufTy).Contents (Elt F) :=
  ((extractStridedSlice S200 ![0] · slices_S201_S200_0) : (⟨S201, .f32⟩ : BufTy).Contents (Elt F) → (⟨S200, .f32⟩ : BufTy).Contents (Elt F)) (k_main_v30 W)

/-- What `main_v113` holds: its operation applied to what its operands hold. -/
def k_main_v113 (W : Valuation τ sig (Elt F)) : (⟨S200x1, .f32⟩ : BufTy).Contents (Elt F) :=
  (broadcastInDim S200x1 ![0] bcast_S200_S200x1_0 : (⟨S200, .f32⟩ : BufTy).Contents (Elt F) → (⟨S200x1, .f32⟩ : BufTy).Contents (Elt F)) (k_main_v112 W)

/-- What `main_v114` holds: its operation applied to what its operands hold. -/
def k_main_v114 (W : Valuation τ sig (Elt F)) : (⟨S200x1198, .f32⟩ : BufTy).Contents (Elt F) :=
  concatenate S200x1198 1 [⟨S200x63, (k_main_v95 W)⟩, ⟨S200x50, (k_main_v97 W)⟩, ⟨S200x40, (k_main_v99 W)⟩, ⟨S200x63, (k_main_v101 W)⟩, ⟨S200x50, (k_main_v103 W)⟩, ⟨S200x40, (k_main_v105 W)⟩, ⟨S200x210, (k_main_v106 W)⟩, ⟨S200x300, (k_main_v107 W)⟩, ⟨S200x190, (k_main_v108 W)⟩, ⟨S200x190, (k_main_v109 W)⟩, ⟨S200x1, (k_main_v111 W)⟩, ⟨S200x1, (k_main_v113 W)⟩] concatenates_S200x63_S200x50_S200x40_S200x63_S200x50_S200x40_S200x210_S200x300_S200x190_S200x190_S200x1_S200x1_S200x1198_d1

/-- What `main_v115` holds: its operation applied to what its operands hold. -/
def k_main_v115 (W : Valuation τ sig (Elt F)) : (⟨S1x200x1198, .f32⟩ : BufTy).Contents (Elt F) :=
  shapeCast _ (k_main_v114 W) shapeCasts_S200x1198_S1x200x1198

end Cert.KernelIdeal.Stages

end
-- ==== Proof.RI.Stages.lean ====
import proofs.«101359_j2095944041143_1_alg».proof.Proof.Gen.ReferenceIdeal
import Idealize.ShloMosaic.Lib.StableHlo.Run
import Idealize.ShloMosaic.PureOps.Ideal

noncomputable section

namespace Cert.ReferenceIdeal.Stages

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- What `main_c` holds: its operation applied to what its operands hold. -/
def r_main_c (V : Valuation τ sig (Elt F)) : (⟨S210, .i32⟩ : BufTy).Contents (Elt F) :=
  fun i => lit0 (S210.rowMajor i)

/-- What `main_c_0` holds: its operation applied to what its operands hold. -/
def r_main_c_0 (V : Valuation τ sig (Elt F)) : (⟨S210, .i1⟩ : BufTy).Contents (Elt F) :=
  constantI S210 1 0#1

/-- What `main_c_1` holds: its operation applied to what its operands hold. -/
def r_main_c_1 (V : Valuation τ sig (Elt F)) : (⟨S210, .i32⟩ : BufTy).Contents (Elt F) :=
  fun i => lit1 (S210.rowMajor i)

/-- What `main_c_2` holds: its operation applied to what its operands hold. -/
def r_main_c_2 (V : Valuation τ sig (Elt F)) : (⟨S210, .i1⟩ : BufTy).Contents (Elt F) :=
  constantI S210 1 0#1

/-- What `main_c_3` holds: its operation applied to what its operands hold. -/
def r_main_c_3 (V : Valuation τ sig (Elt F)) : (⟨S300, .i32⟩ : BufTy).Contents (Elt F) :=
  fun i => lit2 (S300.rowMajor i)

/-- What `main_c_4` holds: its operation applied to what its operands hold. -/
def r_main_c_4 (V : Valuation τ sig (Elt F)) : (⟨S300, .i1⟩ : BufTy).Contents (Elt F) :=
  constantI S300 1 0#1

/-- What `main_c_5` holds: its operation applied to what its operands hold. -/
def r_main_c_5 (V : Valuation τ sig (Elt F)) : (⟨S300, .i32⟩ : BufTy).Contents (Elt F) :=
  fun i => lit3 (S300.rowMajor i)

/-- What `main_c_6` holds: its operation applied to what its operands hold. -/
def r_main_c_6 (V : Valuation τ sig (Elt F)) : (⟨S300, .i1⟩ : BufTy).Contents (Elt F) :=
  constantI S300 1 0#1

/-- What `main_c_7` holds: its operation applied to what its operands hold. -/
def r_main_c_7 (V : Valuation τ sig (Elt F)) : (⟨S190, .i32⟩ : BufTy).Contents (Elt F) :=
  fun i => lit4 (S190.rowMajor i)

/-- What `main_c_8` holds: its operation applied to what its operands hold. -/
def r_main_c_8 (V : Valuation τ sig (Elt F)) : (⟨S190, .i1⟩ : BufTy).Contents (Elt F) :=
  constantI S190 1 0#1

/-- What `main_c_9` holds: its operation applied to what its operands hold. -/
def r_main_c_9 (V : Valuation τ sig (Elt F)) : (⟨S190, .i32⟩ : BufTy).Contents (Elt F) :=
  fun i => lit5 (S190.rowMajor i)

/-- What `main_c_10` holds: its operation applied to what its operands hold. -/
def r_main_c_10 (V : Valuation τ sig (Elt F)) : (⟨S190, .i1⟩ : BufTy).Contents (Elt F) :=
  constantI S190 1 0#1

/-- What `main_c_11` holds: its operation applied to what its operands hold. -/
def r_main_c_11 (V : Valuation τ sig (Elt F)) : (⟨S190, .i1⟩ : BufTy).Contents (Elt F) :=
  constantI S190 1 0#1

/-- What `main_c_12` holds: its operation applied to what its operands hold. -/
def r_main_c_12 (V : Valuation τ sig (Elt F)) : (⟨S190, .i1⟩ : BufTy).Contents (Elt F) :=
  constantI S190 1 0#1

/-- What `main_v0` holds: its operation applied to what its operands hold. -/
def r_main_v0 (V : Valuation τ sig (Elt F)) : (⟨S100000x115x3, .i1⟩ : BufTy).Contents (Elt F) :=
  (cmpf .une : (⟨S100000x115x3, .f32⟩ : BufTy).Contents (Elt F) → (⟨S100000x115x3, .f32⟩ : BufTy).Contents (Elt F) → (⟨S100000x115x3, .i1⟩ : BufTy).Contents (Elt F)) (V (Proc.devRef .tc main_arg0)) (V (Proc.devRef .tc main_arg0))

/-- What `main_cst` holds: its operation applied to what its operands hold. -/
def r_main_cst (V : Valuation τ sig (Elt F)) : (⟨S_, .f32⟩ : BufTy).Contents (Elt F) :=
  constant S_ .f32 0x00000000#32

/-- What `main_call0_v0` holds: its operation applied to what its operands hold. -/
def r_main_call0_v0 (V : Valuation τ sig (Elt F)) : (⟨S100000x115x3, .f32⟩ : BufTy).Contents (Elt F) :=
  (broadcastInDim S100000x115x3 ![] bcast_S_S100000x115x3) (r_main_cst V)

/-- What `main_v1` holds: its operation applied to what its operands hold. -/
def r_main_v1 (V : Valuation τ sig (Elt F)) : (⟨S100000x115x3, .f32⟩ : BufTy).Contents (Elt F) :=
  select (r_main_v0 V) (r_main_call0_v0 V) (V (Proc.devRef .tc main_arg0))

/-- What `main_v2` holds: its operation applied to what its operands hold. -/
def r_main_v2 (V : Valuation τ sig (Elt F)) : (⟨S100000x21x3, .f32⟩ : BufTy).Contents (Elt F) :=
  ((extractStridedSlice S100000x21x3 ![0, 40, 0] · slices_S100000x115x3_S100000x21x3_0_40_0) : (⟨S100000x115x3, .f32⟩ : BufTy).Contents (Elt F) → (⟨S100000x21x3, .f32⟩ : BufTy).Contents (Elt F)) (r_main_v1 V)

/-- What `main_v3` holds: its operation applied to what its operands hold. -/
def r_main_v3 (V : Valuation τ sig (Elt F)) : (⟨S100000x21x3, .f32⟩ : BufTy).Contents (Elt F) :=
  ((extractStridedSlice S100000x21x3 ![0, 94, 0] · slices_S100000x115x3_S100000x21x3_0_94_0) : (⟨S100000x115x3, .f32⟩ : BufTy).Contents (Elt F) → (⟨S100000x21x3, .f32⟩ : BufTy).Contents (Elt F)) (r_main_v1 V)

/-- What `main_v4` holds: its operation applied to what its operands hold. -/
def r_main_v4 (V : Valuation τ sig (Elt F)) : (⟨S100000x25x3, .f32⟩ : BufTy).Contents (Elt F) :=
  ((extractStridedSlice S100000x25x3 ![0, 61, 0] · slices_S100000x115x3_S100000x25x3_0_61_0) : (⟨S100000x115x3, .f32⟩ : BufTy).Contents (Elt F) → (⟨S100000x25x3, .f32⟩ : BufTy).Contents (Elt F)) (r_main_v1 V)

/-- What `main_v5` holds: its operation applied to what its operands hold. -/
def r_main_v5 (V : Valuation τ sig (Elt F)) : (⟨S100000x40x3, .f32⟩ : BufTy).Contents (Elt F) :=
  ((extractStridedSlice S100000x40x3 ![0, 0, 0] · slices_S100000x115x3_S100000x40x3_0_0_0) : (⟨S100000x115x3, .f32⟩ : BufTy).Contents (Elt F) → (⟨S100000x40x3, .f32⟩ : BufTy).Contents (Elt F)) (r_main_v1 V)

/-- What `main_cst_13` holds: its operation applied to what its operands hold. -/
def r_main_cst_13 (V : Valuation τ sig (Elt F)) : (⟨S_, .f32⟩ : BufTy).Contents (Elt F) :=
  constant S_ .f32 0x00000000#32

/-- What `main_v6` holds: its operation applied to what its operands hold. -/
def r_main_v6 (V : Valuation τ sig (Elt F)) : (⟨S100000x21x3, .f32⟩ : BufTy).Contents (Elt F) :=
  (broadcastInDim S100000x21x3 ![] bcast_S_S100000x21x3 : (⟨S_, .f32⟩ : BufTy).Contents (Elt F) → (⟨S100000x21x3, .f32⟩ : BufTy).Contents (Elt F)) (r_main_cst_13 V)

/-- What `main_v7` holds: its operation applied to what its operands hold. -/
def r_main_v7 (V : Valuation τ sig (Elt F)) : (⟨S100000x21x3, .i1⟩ : BufTy).Contents (Elt F) :=
  (cmpf .une : (⟨S100000x21x3, .f32⟩ : BufTy).Contents (Elt F) → (⟨S100000x21x3, .f32⟩ : BufTy).Contents (Elt F) → (⟨S100000x21x3, .i1⟩ : BufTy).Contents (Elt F)) (r_main_v2 V) (r_main_v6 V)

/-- What `main_v8` holds: its operation applied to what its operands hold. -/
def r_main_v8 (V : Valuation τ sig (Elt F)) : (⟨S100000x21x3, .f32⟩ : BufTy).Contents (Elt F) :=
  (uitofp .f32 : (⟨S100000x21x3, .i1⟩ : BufTy).Contents (Elt F) → (⟨S100000x21x3, .f32⟩ : BufTy).Contents (Elt F)) (r_main_v7 V)

/-- What `main_cst_14` holds: its operation applied to what its operands hold. -/
def r_main_cst_14 (V : Valuation τ sig (Elt F)) : (⟨S_, .f32⟩ : BufTy).Contents (Elt F) :=
  constant S_ .f32 0x00000000#32

/-- What `main_v9` holds: its operation applied to what its operands hold. -/
def r_main_v9 (V : Valuation τ sig (Elt F)) : (⟨S_, .f32⟩ : BufTy).Contents (Elt F) :=
  ((fun x v => Host.reduceAdd x v reducesTo_S100000x21x3_S_d0_1_2 h_S_) : (⟨S100000x21x3, .f32⟩ : BufTy).Contents (Elt F) → (⟨S_, .f32⟩ : BufTy).Contents (Elt F) → (⟨S_, .f32⟩ : BufTy).Contents (Elt F)) (r_main_v8 V) (r_main_cst_14 V)

/-- What `main_cst_15` holds: its operation applied to what its operands hold. -/
def r_main_cst_15 (V : Valuation τ sig (Elt F)) : (⟨S_, .f32⟩ : BufTy).Contents (Elt F) :=
  constant S_ .f32 0x00000000#32

/-- What `main_v10` holds: its operation applied to what its operands hold. -/
def r_main_v10 (V : Valuation τ sig (Elt F)) : (⟨S100000x21x3, .f32⟩ : BufTy).Contents (Elt F) :=
  (broadcastInDim S100000x21x3 ![] bcast_S_S100000x21x3 : (⟨S_, .f32⟩ : BufTy).Contents (Elt F) → (⟨S100000x21x3, .f32⟩ : BufTy).Contents (Elt F)) (r_main_cst_15 V)

/-- What `main_v11` holds: its operation applied to what its operands hold. -/
def r_main_v11 (V : Valuation τ sig (Elt F)) : (⟨S100000x21x3, .i1⟩ : BufTy).Contents (Elt F) :=
  (cmpf .une : (⟨S100000x21x3, .f32⟩ : BufTy).Contents (Elt F) → (⟨S100000x21x3, .f32⟩ : BufTy).Contents (Elt F) → (⟨S100000x21x3, .i1⟩ : BufTy).Contents (Elt F)) (r_main_v3 V) (r_main_v10 V)

/-- What `main_v12` holds: its operation applied to what its operands hold. -/
def r_main_v12 (V : Valuation τ sig (Elt F)) : (⟨S100000x21x3, .f32⟩ : BufTy).Contents (Elt F) :=
  (uitofp .f32 : (⟨S100000x21x3, .i1⟩ : BufTy).Contents (Elt F) → (⟨S100000x21x3, .f32⟩ : BufTy).Contents (Elt F)) (r_main_v11 V)

/-- What `main_cst_16` holds: its operation applied to what its operands hold. -/
def r_main_cst_16 (V : Valuation τ sig (Elt F)) : (⟨S_, .f32⟩ : BufTy).Contents (Elt F) :=
  constant S_ .f32 0x00000000#32

/-- What `main_v13` holds: its operation applied to what its operands hold. -/
def r_main_v13 (V : Valuation τ sig (Elt F)) : (⟨S_, .f32⟩ : BufTy).Contents (Elt F) :=
  ((fun x v => Host.reduceAdd x v reducesTo_S100000x21x3_S_d0_1_2 h_S_) : (⟨S100000x21x3, .f32⟩ : BufTy).Contents (Elt F) → (⟨S_, .f32⟩ : BufTy).Contents (Elt F) → (⟨S_, .f32⟩ : BufTy).Contents (Elt F)) (r_main_v12 V) (r_main_cst_16 V)

/-- What `main_v14` holds: its operation applied to what its operands hold. -/
def r_main_v14 (V : Valuation τ sig (Elt F)) : (⟨S_, .i1⟩ : BufTy).Contents (Elt F) :=
  (cmpf .ogt : (⟨S_, .f32⟩ : BufTy).Contents (Elt F) → (⟨S_, .f32⟩ : BufTy).Contents (Elt F) → (⟨S_, .i1⟩ : BufTy).Contents (Elt F)) (r_main_v9 V) (r_main_v13 V)

/-- What `main_v15` holds: its operation applied to what its operands hold. -/
def r_main_v15 (V : Valuation τ sig (Elt F)) : (⟨S100000x21x3, .f32⟩ : BufTy).Contents (Elt F) :=
  (fun p a b => select (broadcastInDim S100000x21x3 ![] bcast_S_S100000x21x3 p) a b) (r_main_v14 V) (r_main_v2 V) (r_main_v3 V)

/-- What `main_v16` holds: its operation applied to what its operands hold. -/
def r_main_v16 (V : Valuation τ sig (Elt F)) : (⟨S100000x86x3, .f32⟩ : BufTy).Contents (Elt F) :=
  concatenate S100000x86x3 1 [⟨S100000x21x3, (r_main_v2 V)⟩, ⟨S100000x25x3, (r_main_v4 V)⟩, ⟨S100000x40x3, (r_main_v5 V)⟩] concatenates_S100000x21x3_S100000x25x3_S100000x40x3_S100000x86x3_d1

/-- What `main_v17` holds: its operation applied to what its operands hold. -/
def r_main_v17 (V : Valuation τ sig (Elt F)) : (⟨S100000x86x3, .f32⟩ : BufTy).Contents (Elt F) :=
  concatenate S100000x86x3 1 [⟨S100000x21x3, (r_main_v3 V)⟩, ⟨S100000x25x3, (r_main_v4 V)⟩, ⟨S100000x40x3, (r_main_v5 V)⟩] concatenates_S100000x21x3_S100000x25x3_S100000x40x3_S100000x86x3_d1

/-- What `main_v18` holds: its operation applied to what its operands hold. -/
def r_main_v18 (V : Valuation τ sig (Elt F)) : (⟨S100000x86x3, .f32⟩ : BufTy).Contents (Elt F) :=
  (fun p a b => select (broadcastInDim S100000x86x3 ![] bcast_S_S100000x86x3 p) a b) (r_main_v14 V) (r_main_v16 V) (r_main_v17 V)

/-- What `main_v19` holds: its operation applied to what its operands hold. -/
def r_main_v19 (V : Valuation τ sig (Elt F)) : (⟨S100000x86x1, .f32⟩ : BufTy).Contents (Elt F) :=
  ((extractStridedSlice S100000x86x1 ![0, 0, 0] · slices_S100000x86x3_S100000x86x1_0_0_0) : (⟨S100000x86x3, .f32⟩ : BufTy).Contents (Elt F) → (⟨S100000x86x1, .f32⟩ : BufTy).Contents (Elt F)) (r_main_v18 V)

/-- What `main_v20` holds: its operation applied to what its operands hold. -/
def r_main_v20 (V : Valuation τ sig (Elt F)) : (⟨S100000x86, .f32⟩ : BufTy).Contents (Elt F) :=
  shapeCast _ (r_main_v19 V) shapeCasts_S100000x86x1_S100000x86

/-- What `main_v21` holds: its operation applied to what its operands hold. -/
def r_main_v21 (V : Valuation τ sig (Elt F)) : (⟨S100000x86, .f32⟩ : BufTy).Contents (Elt F) :=
  (Host.negf : (⟨S100000x86, .f32⟩ : BufTy).Contents (Elt F) → (⟨S100000x86, .f32⟩ : BufTy).Contents (Elt F)) (r_main_v20 V)

/-- What `main_v22` holds: its operation applied to what its operands hold. -/
def r_main_v22 (V : Valuation τ sig (Elt F)) : (⟨S100000x86x1, .f32⟩ : BufTy).Contents (Elt F) :=
  ((extractStridedSlice S100000x86x1 ![0, 0, 0] · slices_S100000x86x3_S100000x86x1_0_0_0) : (⟨S100000x86x3, .f32⟩ : BufTy).Contents (Elt F) → (⟨S100000x86x1, .f32⟩ : BufTy).Contents (Elt F)) (r_main_v18 V)

/-- What `main_v23` holds: its operation applied to what its operands hold. -/
def r_main_v23 (V : Valuation τ sig (Elt F)) : (⟨S100000x86, .f32⟩ : BufTy).Contents (Elt F) :=
  shapeCast _ (r_main_v22 V) shapeCasts_S100000x86x1_S100000x86

/-- What `main_v24` holds: its operation applied to what its operands hold. -/
def r_main_v24 (V : Valuation τ sig (Elt F)) : (⟨S100000x86, .f32⟩ : BufTy).Contents (Elt F) :=
  (fun p a b => select (broadcastInDim S100000x86 ![] bcast_S_S100000x86 p) a b) (r_main_v14 V) (r_main_v21 V) (r_main_v23 V)

/-- What `main_v25` holds: its operation applied to what its operands hold. -/
def r_main_v25 (V : Valuation τ sig (Elt F)) : (⟨S100000x86x1, .f32⟩ : BufTy).Contents (Elt F) :=
  (broadcastInDim S100000x86x1 ![0, 1] bcast_S100000x86_S100000x86x1_0_1 : (⟨S100000x86, .f32⟩ : BufTy).Contents (Elt F) → (⟨S100000x86x1, .f32⟩ : BufTy).Contents (Elt F)) (r_main_v24 V)

/-- What `main_v26` holds: its operation applied to what its operands hold. -/
def r_main_v26 (V : Valuation τ sig (Elt F)) : (⟨S100000x86x2, .f32⟩ : BufTy).Contents (Elt F) :=
  ((extractStridedSlice S100000x86x2 ![0, 0, 1] · slices_S100000x86x3_S100000x86x2_0_0_1) : (⟨S100000x86x3, .f32⟩ : BufTy).Contents (Elt F) → (⟨S100000x86x2, .f32⟩ : BufTy).Contents (Elt F)) (r_main_v18 V)

/-- What `main_v27` holds: its operation applied to what its operands hold. -/
def r_main_v27 (V : Valuation τ sig (Elt F)) : (⟨S100000x86x3, .f32⟩ : BufTy).Contents (Elt F) :=
  ((fun a b => concatenate S100000x86x3 2 [⟨S100000x86x1, a⟩, ⟨S100000x86x2, b⟩] concatenates_S100000x86x1_S100000x86x2_S100000x86x3_d2) : (⟨S100000x86x1, .f32⟩ : BufTy).Contents (Elt F) → (⟨S100000x86x2, .f32⟩ : BufTy).Contents (Elt F) → (⟨S100000x86x3, .f32⟩ : BufTy).Contents (Elt F)) (r_main_v25 V) (r_main_v26 V)

/-- What `main_v28` holds: its operation applied to what its operands hold. -/
def r_main_v28 (V : Valuation τ sig (Elt F)) : (⟨S100000x63, .f32⟩ : BufTy).Contents (Elt F) :=
  shapeCast _ (r_main_v15 V) shapeCasts_S100000x21x3_S100000x63

/-- What `main_cst_17` holds: its operation applied to what its operands hold. -/
def r_main_cst_17 (V : Valuation τ sig (Elt F)) : (⟨S_, .f32⟩ : BufTy).Contents (Elt F) :=
  constant S_ .f32 0x00000000#32

/-- What `main_v29` holds: its operation applied to what its operands hold. -/
def r_main_v29 (V : Valuation τ sig (Elt F)) : (⟨S100000, .f32⟩ : BufTy).Contents (Elt F) :=
  ((fun x v => Host.reduceAdd x v reducesTo_S100000x63_S100000_d1 h_S_) : (⟨S100000x63, .f32⟩ : BufTy).Contents (Elt F) → (⟨S_, .f32⟩ : BufTy).Contents (Elt F) → (⟨S100000, .f32⟩ : BufTy).Contents (Elt F)) (r_main_v28 V) (r_main_cst_17 V)

/-- What `main_cst_18` holds: its operation applied to what its operands hold. -/
def r_main_cst_18 (V : Valuation τ sig (Elt F)) : (⟨S_, .f32⟩ : BufTy).Contents (Elt F) :=
  constant S_ .f32 0x00000000#32

/-- What `main_v30` holds: its operation applied to what its operands hold. -/
def r_main_v30 (V : Valuation τ sig (Elt F)) : (⟨S100000, .f32⟩ : BufTy).Contents (Elt F) :=
  (broadcastInDim S100000 ![] bcast_S_S100000 : (⟨S_, .f32⟩ : BufTy).Contents (Elt F) → (⟨S100000, .f32⟩ : BufTy).Contents (Elt F)) (r_main_cst_18 V)

/-- What `main_v31` holds: its operation applied to what its operands hold. -/
def r_main_v31 (V : Valuation τ sig (Elt F)) : (⟨S100000, .i1⟩ : BufTy).Contents (Elt F) :=
  (cmpf .une : (⟨S100000, .f32⟩ : BufTy).Contents (Elt F) → (⟨S100000, .f32⟩ : BufTy).Contents (Elt F) → (⟨S100000, .i1⟩ : BufTy).Contents (Elt F)) (r_main_v29 V) (r_main_v30 V)

/-- What `main_v32` holds: its operation applied to what its operands hold. -/
def r_main_v32 (V : Valuation τ sig (Elt F)) : (⟨S100000, .f32⟩ : BufTy).Contents (Elt F) :=
  (uitofp .f32 : (⟨S100000, .i1⟩ : BufTy).Contents (Elt F) → (⟨S100000, .f32⟩ : BufTy).Contents (Elt F)) (r_main_v31 V)

/-- What `main_cst_19` holds: its operation applied to what its operands hold. -/
def r_main_cst_19 (V : Valuation τ sig (Elt F)) : (⟨S_, .f32⟩ : BufTy).Contents (Elt F) :=
  constant S_ .f32 0x3F800000#32

/-- What `main_v33` holds: its operation applied to what its operands hold. -/
def r_main_v33 (V : Valuation τ sig (Elt F)) : (⟨S100000, .f32⟩ : BufTy).Contents (Elt F) :=
  (broadcastInDim S100000 ![] bcast_S_S100000 : (⟨S_, .f32⟩ : BufTy).Contents (Elt F) → (⟨S100000, .f32⟩ : BufTy).Contents (Elt F)) (r_main_cst_19 V)

/-- What `main_v34` holds: its operation applied to what its operands hold. -/
def r_main_v34 (V : Valuation τ sig (Elt F)) : (⟨S100000, .f32⟩ : BufTy).Contents (Elt F) :=
  (addf : (⟨S100000, .f32⟩ : BufTy).Contents (Elt F) → (⟨S100000, .f32⟩ : BufTy).Contents (Elt F) → (⟨S100000, .f32⟩ : BufTy).Contents (Elt F)) (r_main_v32 V) (r_main_v33 V)

/-- What `main_v35` holds: its operation applied to what its operands hold. -/
def r_main_v35 (V : Valuation τ sig (Elt F)) : (⟨S99999x86x3, .f32⟩ : BufTy).Contents (Elt F) :=
  ((extractStridedSlice S99999x86x3 ![0, 0, 0] · slices_S100000x86x3_S99999x86x3_0_0_0) : (⟨S100000x86x3, .f32⟩ : BufTy).Contents (Elt F) → (⟨S99999x86x3, .f32⟩ : BufTy).Contents (Elt F)) (r_main_v27 V)

/-- What `main_v36` holds: its operation applied to what its operands hold. -/
def r_main_v36 (V : Valuation τ sig (Elt F)) : (⟨S99999x86x3, .f32⟩ : BufTy).Contents (Elt F) :=
  ((extractStridedSlice S99999x86x3 ![1, 0, 0] · slices_S100000x86x3_S99999x86x3_1_0_0) : (⟨S100000x86x3, .f32⟩ : BufTy).Contents (Elt F) → (⟨S99999x86x3, .f32⟩ : BufTy).Contents (Elt F)) (r_main_v27 V)

/-- What `main_v37` holds: its operation applied to what its operands hold. -/
def r_main_v37 (V : Valuation τ sig (Elt F)) : (⟨S99999x86x3, .f32⟩ : BufTy).Contents (Elt F) :=
  (subf : (⟨S99999x86x3, .f32⟩ : BufTy).Contents (Elt F) → (⟨S99999x86x3, .f32⟩ : BufTy).Contents (Elt F) → (⟨S99999x86x3, .f32⟩ : BufTy).Contents (Elt F)) (r_main_v35 V) (r_main_v36 V)

/-- What `main_cst_20` holds: its operation applied to what its operands hold. -/
def r_main_cst_20 (V : Valuation τ sig (Elt F)) : (⟨S_, .f32⟩ : BufTy).Contents (Elt F) :=
  constant S_ .f32 0x00000000#32

/-- What `main_v38` holds: its operation applied to what its operands hold. -/
def r_main_v38 (V : Valuation τ sig (Elt F)) : (⟨S1x86x3, .f32⟩ : BufTy).Contents (Elt F) :=
  (broadcastInDim S1x86x3 ![] bcast_S_S1x86x3 : (⟨S_, .f32⟩ : BufTy).Contents (Elt F) → (⟨S1x86x3, .f32⟩ : BufTy).Contents (Elt F)) (r_main_cst_20 V)

/-- What `main_v39` holds: its operation applied to what its operands hold. -/
def r_main_v39 (V : Valuation τ sig (Elt F)) : (⟨S100000x86x3, .f32⟩ : BufTy).Contents (Elt F) :=
  ((fun a b => concatenate S100000x86x3 0 [⟨S99999x86x3, a⟩, ⟨S1x86x3, b⟩] concatenates_S99999x86x3_S1x86x3_S100000x86x3_d0) : (⟨S99999x86x3, .f32⟩ : BufTy).Contents (Elt F) → (⟨S1x86x3, .f32⟩ : BufTy).Contents (Elt F) → (⟨S100000x86x3, .f32⟩ : BufTy).Contents (Elt F)) (r_main_v37 V) (r_main_v38 V)

/-- What `main_v40` holds: its operation applied to what its operands hold. -/
def r_main_v40 (V : Valuation τ sig (Elt F)) : (⟨S100000x21x3, .f32⟩ : BufTy).Contents (Elt F) :=
  ((extractStridedSlice S100000x21x3 ![0, 0, 0] · slices_S100000x86x3_S100000x21x3_0_0_0) : (⟨S100000x86x3, .f32⟩ : BufTy).Contents (Elt F) → (⟨S100000x21x3, .f32⟩ : BufTy).Contents (Elt F)) (r_main_v27 V)

/-- What `main_c_21` holds: its operation applied to what its operands hold. -/
def r_main_c_21 (V : Valuation τ sig (Elt F)) : (⟨S_, .i32⟩ : BufTy).Contents (Elt F) :=
  constantI S_ 32 21#32

/-- What `main_v41` holds: its operation applied to what its operands hold. -/
def r_main_v41 (V : Valuation τ sig (Elt F)) : (⟨S210, .i32⟩ : BufTy).Contents (Elt F) :=
  (broadcastInDim S210 ![] bcast_S_S210 : (⟨S_, .i32⟩ : BufTy).Contents (Elt F) → (⟨S210, .i32⟩ : BufTy).Contents (Elt F)) (r_main_c_21 V)

/-- What `main_v42` holds: its operation applied to what its operands hold. -/
def r_main_v42 (V : Valuation τ sig (Elt F)) : (⟨S210, .i32⟩ : BufTy).Contents (Elt F) :=
  (addi : (⟨S210, .i32⟩ : BufTy).Contents (Elt F) → (⟨S210, .i32⟩ : BufTy).Contents (Elt F) → (⟨S210, .i32⟩ : BufTy).Contents (Elt F)) (r_main_c V) (r_main_v41 V)

/-- What `main_v43` holds: its operation applied to what its operands hold. -/
def r_main_v43 (V : Valuation τ sig (Elt F)) : (⟨S210, .i32⟩ : BufTy).Contents (Elt F) :=
  (select : (⟨S210, .i1⟩ : BufTy).Contents (Elt F) → (⟨S210, .i32⟩ : BufTy).Contents (Elt F) → (⟨S210, .i32⟩ : BufTy).Contents (Elt F) → (⟨S210, .i32⟩ : BufTy).Contents (Elt F)) (r_main_c_0 V) (r_main_v42 V) (r_main_c V)

/-- What `main_v44` holds: its operation applied to what its operands hold. -/
def r_main_v44 (V : Valuation τ sig (Elt F)) : (⟨S210x1, .i32⟩ : BufTy).Contents (Elt F) :=
  (broadcastInDim S210x1 ![0] bcast_S210_S210x1_0 : (⟨S210, .i32⟩ : BufTy).Contents (Elt F) → (⟨S210x1, .i32⟩ : BufTy).Contents (Elt F)) (r_main_v43 V)

/-- What `main_v45` holds: its operation applied to what its operands hold. -/
def r_main_v45 (V : Valuation τ sig (Elt F)) : (⟨S100000x210x3, .f32⟩ : BufTy).Contents (Elt F) :=
  ((fun x i => Host.gather gather_S100000x21x3_S210x1_S100000x210x3_02_1_n_n_1_1_10000013 x i) : (⟨S100000x21x3, .f32⟩ : BufTy).Contents (Elt F) → (⟨S210x1, .i32⟩ : BufTy).Contents (Elt F) → (⟨S100000x210x3, .f32⟩ : BufTy).Contents (Elt F)) (r_main_v40 V) (r_main_v44 V)

/-- What `main_c_22` holds: its operation applied to what its operands hold. -/
def r_main_c_22 (V : Valuation τ sig (Elt F)) : (⟨S_, .i32⟩ : BufTy).Contents (Elt F) :=
  constantI S_ 32 21#32

/-- What `main_v46` holds: its operation applied to what its operands hold. -/
def r_main_v46 (V : Valuation τ sig (Elt F)) : (⟨S210, .i32⟩ : BufTy).Contents (Elt F) :=
  (broadcastInDim S210 ![] bcast_S_S210 : (⟨S_, .i32⟩ : BufTy).Contents (Elt F) → (⟨S210, .i32⟩ : BufTy).Contents (Elt F)) (r_main_c_22 V)

/-- What `main_v47` holds: its operation applied to what its operands hold. -/
def r_main_v47 (V : Valuation τ sig (Elt F)) : (⟨S210, .i32⟩ : BufTy).Contents (Elt F) :=
  (addi : (⟨S210, .i32⟩ : BufTy).Contents (Elt F) → (⟨S210, .i32⟩ : BufTy).Contents (Elt F) → (⟨S210, .i32⟩ : BufTy).Contents (Elt F)) (r_main_c_1 V) (r_main_v46 V)

/-- What `main_v48` holds: its operation applied to what its operands hold. -/
def r_main_v48 (V : Valuation τ sig (Elt F)) : (⟨S210, .i32⟩ : BufTy).Contents (Elt F) :=
  (select : (⟨S210, .i1⟩ : BufTy).Contents (Elt F) → (⟨S210, .i32⟩ : BufTy).Contents (Elt F) → (⟨S210, .i32⟩ : BufTy).Contents (Elt F) → (⟨S210, .i32⟩ : BufTy).Contents (Elt F)) (r_main_c_2 V) (r_main_v47 V) (r_main_c_1 V)

/-- What `main_v49` holds: its operation applied to what its operands hold. -/
def r_main_v49 (V : Valuation τ sig (Elt F)) : (⟨S210x1, .i32⟩ : BufTy).Contents (Elt F) :=
  (broadcastInDim S210x1 ![0] bcast_S210_S210x1_0 : (⟨S210, .i32⟩ : BufTy).Contents (Elt F) → (⟨S210x1, .i32⟩ : BufTy).Contents (Elt F)) (r_main_v48 V)

/-- What `main_v50` holds: its operation applied to what its operands hold. -/
def r_main_v50 (V : Valuation τ sig (Elt F)) : (⟨S100000x210x3, .f32⟩ : BufTy).Contents (Elt F) :=
  ((fun x i => Host.gather gather_S100000x21x3_S210x1_S100000x210x3_02_1_n_n_1_1_10000013 x i) : (⟨S100000x21x3, .f32⟩ : BufTy).Contents (Elt F) → (⟨S210x1, .i32⟩ : BufTy).Contents (Elt F) → (⟨S100000x210x3, .f32⟩ : BufTy).Contents (Elt F)) (r_main_v40 V) (r_main_v49 V)

/-- What `main_v51` holds: its operation applied to what its operands hold. -/
def r_main_v51 (V : Valuation τ sig (Elt F)) : (⟨S100000x210x3, .f32⟩ : BufTy).Contents (Elt F) :=
  (subf : (⟨S100000x210x3, .f32⟩ : BufTy).Contents (Elt F) → (⟨S100000x210x3, .f32⟩ : BufTy).Contents (Elt F) → (⟨S100000x210x3, .f32⟩ : BufTy).Contents (Elt F)) (r_main_v45 V) (r_main_v50 V)

/-- What `main_v52` holds: its operation applied to what its operands hold. -/
def r_main_v52 (V : Valuation τ sig (Elt F)) : (⟨S100000x210x3, .f32⟩ : BufTy).Contents (Elt F) :=
  (mulf : (⟨S100000x210x3, .f32⟩ : BufTy).Contents (Elt F) → (⟨S100000x210x3, .f32⟩ : BufTy).Contents (Elt F) → (⟨S100000x210x3, .f32⟩ : BufTy).Contents (Elt F)) (r_main_v51 V) (r_main_v51 V)

/-- What `main_cst_23` holds: its operation applied to what its operands hold. -/
def r_main_cst_23 (V : Valuation τ sig (Elt F)) : (⟨S_, .f32⟩ : BufTy).Contents (Elt F) :=
  constant S_ .f32 0x00000000#32

/-- What `main_v53` holds: its operation applied to what its operands hold. -/
def r_main_v53 (V : Valuation τ sig (Elt F)) : (⟨S100000x210, .f32⟩ : BufTy).Contents (Elt F) :=
  ((fun x v => Host.reduceAdd x v reducesTo_S100000x210x3_S100000x210_d2 h_S_) : (⟨S100000x210x3, .f32⟩ : BufTy).Contents (Elt F) → (⟨S_, .f32⟩ : BufTy).Contents (Elt F) → (⟨S100000x210, .f32⟩ : BufTy).Contents (Elt F)) (r_main_v52 V) (r_main_cst_23 V)

/-- What `main_v54` holds: its operation applied to what its operands hold. -/
def r_main_v54 (V : Valuation τ sig (Elt F)) : (⟨S100000x210, .f32⟩ : BufTy).Contents (Elt F) :=
  (Host.sqrt : (⟨S100000x210, .f32⟩ : BufTy).Contents (Elt F) → (⟨S100000x210, .f32⟩ : BufTy).Contents (Elt F)) (r_main_v53 V)

/-- What `main_v55` holds: its operation applied to what its operands hold. -/
def r_main_v55 (V : Valuation τ sig (Elt F)) : (⟨S100000x25x2, .f32⟩ : BufTy).Contents (Elt F) :=
  ((extractStridedSlice S100000x25x2 ![0, 21, 0] · slices_S100000x86x3_S100000x25x2_0_21_0) : (⟨S100000x86x3, .f32⟩ : BufTy).Contents (Elt F) → (⟨S100000x25x2, .f32⟩ : BufTy).Contents (Elt F)) (r_main_v27 V)

/-- What `main_c_24` holds: its operation applied to what its operands hold. -/
def r_main_c_24 (V : Valuation τ sig (Elt F)) : (⟨S_, .i32⟩ : BufTy).Contents (Elt F) :=
  constantI S_ 32 25#32

/-- What `main_v56` holds: its operation applied to what its operands hold. -/
def r_main_v56 (V : Valuation τ sig (Elt F)) : (⟨S300, .i32⟩ : BufTy).Contents (Elt F) :=
  (broadcastInDim S300 ![] bcast_S_S300 : (⟨S_, .i32⟩ : BufTy).Contents (Elt F) → (⟨S300, .i32⟩ : BufTy).Contents (Elt F)) (r_main_c_24 V)

/-- What `main_v57` holds: its operation applied to what its operands hold. -/
def r_main_v57 (V : Valuation τ sig (Elt F)) : (⟨S300, .i32⟩ : BufTy).Contents (Elt F) :=
  (addi : (⟨S300, .i32⟩ : BufTy).Contents (Elt F) → (⟨S300, .i32⟩ : BufTy).Contents (Elt F) → (⟨S300, .i32⟩ : BufTy).Contents (Elt F)) (r_main_c_3 V) (r_main_v56 V)

/-- What `main_v58` holds: its operation applied to what its operands hold. -/
def r_main_v58 (V : Valuation τ sig (Elt F)) : (⟨S300, .i32⟩ : BufTy).Contents (Elt F) :=
  (select : (⟨S300, .i1⟩ : BufTy).Contents (Elt F) → (⟨S300, .i32⟩ : BufTy).Contents (Elt F) → (⟨S300, .i32⟩ : BufTy).Contents (Elt F) → (⟨S300, .i32⟩ : BufTy).Contents (Elt F)) (r_main_c_4 V) (r_main_v57 V) (r_main_c_3 V)

/-- What `main_v59` holds: its operation applied to what its operands hold. -/
def r_main_v59 (V : Valuation τ sig (Elt F)) : (⟨S300x1, .i32⟩ : BufTy).Contents (Elt F) :=
  (broadcastInDim S300x1 ![0] bcast_S300_S300x1_0 : (⟨S300, .i32⟩ : BufTy).Contents (Elt F) → (⟨S300x1, .i32⟩ : BufTy).Contents (Elt F)) (r_main_v58 V)

/-- What `main_v60` holds: its operation applied to what its operands hold. -/
def r_main_v60 (V : Valuation τ sig (Elt F)) : (⟨S100000x300x2, .f32⟩ : BufTy).Contents (Elt F) :=
  ((fun x i => Host.gather gather_S100000x25x2_S300x1_S100000x300x2_02_1_n_n_1_1_10000012 x i) : (⟨S100000x25x2, .f32⟩ : BufTy).Contents (Elt F) → (⟨S300x1, .i32⟩ : BufTy).Contents (Elt F) → (⟨S100000x300x2, .f32⟩ : BufTy).Contents (Elt F)) (r_main_v55 V) (r_main_v59 V)

/-- What `main_c_25` holds: its operation applied to what its operands hold. -/
def r_main_c_25 (V : Valuation τ sig (Elt F)) : (⟨S_, .i32⟩ : BufTy).Contents (Elt F) :=
  constantI S_ 32 25#32

/-- What `main_v61` holds: its operation applied to what its operands hold. -/
def r_main_v61 (V : Valuation τ sig (Elt F)) : (⟨S300, .i32⟩ : BufTy).Contents (Elt F) :=
  (broadcastInDim S300 ![] bcast_S_S300 : (⟨S_, .i32⟩ : BufTy).Contents (Elt F) → (⟨S300, .i32⟩ : BufTy).Contents (Elt F)) (r_main_c_25 V)

/-- What `main_v62` holds: its operation applied to what its operands hold. -/
def r_main_v62 (V : Valuation τ sig (Elt F)) : (⟨S300, .i32⟩ : BufTy).Contents (Elt F) :=
  (addi : (⟨S300, .i32⟩ : BufTy).Contents (Elt F) → (⟨S300, .i32⟩ : BufTy).Contents (Elt F) → (⟨S300, .i32⟩ : BufTy).Contents (Elt F)) (r_main_c_5 V) (r_main_v61 V)

/-- What `main_v63` holds: its operation applied to what its operands hold. -/
def r_main_v63 (V : Valuation τ sig (Elt F)) : (⟨S300, .i32⟩ : BufTy).Contents (Elt F) :=
  (select : (⟨S300, .i1⟩ : BufTy).Contents (Elt F) → (⟨S300, .i32⟩ : BufTy).Contents (Elt F) → (⟨S300, .i32⟩ : BufTy).Contents (Elt F) → (⟨S300, .i32⟩ : BufTy).Contents (Elt F)) (r_main_c_6 V) (r_main_v62 V) (r_main_c_5 V)

/-- What `main_v64` holds: its operation applied to what its operands hold. -/
def r_main_v64 (V : Valuation τ sig (Elt F)) : (⟨S300x1, .i32⟩ : BufTy).Contents (Elt F) :=
  (broadcastInDim S300x1 ![0] bcast_S300_S300x1_0 : (⟨S300, .i32⟩ : BufTy).Contents (Elt F) → (⟨S300x1, .i32⟩ : BufTy).Contents (Elt F)) (r_main_v63 V)

/-- What `main_v65` holds: its operation applied to what its operands hold. -/
def r_main_v65 (V : Valuation τ sig (Elt F)) : (⟨S100000x300x2, .f32⟩ : BufTy).Contents (Elt F) :=
  ((fun x i => Host.gather gather_S100000x25x2_S300x1_S100000x300x2_02_1_n_n_1_1_10000012 x i) : (⟨S100000x25x2, .f32⟩ : BufTy).Contents (Elt F) → (⟨S300x1, .i32⟩ : BufTy).Contents (Elt F) → (⟨S100000x300x2, .f32⟩ : BufTy).Contents (Elt F)) (r_main_v55 V) (r_main_v64 V)

/-- What `main_v66` holds: its operation applied to what its operands hold. -/
def r_main_v66 (V : Valuation τ sig (Elt F)) : (⟨S100000x300x2, .f32⟩ : BufTy).Contents (Elt F) :=
  (subf : (⟨S100000x300x2, .f32⟩ : BufTy).Contents (Elt F) → (⟨S100000x300x2, .f32⟩ : BufTy).Contents (Elt F) → (⟨S100000x300x2, .f32⟩ : BufTy).Contents (Elt F)) (r_main_v60 V) (r_main_v65 V)

/-- What `main_v67` holds: its operation applied to what its operands hold. -/
def r_main_v67 (V : Valuation τ sig (Elt F)) : (⟨S100000x300x2, .f32⟩ : BufTy).Contents (Elt F) :=
  (mulf : (⟨S100000x300x2, .f32⟩ : BufTy).Contents (Elt F) → (⟨S100000x300x2, .f32⟩ : BufTy).Contents (Elt F) → (⟨S100000x300x2, .f32⟩ : BufTy).Contents (Elt F)) (r_main_v66 V) (r_main_v66 V)

/-- What `main_cst_26` holds: its operation applied to what its operands hold. -/
def r_main_cst_26 (V : Valuation τ sig (Elt F)) : (⟨S_, .f32⟩ : BufTy).Contents (Elt F) :=
  constant S_ .f32 0x00000000#32

/-- What `main_v68` holds: its operation applied to what its operands hold. -/
def r_main_v68 (V : Valuation τ sig (Elt F)) : (⟨S100000x300, .f32⟩ : BufTy).Contents (Elt F) :=
  ((fun x v => Host.reduceAdd x v reducesTo_S100000x300x2_S100000x300_d2 h_S_) : (⟨S100000x300x2, .f32⟩ : BufTy).Contents (Elt F) → (⟨S_, .f32⟩ : BufTy).Contents (Elt F) → (⟨S100000x300, .f32⟩ : BufTy).Contents (Elt F)) (r_main_v67 V) (r_main_cst_26 V)

/-- What `main_v69` holds: its operation applied to what its operands hold. -/
def r_main_v69 (V : Valuation τ sig (Elt F)) : (⟨S100000x300, .f32⟩ : BufTy).Contents (Elt F) :=
  (Host.sqrt : (⟨S100000x300, .f32⟩ : BufTy).Contents (Elt F) → (⟨S100000x300, .f32⟩ : BufTy).Contents (Elt F)) (r_main_v68 V)

/-- What `main_v70` holds: its operation applied to what its operands hold. -/
def r_main_v70 (V : Valuation τ sig (Elt F)) : (⟨S100000x20x2, .f32⟩ : BufTy).Contents (Elt F) :=
  ((extractStridedSlice S100000x20x2 ![0, 46, 0] · slices_S100000x86x3_S100000x20x2_0_46_0) : (⟨S100000x86x3, .f32⟩ : BufTy).Contents (Elt F) → (⟨S100000x20x2, .f32⟩ : BufTy).Contents (Elt F)) (r_main_v27 V)

/-- What `main_c_27` holds: its operation applied to what its operands hold. -/
def r_main_c_27 (V : Valuation τ sig (Elt F)) : (⟨S_, .i32⟩ : BufTy).Contents (Elt F) :=
  constantI S_ 32 20#32

/-- What `main_v71` holds: its operation applied to what its operands hold. -/
def r_main_v71 (V : Valuation τ sig (Elt F)) : (⟨S190, .i32⟩ : BufTy).Contents (Elt F) :=
  (broadcastInDim S190 ![] bcast_S_S190 : (⟨S_, .i32⟩ : BufTy).Contents (Elt F) → (⟨S190, .i32⟩ : BufTy).Contents (Elt F)) (r_main_c_27 V)

/-- What `main_v72` holds: its operation applied to what its operands hold. -/
def r_main_v72 (V : Valuation τ sig (Elt F)) : (⟨S190, .i32⟩ : BufTy).Contents (Elt F) :=
  (addi : (⟨S190, .i32⟩ : BufTy).Contents (Elt F) → (⟨S190, .i32⟩ : BufTy).Contents (Elt F) → (⟨S190, .i32⟩ : BufTy).Contents (Elt F)) (r_main_c_7 V) (r_main_v71 V)

/-- What `main_v73` holds: its operation applied to what its operands hold. -/
def r_main_v73 (V : Valuation τ sig (Elt F)) : (⟨S190, .i32⟩ : BufTy).Contents (Elt F) :=
  (select : (⟨S190, .i1⟩ : BufTy).Contents (Elt F) → (⟨S190, .i32⟩ : BufTy).Contents (Elt F) → (⟨S190, .i32⟩ : BufTy).Contents (Elt F) → (⟨S190, .i32⟩ : BufTy).Contents (Elt F)) (r_main_c_8 V) (r_main_v72 V) (r_main_c_7 V)

/-- What `main_v74` holds: its operation applied to what its operands hold. -/
def r_main_v74 (V : Valuation τ sig (Elt F)) : (⟨S190x1, .i32⟩ : BufTy).Contents (Elt F) :=
  (broadcastInDim S190x1 ![0] bcast_S190_S190x1_0 : (⟨S190, .i32⟩ : BufTy).Contents (Elt F) → (⟨S190x1, .i32⟩ : BufTy).Contents (Elt F)) (r_main_v73 V)

/-- What `main_v75` holds: its operation applied to what its operands hold. -/
def r_main_v75 (V : Valuation τ sig (Elt F)) : (⟨S100000x190x2, .f32⟩ : BufTy).Contents (Elt F) :=
  ((fun x i => Host.gather gather_S100000x20x2_S190x1_S100000x190x2_02_1_n_n_1_1_10000012 x i) : (⟨S100000x20x2, .f32⟩ : BufTy).Contents (Elt F) → (⟨S190x1, .i32⟩ : BufTy).Contents (Elt F) → (⟨S100000x190x2, .f32⟩ : BufTy).Contents (Elt F)) (r_main_v70 V) (r_main_v74 V)

/-- What `main_c_28` holds: its operation applied to what its operands hold. -/
def r_main_c_28 (V : Valuation τ sig (Elt F)) : (⟨S_, .i32⟩ : BufTy).Contents (Elt F) :=
  constantI S_ 32 20#32

/-- What `main_v76` holds: its operation applied to what its operands hold. -/
def r_main_v76 (V : Valuation τ sig (Elt F)) : (⟨S190, .i32⟩ : BufTy).Contents (Elt F) :=
  (broadcastInDim S190 ![] bcast_S_S190 : (⟨S_, .i32⟩ : BufTy).Contents (Elt F) → (⟨S190, .i32⟩ : BufTy).Contents (Elt F)) (r_main_c_28 V)

/-- What `main_v77` holds: its operation applied to what its operands hold. -/
def r_main_v77 (V : Valuation τ sig (Elt F)) : (⟨S190, .i32⟩ : BufTy).Contents (Elt F) :=
  (addi : (⟨S190, .i32⟩ : BufTy).Contents (Elt F) → (⟨S190, .i32⟩ : BufTy).Contents (Elt F) → (⟨S190, .i32⟩ : BufTy).Contents (Elt F)) (r_main_c_9 V) (r_main_v76 V)

/-- What `main_v78` holds: its operation applied to what its operands hold. -/
def r_main_v78 (V : Valuation τ sig (Elt F)) : (⟨S190, .i32⟩ : BufTy).Contents (Elt F) :=
  (select : (⟨S190, .i1⟩ : BufTy).Contents (Elt F) → (⟨S190, .i32⟩ : BufTy).Contents (Elt F) → (⟨S190, .i32⟩ : BufTy).Contents (Elt F) → (⟨S190, .i32⟩ : BufTy).Contents (Elt F)) (r_main_c_10 V) (r_main_v77 V) (r_main_c_9 V)

/-- What `main_v79` holds: its operation applied to what its operands hold. -/
def r_main_v79 (V : Valuation τ sig (Elt F)) : (⟨S190x1, .i32⟩ : BufTy).Contents (Elt F) :=
  (broadcastInDim S190x1 ![0] bcast_S190_S190x1_0 : (⟨S190, .i32⟩ : BufTy).Contents (Elt F) → (⟨S190x1, .i32⟩ : BufTy).Contents (Elt F)) (r_main_v78 V)

/-- What `main_v80` holds: its operation applied to what its operands hold. -/
def r_main_v80 (V : Valuation τ sig (Elt F)) : (⟨S100000x190x2, .f32⟩ : BufTy).Contents (Elt F) :=
  ((fun x i => Host.gather gather_S100000x20x2_S190x1_S100000x190x2_02_1_n_n_1_1_10000012 x i) : (⟨S100000x20x2, .f32⟩ : BufTy).Contents (Elt F) → (⟨S190x1, .i32⟩ : BufTy).Contents (Elt F) → (⟨S100000x190x2, .f32⟩ : BufTy).Contents (Elt F)) (r_main_v70 V) (r_main_v79 V)

/-- What `main_v81` holds: its operation applied to what its operands hold. -/
def r_main_v81 (V : Valuation τ sig (Elt F)) : (⟨S100000x190x2, .f32⟩ : BufTy).Contents (Elt F) :=
  (subf : (⟨S100000x190x2, .f32⟩ : BufTy).Contents (Elt F) → (⟨S100000x190x2, .f32⟩ : BufTy).Contents (Elt F) → (⟨S100000x190x2, .f32⟩ : BufTy).Contents (Elt F)) (r_main_v75 V) (r_main_v80 V)

/-- What `main_v82` holds: its operation applied to what its operands hold. -/
def r_main_v82 (V : Valuation τ sig (Elt F)) : (⟨S100000x190x2, .f32⟩ : BufTy).Contents (Elt F) :=
  (mulf : (⟨S100000x190x2, .f32⟩ : BufTy).Contents (Elt F) → (⟨S100000x190x2, .f32⟩ : BufTy).Contents (Elt F) → (⟨S100000x190x2, .f32⟩ : BufTy).Contents (Elt F)) (r_main_v81 V) (r_main_v81 V)

/-- What `main_cst_29` holds: its operation applied to what its operands hold. -/
def r_main_cst_29 (V : Valuation τ sig (Elt F)) : (⟨S_, .f32⟩ : BufTy).Contents (Elt F) :=
  constant S_ .f32 0x00000000#32

/-- What `main_v83` holds: its operation applied to what its operands hold. -/
def r_main_v83 (V : Valuation τ sig (Elt F)) : (⟨S100000x190, .f32⟩ : BufTy).Contents (Elt F) :=
  ((fun x v => Host.reduceAdd x v reducesTo_S100000x190x2_S100000x190_d2 h_S_) : (⟨S100000x190x2, .f32⟩ : BufTy).Contents (Elt F) → (⟨S_, .f32⟩ : BufTy).Contents (Elt F) → (⟨S100000x190, .f32⟩ : BufTy).Contents (Elt F)) (r_main_v82 V) (r_main_cst_29 V)

/-- What `main_v84` holds: its operation applied to what its operands hold. -/
def r_main_v84 (V : Valuation τ sig (Elt F)) : (⟨S100000x190, .f32⟩ : BufTy).Contents (Elt F) :=
  (Host.sqrt : (⟨S100000x190, .f32⟩ : BufTy).Contents (Elt F) → (⟨S100000x190, .f32⟩ : BufTy).Contents (Elt F)) (r_main_v83 V)

/-- What `main_v85` holds: its operation applied to what its operands hold. -/
def r_main_v85 (V : Valuation τ sig (Elt F)) : (⟨S100000x20x2, .f32⟩ : BufTy).Contents (Elt F) :=
  ((extractStridedSlice S100000x20x2 ![0, 66, 0] · slices_S100000x86x3_S100000x20x2_0_66_0) : (⟨S100000x86x3, .f32⟩ : BufTy).Contents (Elt F) → (⟨S100000x20x2, .f32⟩ : BufTy).Contents (Elt F)) (r_main_v27 V)

/-- What `main_c_30` holds: its operation applied to what its operands hold. -/
def r_main_c_30 (V : Valuation τ sig (Elt F)) : (⟨S_, .i32⟩ : BufTy).Contents (Elt F) :=
  constantI S_ 32 20#32

/-- What `main_v86` holds: its operation applied to what its operands hold. -/
def r_main_v86 (V : Valuation τ sig (Elt F)) : (⟨S190, .i32⟩ : BufTy).Contents (Elt F) :=
  (broadcastInDim S190 ![] bcast_S_S190 : (⟨S_, .i32⟩ : BufTy).Contents (Elt F) → (⟨S190, .i32⟩ : BufTy).Contents (Elt F)) (r_main_c_30 V)

/-- What `main_v87` holds: its operation applied to what its operands hold. -/
def r_main_v87 (V : Valuation τ sig (Elt F)) : (⟨S190, .i32⟩ : BufTy).Contents (Elt F) :=
  (addi : (⟨S190, .i32⟩ : BufTy).Contents (Elt F) → (⟨S190, .i32⟩ : BufTy).Contents (Elt F) → (⟨S190, .i32⟩ : BufTy).Contents (Elt F)) (r_main_c_7 V) (r_main_v86 V)

/-- What `main_v88` holds: its operation applied to what its operands hold. -/
def r_main_v88 (V : Valuation τ sig (Elt F)) : (⟨S190, .i32⟩ : BufTy).Contents (Elt F) :=
  (select : (⟨S190, .i1⟩ : BufTy).Contents (Elt F) → (⟨S190, .i32⟩ : BufTy).Contents (Elt F) → (⟨S190, .i32⟩ : BufTy).Contents (Elt F) → (⟨S190, .i32⟩ : BufTy).Contents (Elt F)) (r_main_c_11 V) (r_main_v87 V) (r_main_c_7 V)

/-- What `main_v89` holds: its operation applied to what its operands hold. -/
def r_main_v89 (V : Valuation τ sig (Elt F)) : (⟨S190x1, .i32⟩ : BufTy).Contents (Elt F) :=
  (broadcastInDim S190x1 ![0] bcast_S190_S190x1_0 : (⟨S190, .i32⟩ : BufTy).Contents (Elt F) → (⟨S190x1, .i32⟩ : BufTy).Contents (Elt F)) (r_main_v88 V)

/-- What `main_v90` holds: its operation applied to what its operands hold. -/
def r_main_v90 (V : Valuation τ sig (Elt F)) : (⟨S100000x190x2, .f32⟩ : BufTy).Contents (Elt F) :=
  ((fun x i => Host.gather gather_S100000x20x2_S190x1_S100000x190x2_02_1_n_n_1_1_10000012 x i) : (⟨S100000x20x2, .f32⟩ : BufTy).Contents (Elt F) → (⟨S190x1, .i32⟩ : BufTy).Contents (Elt F) → (⟨S100000x190x2, .f32⟩ : BufTy).Contents (Elt F)) (r_main_v85 V) (r_main_v89 V)

/-- What `main_c_31` holds: its operation applied to what its operands hold. -/
def r_main_c_31 (V : Valuation τ sig (Elt F)) : (⟨S_, .i32⟩ : BufTy).Contents (Elt F) :=
  constantI S_ 32 20#32

/-- What `main_v91` holds: its operation applied to what its operands hold. -/
def r_main_v91 (V : Valuation τ sig (Elt F)) : (⟨S190, .i32⟩ : BufTy).Contents (Elt F) :=
  (broadcastInDim S190 ![] bcast_S_S190 : (⟨S_, .i32⟩ : BufTy).Contents (Elt F) → (⟨S190, .i32⟩ : BufTy).Contents (Elt F)) (r_main_c_31 V)

/-- What `main_v92` holds: its operation applied to what its operands hold. -/
def r_main_v92 (V : Valuation τ sig (Elt F)) : (⟨S190, .i32⟩ : BufTy).Contents (Elt F) :=
  (addi : (⟨S190, .i32⟩ : BufTy).Contents (Elt F) → (⟨S190, .i32⟩ : BufTy).Contents (Elt F) → (⟨S190, .i32⟩ : BufTy).Contents (Elt F)) (r_main_c_9 V) (r_main_v91 V)

/-- What `main_v93` holds: its operation applied to what its operands hold. -/
def r_main_v93 (V : Valuation τ sig (Elt F)) : (⟨S190, .i32⟩ : BufTy).Contents (Elt F) :=
  (select : (⟨S190, .i1⟩ : BufTy).Contents (Elt F) → (⟨S190, .i32⟩ : BufTy).Contents (Elt F) → (⟨S190, .i32⟩ : BufTy).Contents (Elt F) → (⟨S190, .i32⟩ : BufTy).Contents (Elt F)) (r_main_c_12 V) (r_main_v92 V) (r_main_c_9 V)

/-- What `main_v94` holds: its operation applied to what its operands hold. -/
def r_main_v94 (V : Valuation τ sig (Elt F)) : (⟨S190x1, .i32⟩ : BufTy).Contents (Elt F) :=
  (broadcastInDim S190x1 ![0] bcast_S190_S190x1_0 : (⟨S190, .i32⟩ : BufTy).Contents (Elt F) → (⟨S190x1, .i32⟩ : BufTy).Contents (Elt F)) (r_main_v93 V)

/-- What `main_v95` holds: its operation applied to what its operands hold. -/
def r_main_v95 (V : Valuation τ sig (Elt F)) : (⟨S100000x190x2, .f32⟩ : BufTy).Contents (Elt F) :=
  ((fun x i => Host.gather gather_S100000x20x2_S190x1_S100000x190x2_02_1_n_n_1_1_10000012 x i) : (⟨S100000x20x2, .f32⟩ : BufTy).Contents (Elt F) → (⟨S190x1, .i32⟩ : BufTy).Contents (Elt F) → (⟨S100000x190x2, .f32⟩ : BufTy).Contents (Elt F)) (r_main_v85 V) (r_main_v94 V)

/-- What `main_v96` holds: its operation applied to what its operands hold. -/
def r_main_v96 (V : Valuation τ sig (Elt F)) : (⟨S100000x190x2, .f32⟩ : BufTy).Contents (Elt F) :=
  (subf : (⟨S100000x190x2, .f32⟩ : BufTy).Contents (Elt F) → (⟨S100000x190x2, .f32⟩ : BufTy).Contents (Elt F) → (⟨S100000x190x2, .f32⟩ : BufTy).Contents (Elt F)) (r_main_v90 V) (r_main_v95 V)

/-- What `main_v97` holds: its operation applied to what its operands hold. -/
def r_main_v97 (V : Valuation τ sig (Elt F)) : (⟨S100000x190x2, .f32⟩ : BufTy).Contents (Elt F) :=
  (mulf : (⟨S100000x190x2, .f32⟩ : BufTy).Contents (Elt F) → (⟨S100000x190x2, .f32⟩ : BufTy).Contents (Elt F) → (⟨S100000x190x2, .f32⟩ : BufTy).Contents (Elt F)) (r_main_v96 V) (r_main_v96 V)

/-- What `main_cst_32` holds: its operation applied to what its operands hold. -/
def r_main_cst_32 (V : Valuation τ sig (Elt F)) : (⟨S_, .f32⟩ : BufTy).Contents (Elt F) :=
  constant S_ .f32 0x00000000#32

/-- What `main_v98` holds: its operation applied to what its operands hold. -/
def r_main_v98 (V : Valuation τ sig (Elt F)) : (⟨S100000x190, .f32⟩ : BufTy).Contents (Elt F) :=
  ((fun x v => Host.reduceAdd x v reducesTo_S100000x190x2_S100000x190_d2 h_S_) : (⟨S100000x190x2, .f32⟩ : BufTy).Contents (Elt F) → (⟨S_, .f32⟩ : BufTy).Contents (Elt F) → (⟨S100000x190, .f32⟩ : BufTy).Contents (Elt F)) (r_main_v97 V) (r_main_cst_32 V)

/-- What `main_v99` holds: its operation applied to what its operands hold. -/
def r_main_v99 (V : Valuation τ sig (Elt F)) : (⟨S100000x190, .f32⟩ : BufTy).Contents (Elt F) :=
  (Host.sqrt : (⟨S100000x190, .f32⟩ : BufTy).Contents (Elt F) → (⟨S100000x190, .f32⟩ : BufTy).Contents (Elt F)) (r_main_v98 V)

/-- What `main_v100` holds: its operation applied to what its operands hold. -/
def r_main_v100 (V : Valuation τ sig (Elt F)) : (⟨S100000x21x3, .f32⟩ : BufTy).Contents (Elt F) :=
  ((extractStridedSlice S100000x21x3 ![0, 0, 0] · slices_S100000x86x3_S100000x21x3_0_0_0) : (⟨S100000x86x3, .f32⟩ : BufTy).Contents (Elt F) → (⟨S100000x21x3, .f32⟩ : BufTy).Contents (Elt F)) (r_main_v27 V)

/-- What `main_v101` holds: its operation applied to what its operands hold. -/
def r_main_v101 (V : Valuation τ sig (Elt F)) : (⟨S100000x63, .f32⟩ : BufTy).Contents (Elt F) :=
  shapeCast _ (r_main_v100 V) shapeCasts_S100000x21x3_S100000x63

/-- What `main_v102` holds: its operation applied to what its operands hold. -/
def r_main_v102 (V : Valuation τ sig (Elt F)) : (⟨S100000x25x2, .f32⟩ : BufTy).Contents (Elt F) :=
  ((extractStridedSlice S100000x25x2 ![0, 21, 0] · slices_S100000x86x3_S100000x25x2_0_21_0) : (⟨S100000x86x3, .f32⟩ : BufTy).Contents (Elt F) → (⟨S100000x25x2, .f32⟩ : BufTy).Contents (Elt F)) (r_main_v27 V)

/-- What `main_v103` holds: its operation applied to what its operands hold. -/
def r_main_v103 (V : Valuation τ sig (Elt F)) : (⟨S100000x50, .f32⟩ : BufTy).Contents (Elt F) :=
  shapeCast _ (r_main_v102 V) shapeCasts_S100000x25x2_S100000x50

/-- What `main_v104` holds: its operation applied to what its operands hold. -/
def r_main_v104 (V : Valuation τ sig (Elt F)) : (⟨S100000x20x2, .f32⟩ : BufTy).Contents (Elt F) :=
  ((extractStridedSlice S100000x20x2 ![0, 46, 0] · slices_S100000x86x3_S100000x20x2_0_46_0) : (⟨S100000x86x3, .f32⟩ : BufTy).Contents (Elt F) → (⟨S100000x20x2, .f32⟩ : BufTy).Contents (Elt F)) (r_main_v27 V)

/-- What `main_v105` holds: its operation applied to what its operands hold. -/
def r_main_v105 (V : Valuation τ sig (Elt F)) : (⟨S100000x40, .f32⟩ : BufTy).Contents (Elt F) :=
  shapeCast _ (r_main_v104 V) shapeCasts_S100000x20x2_S100000x40

/-- What `main_v106` holds: its operation applied to what its operands hold. -/
def r_main_v106 (V : Valuation τ sig (Elt F)) : (⟨S100000x21x3, .f32⟩ : BufTy).Contents (Elt F) :=
  ((extractStridedSlice S100000x21x3 ![0, 0, 0] · slices_S100000x86x3_S100000x21x3_0_0_0) : (⟨S100000x86x3, .f32⟩ : BufTy).Contents (Elt F) → (⟨S100000x21x3, .f32⟩ : BufTy).Contents (Elt F)) (r_main_v39 V)

/-- What `main_v107` holds: its operation applied to what its operands hold. -/
def r_main_v107 (V : Valuation τ sig (Elt F)) : (⟨S100000x63, .f32⟩ : BufTy).Contents (Elt F) :=
  shapeCast _ (r_main_v106 V) shapeCasts_S100000x21x3_S100000x63

/-- What `main_v108` holds: its operation applied to what its operands hold. -/
def r_main_v108 (V : Valuation τ sig (Elt F)) : (⟨S100000x25x2, .f32⟩ : BufTy).Contents (Elt F) :=
  ((extractStridedSlice S100000x25x2 ![0, 21, 0] · slices_S100000x86x3_S100000x25x2_0_21_0) : (⟨S100000x86x3, .f32⟩ : BufTy).Contents (Elt F) → (⟨S100000x25x2, .f32⟩ : BufTy).Contents (Elt F)) (r_main_v39 V)

/-- What `main_v109` holds: its operation applied to what its operands hold. -/
def r_main_v109 (V : Valuation τ sig (Elt F)) : (⟨S100000x50, .f32⟩ : BufTy).Contents (Elt F) :=
  shapeCast _ (r_main_v108 V) shapeCasts_S100000x25x2_S100000x50

/-- What `main_v110` holds: its operation applied to what its operands hold. -/
def r_main_v110 (V : Valuation τ sig (Elt F)) : (⟨S100000x20x2, .f32⟩ : BufTy).Contents (Elt F) :=
  ((extractStridedSlice S100000x20x2 ![0, 46, 0] · slices_S100000x86x3_S100000x20x2_0_46_0) : (⟨S100000x86x3, .f32⟩ : BufTy).Contents (Elt F) → (⟨S100000x20x2, .f32⟩ : BufTy).Contents (Elt F)) (r_main_v39 V)

/-- What `main_v111` holds: its operation applied to what its operands hold. -/
def r_main_v111 (V : Valuation τ sig (Elt F)) : (⟨S100000x40, .f32⟩ : BufTy).Contents (Elt F) :=
  shapeCast _ (r_main_v110 V) shapeCasts_S100000x20x2_S100000x40

/-- What `main_v112` holds: its operation applied to what its operands hold. -/
def r_main_v112 (V : Valuation τ sig (Elt F)) : (⟨S100000x1, .f32⟩ : BufTy).Contents (Elt F) :=
  (broadcastInDim S100000x1 ![0] bcast_S100000_S100000x1_0 : (⟨S100000, .f32⟩ : BufTy).Contents (Elt F) → (⟨S100000x1, .f32⟩ : BufTy).Contents (Elt F)) (r_main_v32 V)

/-- What `main_v113` holds: its operation applied to what its operands hold. -/
def r_main_v113 (V : Valuation τ sig (Elt F)) : (⟨S100000x1, .f32⟩ : BufTy).Contents (Elt F) :=
  (broadcastInDim S100000x1 ![0] bcast_S100000_S100000x1_0 : (⟨S100000, .f32⟩ : BufTy).Contents (Elt F) → (⟨S100000x1, .f32⟩ : BufTy).Contents (Elt F)) (r_main_v34 V)

/-- What `main_v114` holds: its operation applied to what its operands hold. -/
def r_main_v114 (V : Valuation τ sig (Elt F)) : (⟨S100000x1198, .f32⟩ : BufTy).Contents (Elt F) :=
  concatenate S100000x1198 1 [⟨S100000x63, (r_main_v101 V)⟩, ⟨S100000x50, (r_main_v103 V)⟩, ⟨S100000x40, (r_main_v105 V)⟩, ⟨S100000x63, (r_main_v107 V)⟩, ⟨S100000x50, (r_main_v109 V)⟩, ⟨S100000x40, (r_main_v111 V)⟩, ⟨S100000x210, (r_main_v54 V)⟩, ⟨S100000x300, (r_main_v69 V)⟩, ⟨S100000x190, (r_main_v84 V)⟩, ⟨S100000x190, (r_main_v99 V)⟩, ⟨S100000x1, (r_main_v112 V)⟩, ⟨S100000x1, (r_main_v113 V)⟩] concatenates_S100000x63_S100000x50_S100000x40_S100000x63_S100000x50_S100000x40_S100000x210_S100000x300_S100000x190_S100000x190_S100000x1_S100000x1_S100000x1198_d1

/-- What `main_v115` holds: its operation applied to what its operands hold. -/
def r_main_v115 (V : Valuation τ sig (Elt F)) : (⟨S200x1198, .f32⟩ : BufTy).Contents (Elt F) :=
  ((extractStridedSlice S200x1198 ![0, 0] · slices_S100000x1198_S200x1198_0_0) : (⟨S100000x1198, .f32⟩ : BufTy).Contents (Elt F) → (⟨S200x1198, .f32⟩ : BufTy).Contents (Elt F)) (r_main_v114 V)

/-- What `main_v116` holds: its operation applied to what its operands hold. -/
def r_main_v116 (V : Valuation τ sig (Elt F)) : (⟨S1x200x1198, .f32⟩ : BufTy).Contents (Elt F) :=
  shapeCast _ (r_main_v115 V) shapeCasts_S200x1198_S1x200x1198

end Cert.ReferenceIdeal.Stages

end
-- ==== Proof.Bridge.Base.lean ====
import proofs.«101359_j2095944041143_1_alg».proof.Proof.KI.Stages
import proofs.«101359_j2095944041143_1_alg».proof.Proof.RI.Stages
import Idealize.ShloMosaic.PureOps.Ideal

noncomputable section

namespace Cert.Bridge

open Idealize.ShloMosaic Idealize.ShloMosaic.TcCoe Idealize.SL.Sem Idealize.ShloMosaic.StableHlo
open Cert.KernelIdeal.Stages Cert.ReferenceIdeal.Stages

/-- The index tables and the masks the host lines read are at their printed contents. -/
structure Consts (W : Valuation Cert.KernelIdeal.τ Cert.KernelIdeal.sig (Elt Ideal)) : Prop where
  hc : W (Proc.devRef .tc Cert.KernelIdeal.main_c) = (fun i => Cert.KernelIdeal.lit0 (Cert.KernelIdeal.S210.rowMajor i))
  hc_0 : W (Proc.devRef .tc Cert.KernelIdeal.main_c_0) = (constantI Cert.KernelIdeal.S210 1 0#1)
  hc_1 : W (Proc.devRef .tc Cert.KernelIdeal.main_c_1) = (fun i => Cert.KernelIdeal.lit1 (Cert.KernelIdeal.S210.rowMajor i))
  hc_2 : W (Proc.devRef .tc Cert.KernelIdeal.main_c_2) = (constantI Cert.KernelIdeal.S210 1 0#1)
  hc_3 : W (Proc.devRef .tc Cert.KernelIdeal.main_c_3) = (fun i => Cert.KernelIdeal.lit2 (Cert.KernelIdeal.S300.rowMajor i))
  hc_4 : W (Proc.devRef .tc Cert.KernelIdeal.main_c_4) = (constantI Cert.KernelIdeal.S300 1 0#1)
  hc_5 : W (Proc.devRef .tc Cert.KernelIdeal.main_c_5) = (fun i => Cert.KernelIdeal.lit3 (Cert.KernelIdeal.S300.rowMajor i))
  hc_6 : W (Proc.devRef .tc Cert.KernelIdeal.main_c_6) = (constantI Cert.KernelIdeal.S300 1 0#1)
  hc_7 : W (Proc.devRef .tc Cert.KernelIdeal.main_c_7) = (fun i => Cert.KernelIdeal.lit4 (Cert.KernelIdeal.S190.rowMajor i))
  hc_8 : W (Proc.devRef .tc Cert.KernelIdeal.main_c_8) = (constantI Cert.KernelIdeal.S190 1 0#1)
  hc_9 : W (Proc.devRef .tc Cert.KernelIdeal.main_c_9) = (fun i => Cert.KernelIdeal.lit5 (Cert.KernelIdeal.S190.rowMajor i))
  hc_10 : W (Proc.devRef .tc Cert.KernelIdeal.main_c_10) = (constantI Cert.KernelIdeal.S190 1 0#1)
  hc_11 : W (Proc.devRef .tc Cert.KernelIdeal.main_c_11) = (constantI Cert.KernelIdeal.S190 1 0#1)
  hc_12 : W (Proc.devRef .tc Cert.KernelIdeal.main_c_12) = (constantI Cert.KernelIdeal.S190 1 0#1)

structure Agree (W : Valuation Cert.KernelIdeal.τ Cert.KernelIdeal.sig (Elt Ideal))
    (V : Valuation Cert.ReferenceIdeal.τ Cert.ReferenceIdeal.sig (Elt Ideal)) : Prop extends Consts W where
  hx : W (Proc.devRef .tc Cert.KernelIdeal.main_arg0) = V (Proc.devRef .tc Cert.ReferenceIdeal.main_arg0)
  hcond : k_main_v3 W = r_main_v14 V

end Cert.Bridge

end
-- ==== Proof.KI.Entry.lean ====
import proofs.«101359_j2095944041143_1_alg».proof.Proof.KI.Frame
import proofs.«101359_j2095944041143_1_alg».proof.Proof.Bridge.Base
import Idealize.ShloMosaic.PureOps.Ideal

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.StableHlo

variable (m : (ℓ : Loc nD τ sig) → Buf (Elt Ideal) ℓ) (ρ : Dev nD → PrngReg)

abbrev Wf (c : Dev nD) : Valuation τ sig (Elt Ideal) :=
  Pipeline.withArrays spec0 c (V0 m c) fun w => (dats (F := Ideal) m 0 c).arrAt w cfg0.N

theorem Wf_arr (c : Dev nD) (w : Fin cfg0.W) :
    Wf m c (Proc.devRef .tc (Pipeline.arrRef spec0 w)) = (dats (F := Ideal) m 0 c).arrAt w cfg0.N :=
  Pipeline.withArrays_arr spec0 launch0.win.arr_inj c _ _ w

theorem Wf_arg0 (c : Dev nD) : Wf m c (Proc.devRef .tc main_arg0) = m ((c : Thread nD τ).loc main_arg0) :=
  (Wf_arr m c 0).trans (((dats (F := Ideal) m 0 c).arrAt_in 0 rfl _).trans ((A_eq m c 0).trans (V_main_arg0 m c)))

theorem Wf_rest (c : Dev nD) (b : Ref sig .tc) (hb : ∀ w, Pipeline.arrRef spec0 w ≠ b) :
    Wf m c (Proc.devRef .tc b) = V0 m c (Proc.devRef .tc b) :=
  Pipeline.withArrays_of_ne spec0 c (V0 m c) _ b hb

/-- Each table or mask was written by one of the constants before the region and by nothing since. -/
theorem Wf_consts (c : Dev nD) : Cert.Bridge.Consts (Wf m c) := by
  constructor <;>
    (refine (Wf_rest m c _ ?_).trans ?_
     · intro w; fin_cases w <;> decide
     · dsimp only [V0]
       simp only [hostOps0, List.flatten_cons, List.flatten_nil, List.append_nil]
       after_results
       try rfl)

end Cert.KernelIdeal.Hand

end
-- ==== Proof.LibNaryThree.lean ====
import Idealize.ShloMosaic.Lib.StableHlo.Run

noncomputable section

namespace Cert.Lib.NaryThree

open Idealize.ShloMosaic Idealize.ShloMosaic.StableHlo

variable {τ : Topo} {sig : RefSig} {Val : EltTy → Type}
variable {x a b y : Ref sig .tc}

/-- A host operation over three listed operands leaves in its result buffer its function of the operands' contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, stated so that a rewrite matches it at any result reference. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.Lib.NaryThree

end
-- ==== Proof.LibNaryTwelve.lean ====
import Idealize.ShloMosaic.Lib.StableHlo.Run

noncomputable section

namespace Cert.Lib.NaryTwelve

open Idealize.ShloMosaic Idealize.ShloMosaic.StableHlo

variable {τ : Topo} {sig : RefSig} {Val : EltTy → Type}
variable {x0 x1 x2 x3 x4 x5 x6 x7 x8 x9 x10 x11 y : Ref sig .tc}

/-- A host operation over twelve listed operands leaves in its result buffer its function of the operands' contents, each read at its own reference. -/
theorem nary12_result
    (f : ((k : Fin 12) → ((![x0, x1, x2, x3, x4, x5, x6, x7, x8, x9, x10, x11] : Fin 12 → Ref sig .tc) k).ty.Contents Val) → y.ty.Contents Val) (hxs hy)
    (F : Valuation τ sig Val) :
    (nary (τ := τ) ![x0, x1, x2, x3, x4, x5, x6, x7, x8, x9, x10, x11] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (Fin.cons (F (Proc.devRef .tc x10)) (Fin.cons (F (Proc.devRef .tc x11)) (fun i => i.elim0))))))))))))) := by
  rw [nary_result]; congr 1; funext k; fin_cases k <;> rfl

/-- The same, stated so that a rewrite matches it at any result reference. -/
theorem nary12_result'
    (f : ((k : Fin 12) → ((![x0, x1, x2, x3, x4, x5, x6, x7, x8, x9, x10, x11] : Fin 12 → Ref sig .tc) k).ty.Contents Val) → y.ty.Contents Val) (hxs hy)
    (F : Valuation τ sig Val) :
    (nary (τ := τ) ![x0, x1, x2, x3, x4, x5, x6, x7, x8, x9, x10, x11] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (Fin.cons (F (Proc.devRef .tc x10)) (Fin.cons (F (Proc.devRef .tc x11)) (fun i => i.elim0))))))))))))) :=
  nary12_result f hxs hy F

end Cert.Lib.NaryTwelve

end
-- ==== Proof.LibCatArgs.lean ====
import Idealize.ShloMosaic.PureOps.ShapeOps

namespace Cert.Lib.CatArgs

open Idealize.ShloMosaic

variable {α : Type}

/-- A concatenation of two, three or twelve pieces with the pieces as plain arguments, so that a rewrite can reach each piece. -/
def cat2 (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

theorem concatenate_two (t : Shape) (a : Fin t.rank) (s₁ s₂ : Shape) (h : Shape.Concatenates [s₁, s₂] t a)
    (x : s₁.Idx → α) (y : s₂.Idx → α) :
    concatenate t a [⟨s₁, x⟩, ⟨s₂, y⟩] h = cat2 t a s₁ s₂ h x y := rfl

def cat3 (t : Shape) (a : Fin t.rank) (s₁ s₂ s₃ : Shape) (h : Shape.Concatenates [s₁, s₂, s₃] t a)
    (x : s₁.Idx → α) (y : s₂.Idx → α) (z : s₃.Idx → α) : t.Idx → α :=
  concatenate t a [⟨s₁, x⟩, ⟨s₂, y⟩, ⟨s₃, z⟩] h

theorem concatenate_three (t : Shape) (a : Fin t.rank) (s₁ s₂ s₃ : Shape) (h : Shape.Concatenates [s₁, s₂, s₃] t a)
    (x : s₁.Idx → α) (y : s₂.Idx → α) (z : s₃.Idx → α) :
    concatenate t a [⟨s₁, x⟩, ⟨s₂, y⟩, ⟨s₃, z⟩] h = cat3 t a s₁ s₂ s₃ h x y z := rfl

def cat12 (t : Shape) (a : Fin t.rank) (s0 s1 s2 s3 s4 s5 s6 s7 s8 s9 s10 s11 : Shape)
    (h : Shape.Concatenates [s0, s1, s2, s3, s4, s5, s6, s7, s8, s9, s10, s11] t a)
    (x0 : s0.Idx → α) (x1 : s1.Idx → α) (x2 : s2.Idx → α) (x3 : s3.Idx → α) (x4 : s4.Idx → α) (x5 : s5.Idx → α) (x6 : s6.Idx → α) (x7 : s7.Idx → α) (x8 : s8.Idx → α) (x9 : s9.Idx → α) (x10 : s10.Idx → α) (x11 : s11.Idx → α) : t.Idx → α :=
  concatenate t a [⟨s0, x0⟩, ⟨s1, x1⟩, ⟨s2, x2⟩, ⟨s3, x3⟩, ⟨s4, x4⟩, ⟨s5, x5⟩, ⟨s6, x6⟩, ⟨s7, x7⟩, ⟨s8, x8⟩, ⟨s9, x9⟩, ⟨s10, x10⟩, ⟨s11, x11⟩] h

theorem concatenate_twelve (t : Shape) (a : Fin t.rank) (s0 s1 s2 s3 s4 s5 s6 s7 s8 s9 s10 s11 : Shape)
    (h : Shape.Concatenates [s0, s1, s2, s3, s4, s5, s6, s7, s8, s9, s10, s11] t a)
    (x0 : s0.Idx → α) (x1 : s1.Idx → α) (x2 : s2.Idx → α) (x3 : s3.Idx → α) (x4 : s4.Idx → α) (x5 : s5.Idx → α) (x6 : s6.Idx → α) (x7 : s7.Idx → α) (x8 : s8.Idx → α) (x9 : s9.Idx → α) (x10 : s10.Idx → α) (x11 : s11.Idx → α) :
    concatenate t a [⟨s0, x0⟩, ⟨s1, x1⟩, ⟨s2, x2⟩, ⟨s3, x3⟩, ⟨s4, x4⟩, ⟨s5, x5⟩, ⟨s6, x6⟩, ⟨s7, x7⟩, ⟨s8, x8⟩, ⟨s9, x9⟩, ⟨s10, x10⟩, ⟨s11, x11⟩] h
      = cat12 t a s0 s1 s2 s3 s4 s5 s6 s7 s8 s9 s10 s11 h x0 x1 x2 x3 x4 x5 x6 x7 x8 x9 x10 x11 := rfl

end Cert.Lib.CatArgs
-- ==== Proof.KI.Tail.lean ====
import proofs.«101359_j2095944041143_1_alg».proof.Proof.KI.Kit
import proofs.«101359_j2095944041143_1_alg».proof.Proof.KI.Stages
import proofs.«101359_j2095944041143_1_alg».proof.Proof.LibNaryThree
import proofs.«101359_j2095944041143_1_alg».proof.Proof.LibNaryTwelve
import proofs.«101359_j2095944041143_1_alg».proof.Proof.LibCatArgs

noncomputable section

namespace Cert.KernelIdeal.Hand

open Cert.KernelIdeal Cert.KernelIdeal.Gen
open Idealize.ShloMosaic Idealize.ShloMosaic.TcCoe Idealize.ShloMosaic.StableHlo
open Idealize.SL.Sem
open Cert.Lib.CatArgs

variable {F : FTy → Type} [FloatOps F]

theorem v12_result (G : Valuation τ sig (Elt F)) :
    (StableHlo.nary ![main_v7, main_v9, main_v10] main_v12 (fun u => concatenate S201x86x3 1 [⟨S201x21x3, u 0⟩, ⟨S201x25x3, u 1⟩, ⟨S201x40x3, u 2⟩] concatenates_S201x21x3_S201x25x3_S201x40x3_S201x86x3_d1)).result G (no_index (Proc.devRef .tc main_v12))
      = cat3 S201x86x3 1 S201x21x3 S201x25x3 S201x40x3 concatenates_S201x21x3_S201x25x3_S201x40x3_S201x86x3_d1 (G (Proc.devRef .tc main_v7)) (G (Proc.devRef .tc main_v9)) (G (Proc.devRef .tc main_v10)) := by
  rw [Cert.Lib.NaryThree.nary3_result]; rfl

theorem v13_result (G : Valuation τ sig (Elt F)) :
    (StableHlo.nary ![main_v8, main_v9, main_v10] main_v13 (fun u => concatenate S201x86x3 1 [⟨S201x21x3, u 0⟩, ⟨S201x25x3, u 1⟩, ⟨S201x40x3, u 2⟩] concatenates_S201x21x3_S201x25x3_S201x40x3_S201x86x3_d1)).result G (no_index (Proc.devRef .tc main_v13))
      = cat3 S201x86x3 1 S201x21x3 S201x25x3 S201x40x3 concatenates_S201x21x3_S201x25x3_S201x40x3_S201x86x3_d1 (G (Proc.devRef .tc main_v8)) (G (Proc.devRef .tc main_v9)) (G (Proc.devRef .tc main_v10)) := by
  rw [Cert.Lib.NaryThree.nary3_result]; rfl

theorem v114_result (G : Valuation τ sig (Elt F)) :
    (StableHlo.nary ![main_v95, main_v97, main_v99, main_v101, main_v103, main_v105, main_v106, main_v107, main_v108, main_v109, main_v111, main_v113] main_v114 (fun u => concatenate S200x1198 1 [⟨S200x63, u 0⟩, ⟨S200x50, u 1⟩, ⟨S200x40, u 2⟩, ⟨S200x63, u 3⟩, ⟨S200x50, u 4⟩, ⟨S200x40, u 5⟩, ⟨S200x210, u 6⟩, ⟨S200x300, u 7⟩, ⟨S200x190, u 8⟩, ⟨S200x190, u 9⟩, ⟨S200x1, u 10⟩, ⟨S200x1, u 11⟩] concatenates_S200x63_S200x50_S200x40_S200x63_S200x50_S200x40_S200x210_S200x300_S200x190_S200x190_S200x1_S200x1_S200x1198_d1)).result G (no_index (Proc.devRef .tc main_v114))
      = cat12 S200x1198 1 S200x63 S200x50 S200x40 S200x63 S200x50 S200x40 S200x210 S200x300 S200x190 S200x190 S200x1 S200x1 concatenates_S200x63_S200x50_S200x40_S200x63_S200x50_S200x40_S200x210_S200x300_S200x190_S200x190_S200x1_S200x1_S200x1198_d1
          (G (Proc.devRef .tc main_v95)) (G (Proc.devRef .tc main_v97)) (G (Proc.devRef .tc main_v99)) (G (Proc.devRef .tc main_v101)) (G (Proc.devRef .tc main_v103)) (G (Proc.devRef .tc main_v105)) (G (Proc.devRef .tc main_v106)) (G (Proc.devRef .tc main_v107)) (G (Proc.devRef .tc main_v108)) (G (Proc.devRef .tc main_v109)) (G (Proc.devRef .tc main_v111)) (G (Proc.devRef .tc main_v113)) := by
  rw [Cert.Lib.NaryTwelve.nary12_result]; rfl

set_option maxRecDepth 65536 in
set_option maxHeartbeats 400000000 in
theorem tail_eq (W : Valuation τ sig (Elt F)) :
    StableHlo.after (opss (F := F)).flatten W (Proc.devRef .tc main_v115) = Cert.KernelIdeal.Stages.k_main_v115 W := by
  simp only [opss, hostOps1, hostOps1_1, hostOps1_2, hostOps1_3, hostOps1_4, hostOps1_5, hostOps1_6, hostOps1_7, hostOps1_8,
    List.flatten_cons, List.flatten_nil, List.append_nil, List.cons_append, List.nil_append]
  simp (disch := decide) only [after_cons, after_nil,
      nullary_result', unary_result', binary_result', ternary_result', reshape_result',
      v12_result, v13_result, v114_result, concatenate_two,
      nullary_result_ne', unary_result_ne', binary_result_ne', ternary_result_ne', reshape_result_ne', nary_result_ne']
  rfl

theorem tail_arg0 (W : Valuation τ sig (Elt F)) :
    StableHlo.after (opss (F := F)).flatten W (Proc.devRef .tc main_arg0) = W (Proc.devRef .tc main_arg0) :=
  StableHlo.after_of_forall_not_mem _ W fun op hop => by
    obtain ⟨ops, hops, hop'⟩ := List.mem_flatten.mp hop
    exact sfx_keeps ops hops op hop' 0

end Cert.KernelIdeal.Hand

end
-- ==== Proof.Bridge.CountSpec.lean ====
import Idealize.ShloMosaic.PureOps.Ideal
import Idealize.ShloMosaic.Lib.ValueIdx

noncomputable section

namespace Cert.Count

open Idealize.ShloMosaic Idealize.ShloMosaic.ValueIdx
open scoped BigOperators

def nz (v : EReal) : EReal := if v = 0 then 0 else 1

def countIn {T : ℕ} (lo n o : ℕ) (hn : lo + n ≤ T) (ho : o + 21 ≤ 115)
    (x : (⟨3, ![T, 115, 3]⟩ : Shape).Idx → EReal) : EReal :=
  ∑ t : Fin n, ∑ a : Fin 21, ∑ k : Fin 3, nz (x (ix3 ⟨lo + t.val, by omega⟩ ⟨o + a.val, by omega⟩ k))

def total (o : ℕ) (ho : o + 21 ≤ 115) (x : (⟨3, ![100000, 115, 3]⟩ : Shape).Idx → EReal) : EReal :=
  countIn (T := 100000) 0 100000 o (by omega) ho x

end Cert.Count

end
-- ==== Proof.Bridge.Blocks.lean ====
import proofs.«101359_j2095944041143_1_alg».proof.Proof.Bridge.CountSpec
import Mathlib.Data.Fintype.BigOperators
import Mathlib.Logic.Equiv.Fin.Basic

noncomputable section

namespace Cert.Count

open Idealize.ShloMosaic Idealize.ShloMosaic.ValueIdx
open scoped BigOperators

theorem block_lt {m n : ℕ} (b : Fin m) (r : Fin n) : n * b.val + r.val < m * n :=
  calc n * b.val + r.val < n * b.val + n := Nat.add_lt_add_left r.isLt _
    _ = n * (b.val + 1) := (Nat.mul_succ n b.val).symm
    _ ≤ n * m := Nat.mul_le_mul_left n b.isLt
    _ = m * n := Nat.mul_comm n m

theorem sum_fin_blocks {M : Type*} [AddCommMonoid M] {T : ℕ} (m n : ℕ) (h : m * n = T) (g : Fin T → M) :
    ∑ t, g t = ∑ b : Fin m, ∑ r : Fin n, g ⟨n * b.val + r.val, h ▸ block_lt b r⟩ := by
  subst h
  rw [← Equiv.sum_comp (finProdFinEquiv (m := m) (n := n)) g, Fintype.sum_prod_type]
  refine Finset.sum_congr rfl fun b _ => Finset.sum_congr rfl fun r _ => congrArg g (Fin.ext ?_)
  show r.val + n * b.val = n * b.val + r.val
  exact Nat.add_comm _ _

def inFrame {T : ℕ} (o : ℕ) (ho : o + 21 ≤ 115) (x : (⟨3, ![T, 115, 3]⟩ : Shape).Idx → EReal) (t : Fin T) : EReal :=
  ∑ a : Fin 21, ∑ k : Fin 3, nz (x (ix3 t ⟨o + a.val, by omega⟩ k))

theorem countIn_eq_sum_inFrame {T : ℕ} (lo n o : ℕ) (hn : lo + n ≤ T) (ho : o + 21 ≤ 115)
    (x : (⟨3, ![T, 115, 3]⟩ : Shape).Idx → EReal) :
    countIn lo n o hn ho x = ∑ t : Fin n, inFrame o ho x ⟨lo + t.val, by omega⟩ := rfl

theorem total_eq_blocks (o : ℕ) (ho : o + 21 ≤ 115) (x : (⟨3, ![100000, 115, 3]⟩ : Shape).Idx → EReal) :
    total o ho x = ∑ b : Fin 20, countIn (T := 100000) (5000 * b.val) 5000 o (by have := b.isLt; omega) ho x := by
  unfold total
  rw [countIn_eq_sum_inFrame]
  refine (sum_fin_blocks 20 5000 (by norm_num) _).trans ?_
  refine Finset.sum_congr rfl fun b _ => ?_
  rw [countIn_eq_sum_inFrame]
  exact Finset.sum_congr rfl fun r _ => congrArg (inFrame o ho x) (Fin.ext (Nat.zero_add _))

end Cert.Count

end
-- ==== Proof.KI.Counts.lean ====
import proofs.«101359_j2095944041143_1_alg».proof.Proof.KI.Frame
import proofs.«101359_j2095944041143_1_alg».proof.Proof.Bridge.CountSpec
import Idealize.ShloMosaic.Lib.Pipeline.Value
import Idealize.ShloMosaic.Lib.KernelVsHost
import Idealize.ShloMosaic.PureOps.Ideal.Laws
import Idealize.ShloMosaic.Lib.Tactic
import proofs.«101359_j2095944041143_1_alg».proof.Proof.Bridge.Blocks

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)
open scoped BigOperators

def handChain {F : FTy → Type} [FloatOps F] (off : Fin 3 → ℕ) (hs : S5000x115x3.Slices off S5000x21x3)
    (v3 : Vec F S5000x115x3 .f32) : FVec F S1x1 .f32 :=
  multiReduction .add [0] S1x1
    (shapeCast S5000x1x1
      (multiReduction .add [2] S5000x1
        (shapeCast S5000x1x3
          (multiReduction .add [1] S5000x3
            (sitofp .f32 (extui 32
              (cmpf .one
                (select (cmpf .one (extractStridedSlice S5000x21x3 off v3 hs) (extractStridedSlice S5000x21x3 off v3 hs))
                  (broadcast S5000x21x3 (Scalar.ofBits .f32 0x00000000#32)) (extractStridedSlice S5000x21x3 off v3 hs))
                (broadcast S5000x21x3 (Scalar.ofBits .f32 0x00000000#32))) natLt_1_32))
            0x00000000#32 reduces_S5000x21x3_S5000x3 (.inl rfl) rfl)
          shapeCasts_S5000x3_S5000x1x3)
        0x00000000#32 reduces_S5000x1x3_S5000x1 (.inl rfl) rfl)
      shapeCasts_S5000x1_S5000x1x1)
    0x00000000#32 reduces_S5000x1x1_S1x1 (.inl rfl) rfl

section AnyValues2
variable {F : FTy → Type} [FloatOps F]

theorem pay4_eq (v3 : Vec F S5000x115x3 .f32) :
    k0_pay4 v3 = handChain ![0, 94, 0] slices_S5000x115x3_o0_94_0_S5000x21x3 v3 := rfl

theorem pay5_eq (v3 : Vec F S5000x115x3 .f32) (v30 : Vec F S1x1 .f32) :
    k0_pay5 v3 v30 = shapeCast S1x1 (addf v30 (handChain ![0, 40, 0] slices_S5000x115x3_o0_40_0_S5000x21x3 v3)) shapeCasts_S1x1_S1x1 := rfl

theorem pay1_eq (v29 : FVec F S1x1 .f32) (v35 : Vec F S1x1 .f32) :
    k0_pay1 v29 v35 = shapeCast S1x1 (addf v35 v29) shapeCasts_S1x1_S1x1 := rfl

end AnyValues2

theorem mark_apply {s : Shape} (v : FVec Ideal s .f32) (h : 1 < 32) (i : s.Idx) :
    (sitofp .f32 (extui 32
      (cmpf .one (select (cmpf .one v v) (broadcast s (Scalar.ofBits .f32 0x00000000#32)) v)
        (broadcast s (Scalar.ofBits .f32 0x00000000#32))) h) : FVec Ideal s .f32) i = Cert.Count.nz (v i) := by
  rw [sitofp_extui_eq_uitofp]
  show (((Ideal.cmp .one (Scalar.select (Ideal.cmp .one (v i) (v i)) (Ideal.ofBits .f32 0x00000000#32) (v i))
    (Ideal.ofBits .f32 0x00000000#32)).toNat : ℝ) : EReal) = _
  rw [Ideal.ofBits_zero_f32]
  have h1 : Ideal.cmp .one (v i) (v i) = 0#1 := by simp [Ideal.cmp]
  rw [h1]
  have h2 : Scalar.select (0#1) (0 : Ideal .f32) (v i) = v i := rfl
  rw [h2]
  unfold Cert.Count.nz
  by_cases hv : v i = 0
  · rw [if_pos hv, hv]; simp [Ideal.cmp]
  · rw [if_neg hv]; simp [Ideal.cmp, hv]

theorem sum3_apply (w : FVec Ideal S5000x21x3 .f32) (j : S1x1.Idx) :
    multiReduction .add [0] S1x1
      (shapeCast S5000x1x1
        (multiReduction .add [2] S5000x1
          (shapeCast S5000x1x3
            (multiReduction .add [1] S5000x3 w 0x00000000#32 reduces_S5000x21x3_S5000x3 (.inl rfl) rfl)
            shapeCasts_S5000x3_S5000x1x3)
          0x00000000#32 reduces_S5000x1x3_S5000x1 (.inl rfl) rfl)
        shapeCasts_S5000x1_S5000x1x1)
      0x00000000#32 reduces_S5000x1x1_S1x1 (.inl rfl) rfl j
      = ∑ t : Fin 5000, ∑ a : Fin 21, ∑ k : Fin 3, w (ix3 t a k) := by
  refine (Ideal.multiReduction_add_single _ _ reduces_S5000x1x1_S1x1 _ _ j).trans ?_
  show ∑ t : Fin 5000, _ = _
  refine Finset.sum_congr rfl fun t _ => ?_
  have hj0 : (j 0).val < 1 := (j 0).isLt
  have hj1 : (j 1).val < 1 := (j 1).isLt
  refine (shapeCast_apply _ shapeCasts_S5000x1_S5000x1x1 (reduces_S5000x1x1_S1x1.lift j t) (ix2 t (0 : Fin 1)) ?_).trans ?_
  · rw [Shape.rowMajor_val_two, Shape.rowMajor_val_three]
    have e0 : (reduces_S5000x1x1_S1x1.lift j t 0).val = t.val := rfl
    have e1 : (reduces_S5000x1x1_S1x1.lift j t 1).val = (j 0).val := rfl
    have e2 : (reduces_S5000x1x1_S1x1.lift j t 2).val = (j 1).val := rfl
    rw [e0, e1, e2]
    show t.val * 1 + 0 = (t.val * 1 + (j 0).val) * 1 + (j 1).val
    omega
  refine (Ideal.multiReduction_add_single _ _ reduces_S5000x1x3_S5000x1 _ _ (ix2 t (0 : Fin 1))).trans ?_
  refine Eq.trans ?_ Finset.sum_comm
  show ∑ k : Fin 3, _ = ∑ k : Fin 3, _
  refine Finset.sum_congr rfl fun k _ => ?_
  refine (shapeCast_apply _ shapeCasts_S5000x3_S5000x1x3 (reduces_S5000x1x3_S5000x1.lift (ix2 t (0 : Fin 1)) k) (ix2 t k) ?_).trans ?_
  · rw [Shape.rowMajor_val_two, Shape.rowMajor_val_three]
    have e0 : (reduces_S5000x1x3_S5000x1.lift (ix2 t (0 : Fin 1)) k 0).val = t.val := rfl
    have e1 : (reduces_S5000x1x3_S5000x1.lift (ix2 t (0 : Fin 1)) k 1).val = 0 := rfl
    have e2 : (reduces_S5000x1x3_S5000x1.lift (ix2 t (0 : Fin 1)) k 2).val = k.val := rfl
    rw [e0, e1, e2]
    show t.val * 3 + k.val = (t.val * 1 + 0) * 3 + k.val
    omega
  refine (Ideal.multiReduction_add_single _ _ reduces_S5000x21x3_S5000x3 _ _ (ix2 t k)).trans ?_
  show ∑ a : Fin 21, _ = ∑ a : Fin 21, _
  refine Finset.sum_congr rfl fun a _ => congrArg w ?_
  funext d
  match d with
  | ⟨0, _⟩ => rfl
  | ⟨1, _⟩ => rfl
  | ⟨2, _⟩ => rfl

theorem handChain_apply (o : ℕ) (ho : o + 21 ≤ 115) (hs : S5000x115x3.Slices ![0, o, 0] S5000x21x3)
    (v3 : Vec Ideal S5000x115x3 .f32) (j : S1x1.Idx) :
    handChain ![0, o, 0] hs v3 j = Cert.Count.countIn (T := 5000) 0 5000 o (by omega) ho v3 := by
  unfold handChain
  refine (sum3_apply _ j).trans ?_
  unfold Cert.Count.countIn
  refine Finset.sum_congr rfl fun t _ => Finset.sum_congr rfl fun a _ => Finset.sum_congr rfl fun k _ => ?_
  refine (mark_apply _ _ _).trans (congrArg Cert.Count.nz ?_)
  refine extractStridedSlice_apply _ v3 hs _ _ fun d => ?_
  match d with
  | ⟨0, _⟩ => rfl
  | ⟨1, _⟩ => rfl
  | ⟨2, _⟩ => show k.val = 0 + k.val; omega

theorem pay2_apply (j : S1x1.Idx) : k0_pay2 (F := Ideal) j = 0 := by
  show shapeCast S1x1 (broadcast S1x1 (Scalar.ofBits (F := Ideal) .f32 0x00000000#32)) shapeCasts_S1x1_S1x1 j = 0
  rw [shapeCast_self]
  exact Ideal.ofBits_zero_f32
theorem pay3_apply (j : S1x1.Idx) : k0_pay3 (F := Ideal) j = 0 := pay2_apply j

theorem updL_apply (x : Vec Ideal S5000x115x3 .f32) (s : Vec Ideal S1x1 .f32) (j : S1x1.Idx) :
    updL x s j = s j + Cert.Count.countIn (T := 5000) 0 5000 40 (by omega) (by omega) x := by
  show k0_pay5 x s j = _
  rw [pay5_eq, shapeCast_self]
  show s j + handChain ![0, 40, 0] slices_S5000x115x3_o0_40_0_S5000x21x3 x j = _
  rw [handChain_apply 40 (by omega)]

theorem updR_apply (x : Vec Ideal S5000x115x3 .f32) (s : Vec Ideal S1x1 .f32) (j : S1x1.Idx) :
    updR x s j = s j + Cert.Count.countIn (T := 5000) 0 5000 94 (by omega) (by omega) x := by
  show k0_pay1 (k0_pay4 x) s j = _
  rw [pay1_eq, shapeCast_self, pay4_eq]
  show s j + handChain ![0, 94, 0] slices_S5000x115x3_o0_94_0_S5000x21x3 x j = _
  rw [handChain_apply 94 (by omega)]

section Points
variable {F : FTy → Type} [FloatOps F]
variable (m : (ℓ : Loc nD τ sig) → Buf (Elt F) ℓ)

abbrev xblk (c : Dev nD) (t : Fin cfg0.N) : Vec F S5000x115x3 .f32 := iblk m c 0 t

theorem index0_0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

theorem xblk_apply (c : Dev nD) (t : Fin cfg0.N) (r : Fin 5000) (a : Fin 115) (k : Fin 3) :
    xblk m c t (ix3 r a k)
      = m ((c : Thread nD τ).loc main_arg0) (ix3 ⟨5000 * t.val + r.val, by have := t.isLt; have : cfg0.N = 20 := N_0; omega⟩ a k) := by
  obtain ⟨i0, i1, i2⟩ := index0_0 t
  unfold xblk iblk
  rw [View.read_apply]
  show V m c main_arg0 _ = _
  refine (congrFun (V_main_arg0 m c) _).trans (congrArg (m ((c : Thread nD τ).loc main_arg0)) ?_)
  funext d
  apply Fin.ext
  match d with
  | ⟨0, _⟩ => show win0_0.index t 0 * 5000 + 1 * r.val = 5000 * t.val + r.val; rw [i0]; omega
  | ⟨1, _⟩ => show win0_0.index t 1 * 115 + 1 * a.val = a.val; rw [i1]; omega
  | ⟨2, _⟩ => show win0_0.index t 2 * 3 + 1 * k.val = k.val; rw [i2]; omega

end Points

section AtIdeal
variable (m : (ℓ : Loc nD τ sig) → Buf (Elt Ideal) ℓ)

def cnt (c : Dev nD) (o : ℕ) (ho : o + 21 ≤ 115) (b : ℕ) : EReal :=
  if h : b < cfg0.N then Cert.Count.countIn (T := 5000) 0 5000 o (by omega) ho (xblk m c ⟨b, h⟩) else 0

theorem counters_eq (c : Dev nD) : ∀ (n : ℕ) (h : n < cfg0.N) (j : S1x1.Idx),
    (acc m c n h).1 j = ∑ b ∈ Finset.range (n + 1), cnt m c 40 (by omega) b
    ∧ (acc m c n h).2 j = ∑ b ∈ Finset.range (n + 1), cnt m c 94 (by omega) b
  | 0, h, j => by
    constructor
    · show updL (xblk m c ⟨0, h⟩) (k0_pay2 (F := Ideal)) j = _
      rw [updL_apply, pay2_apply, zero_add, Finset.sum_range_one, cnt, dif_pos h]
    · show updR (xblk m c ⟨0, h⟩) (k0_pay3 (F := Ideal)) j = _
      rw [updR_apply, pay3_apply, zero_add, Finset.sum_range_one, cnt, dif_pos h]
  | n + 1, h, j => by
    have ih := counters_eq c n (Nat.lt_of_succ_lt h) j
    constructor
    · show updL (xblk m c ⟨n + 1, h⟩) (acc m c n (Nat.lt_of_succ_lt h)).1 j = _
      rw [updL_apply, ih.1, Finset.sum_range_succ _ (n + 1), cnt, dif_pos h]
    · show updR (xblk m c ⟨n + 1, h⟩) (acc m c n (Nat.lt_of_succ_lt h)).2 j = _
      rw [updR_apply, ih.2, Finset.sum_range_succ _ (n + 1), cnt, dif_pos h]

theorem sum_cnt_eq_total (c : Dev nD) (o : ℕ) (ho : o + 21 ≤ 115) (K : ℕ) (hK : K = 20) :
    ∑ b ∈ Finset.range K, cnt m c o ho b = Cert.Count.total o ho (m ((c : Thread nD τ).loc main_arg0)) := by
  subst hK
  have hN : cfg0.N = 20 := N_0
  rw [Cert.Count.total_eq_blocks, Finset.sum_range]
  refine Finset.sum_congr rfl fun b _ => ?_
  rw [cnt, dif_pos (by rw [hN]; exact b.isLt)]
  unfold Cert.Count.countIn
  refine Finset.sum_congr rfl fun t _ => Finset.sum_congr rfl fun a _ => Finset.sum_congr rfl fun k _ => congrArg Cert.Count.nz ?_
  refine (xblk_apply m c ⟨b.val, by rw [hN]; exact b.isLt⟩ ⟨0 + t.val, by have := t.isLt; omega⟩ ⟨o + a.val, by have := a.isLt; omega⟩ k).trans
    (congrArg (m ((c : Thread nD τ).loc main_arg0)) ?_)
  funext d
  apply Fin.ext
  match d with
  | ⟨0, _⟩ => show 5000 * b.val + (0 + t.val) = 5000 * b.val + t.val; omega
  | ⟨1, _⟩ => rfl
  | ⟨2, _⟩ => rfl

theorem acc_last (c : Dev nD) (t : Fin cfg0.N) (h19 : t.val = 19) (j : S1x1.Idx) :
    (acc m c t.val t.isLt).1 j = Cert.Count.total 40 (by omega) (m ((c : Thread nD τ).loc main_arg0))
    ∧ (acc m c t.val t.isLt).2 j = Cert.Count.total 94 (by omega) (m ((c : Thread nD τ).loc main_arg0)) :=
  ⟨(counters_eq m c t.val t.isLt j).1.trans (sum_cnt_eq_total m c 40 (by omega) _ (by omega)),
    (counters_eq m c t.val t.isLt j).2.trans (sum_cnt_eq_total m c 94 (by omega) _ (by omega))⟩

end AtIdeal

section Final
variable (m : (ℓ : Loc nD τ sig) → Buf (Elt Ideal) ℓ)

abbrev t19 : Fin cfg0.N := ⟨19, lt_of_lt_of_eq (by decide : 19 < 20) N_0.symm⟩

theorem flushed1_eq (c : Dev nD) (t : Fin cfg0.N) (hf : (cfg0.win 1).flush t = true) :
    (dats (F := Ideal) m 0 c).flushed 1 t
      = ((cfg0.win 1).blk t).view.read (Elt Ideal)
          (fun _ => Cert.Count.total 40 (by omega) (m ((c : Thread nD τ).loc main_arg0))) := by
  have hN : cfg0.N = 20 := N_0
  have h19 : t.val = 19 := by have := (flush0_1 t).mp hf; have := t.isLt; omega
  funext x
  rw [View.read_apply]
  refine Eq.trans ?_ (cast_eq _ _).symm
  show (dats m 0 c).after 1 t ((cfg0.win 1).xinj (grid0.coords t) x) = _
  rw [after0_1]
  exact (acc_last m c t h19 _).1

theorem flushed2_eq (c : Dev nD) (t : Fin cfg0.N) (hf : (cfg0.win 2).flush t = true) :
    (dats (F := Ideal) m 0 c).flushed 2 t
      = ((cfg0.win 2).blk t).view.read (Elt Ideal)
          (fun _ => Cert.Count.total 94 (by omega) (m ((c : Thread nD τ).loc main_arg0))) := by
  have hN : cfg0.N = 20 := N_0
  have h19 : t.val = 19 := by have := (flush0_2 t).mp hf; have := t.isLt; omega
  funext x
  rw [View.read_apply]
  refine Eq.trans ?_ (cast_eq _ _).symm
  show (dats m 0 c).after 2 t ((cfg0.win 2).xinj (grid0.coords t) x) = _
  rw [after0_2]
  exact (acc_last m c t h19 _).2

theorem cover1 (c : Dev nD) (i : ((cfg0.win 1).arr.view.loc (c.tc : Thread nD τ)).2.ty.Idx) :
    ∃ t : Fin cfg0.N, (cfg0.win 1).flush t = true ∧ i ∈ ((cfg0.win 1).blk t).view.set := by
  refine ⟨t19, (flush0_1 t19).mpr rfl, ?_⟩
  show i ∈ ((View.whole main_v0_0).slice (win0_1.rect t19)).set
  rw [View.set_slice_whole, Rect.mem_set_unit]
  intro a
  have h0 : (i 0 : Nat) < 1 := (i 0).isLt
  have h1 : (i 1 : Nat) < 1 := (i 1).isLt
  match a with
  | ⟨0, _⟩ =>
    show win0_1.index t19 0 * win0_1.size 0 ≤ (i 0 : Nat) ∧ (i 0 : Nat) < win0_1.index t19 0 * win0_1.size 0 + win0_1.xsize (grid0.coords t19) 0
    rw [show win0_1.index t19 0 * win0_1.size 0 = 0 from by decide +kernel, show win0_1.xsize (grid0.coords t19) 0 = 1 from by decide +kernel]; omega
  | ⟨1, _⟩ =>
    show win0_1.index t19 1 * win0_1.size 1 ≤ (i 1 : Nat) ∧ (i 1 : Nat) < win0_1.index t19 1 * win0_1.size 1 + win0_1.xsize (grid0.coords t19) 1
    rw [show win0_1.index t19 1 * win0_1.size 1 = 0 from by decide +kernel, show win0_1.xsize (grid0.coords t19) 1 = 1 from by decide +kernel]; omega

theorem cover2 (c : Dev nD) (i : ((cfg0.win 2).arr.view.loc (c.tc : Thread nD τ)).2.ty.Idx) :
    ∃ t : Fin cfg0.N, (cfg0.win 2).flush t = true ∧ i ∈ ((cfg0.win 2).blk t).view.set := by
  refine ⟨t19, (flush0_2 t19).mpr rfl, ?_⟩
  show i ∈ ((View.whole main_v0_1).slice (win0_2.rect t19)).set
  rw [View.set_slice_whole, Rect.mem_set_unit]
  intro a
  have h0 : (i 0 : Nat) < 1 := (i 0).isLt
  have h1 : (i 1 : Nat) < 1 := (i 1).isLt
  match a with
  | ⟨0, _⟩ =>
    show win0_2.index t19 0 * win0_2.size 0 ≤ (i 0 : Nat) ∧ (i 0 : Nat) < win0_2.index t19 0 * win0_2.size 0 + win0_2.xsize (grid0.coords t19) 0
    rw [show win0_2.index t19 0 * win0_2.size 0 = 0 from by decide +kernel, show win0_2.xsize (grid0.coords t19) 0 = 1 from by decide +kernel]; omega
  | ⟨1, _⟩ =>
    show win0_2.index t19 1 * win0_2.size 1 ≤ (i 1 : Nat) ∧ (i 1 : Nat) < win0_2.index t19 1 * win0_2.size 1 + win0_2.xsize (grid0.coords t19) 1
    rw [show win0_2.index t19 1 * win0_2.size 1 = 0 from by decide +kernel, show win0_2.xsize (grid0.coords t19) 1 = 1 from by decide +kernel]; omega

end Final

theorem cl_eq (m : (ℓ : Loc nD τ sig) → Buf (Elt Ideal) ℓ) (c : Dev nD) :
    (dats (F := Ideal) m 0 c).arrAt 1 cfg0.N
      = fun _ => Cert.Count.total 40 (by omega) (m ((c : Thread nD τ).loc main_arg0)) :=
  (dats (F := Ideal) m 0 c).arrAt_eq_of_cover 1 _ (flushed1_eq m c) (cover1 c)

theorem cr_eq (m : (ℓ : Loc nD τ sig) → Buf (Elt Ideal) ℓ) (c : Dev nD) :
    (dats (F := Ideal) m 0 c).arrAt 2 cfg0.N
      = fun _ => Cert.Count.total 94 (by omega) (m ((c : Thread nD τ).loc main_arg0)) :=
  (dats (F := Ideal) m 0 c).arrAt_eq_of_cover 2 _ (flushed2_eq m c) (cover2 c)

end Cert.KernelIdeal.Hand

end
-- ==== Proof.KI.Value.lean ====
import proofs.«101359_j2095944041143_1_alg».proof.Proof.KI.Entry
import proofs.«101359_j2095944041143_1_alg».proof.Proof.KI.Tail
import proofs.«101359_j2095944041143_1_alg».proof.Proof.KI.Counts

set_option maxRecDepth 16384

noncomputable section

namespace Cert.KernelIdeal.Hand

open Cert.KernelIdeal Cert.KernelIdeal.Gen Cert.KernelIdeal.Stages
open Idealize.ShloMosaic Idealize.ShloMosaic.TcCoe
open Idealize.SL Idealize.SL.Sem
open Idealize.ShloMosaic.StableHlo

variable (m : (ℓ : Loc nD τ sig) → Buf (Elt Ideal) ℓ) (ρ : Dev nD → PrngReg)

theorem value_run : θ_run defs (onTc (τ := τ) (main (F := Ideal))) ⟨m, fun _ => 0, ρ⟩ (fun r => ∀ c : Dev nD,
      r.2.mem ((c.tc : Thread nD τ).loc main_v115) = k_main_v115 (Wf m c)
      ∧ r.2.mem ((c.tc : Thread nD τ).loc main_arg0) = m ((c.tc : Thread nD τ).loc main_arg0)) :=
  (θ_run defs _ _).mono (fun _ h c =>
    ⟨((h c).2 main_v115 (Pipeline.mem_restRefs_of main_v115 rfl (by intro w; fin_cases w <;> decide))).trans (tail_eq (Wf m c)),
     ((h c).1 0).trans (((dats (F := Ideal) m 0 c).arrAt_in 0 rfl _).trans ((A_eq m c 0).trans (V_main_arg0 m c)))⟩)
    (run_main (F := Ideal) m ρ)

theorem Wf_left (c : Dev nD) : Wf m c (Proc.devRef .tc main_v0_0) = fun _ => Cert.Count.total 40 (by omega) (m ((c : Thread nD τ).loc main_arg0)) :=
  (Wf_arr m c 1).trans (cl_eq m c)

theorem Wf_right (c : Dev nD) : Wf m c (Proc.devRef .tc main_v0_1) = fun _ => Cert.Count.total 94 (by omega) (m ((c : Thread nD τ).loc main_arg0)) :=
  (Wf_arr m c 2).trans (cr_eq m c)

end Cert.KernelIdeal.Hand

end
-- ==== Proof.RI.Ops.lean ====
import proofs.«101359_j2095944041143_1_alg».proof.Proof.Gen.ReferenceIdeal
import Idealize.ShloMosaic.Lib.StableHlo.Run

set_option maxRecDepth 16384

noncomputable section

namespace Cert.ReferenceIdeal.Ops

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

set_option maxHeartbeats 40000000 in
/-- The operations of @main's window 0, in order. -/
abbrev rops0 : List (HloOp τ sig (Elt F)) :=
  ( StableHlo.nullary main_c (fun i => lit0 (S210.rowMajor i))
  :: StableHlo.nullary main_c_0 (constantI S210 1 0#1)
  :: StableHlo.nullary main_c_1 (fun i => lit1 (S210.rowMajor i))
  :: StableHlo.nullary main_c_2 (constantI S210 1 0#1)
  :: StableHlo.nullary main_c_3 (fun i => lit2 (S300.rowMajor i))
  :: StableHlo.nullary main_c_4 (constantI S300 1 0#1)
  :: StableHlo.nullary main_c_5 (fun i => lit3 (S300.rowMajor i))
  :: StableHlo.nullary main_c_6 (constantI S300 1 0#1)
  :: StableHlo.nullary main_c_7 (fun i => lit4 (S190.rowMajor i))
  :: StableHlo.nullary main_c_8 (constantI S190 1 0#1)
  :: StableHlo.nullary main_c_9 (fun i => lit5 (S190.rowMajor i))
  :: StableHlo.nullary main_c_10 (constantI S190 1 0#1)
  :: StableHlo.nullary main_c_11 (constantI S190 1 0#1)
  :: StableHlo.nullary main_c_12 (constantI S190 1 0#1)
  :: StableHlo.binary main_arg0 main_arg0 main_v0 (cmpf .une : (⟨S100000x115x3, .f32⟩ : BufTy).Contents (Elt F) → (⟨S100000x115x3, .f32⟩ : BufTy).Contents (Elt F) → (⟨S100000x115x3, .i1⟩ : BufTy).Contents (Elt F))
  :: StableHlo.nullary main_cst (constant S_ .f32 0x00000000#32)
  :: StableHlo.TRef.unary (.of main_cst : StableHlo.TRef sig ⟨S_, .f32⟩) (.of main_call0_v0 : StableHlo.TRef sig ⟨S100000x115x3, .f32⟩) (broadcastInDim S100000x115x3 ![] bcast_S_S100000x115x3)
  :: StableHlo.TRef.ternary (.of main_v0 : StableHlo.TRef sig ⟨S100000x115x3, .i1⟩) (.of main_call0_v0 : StableHlo.TRef sig ⟨S100000x115x3, .f32⟩) (.of main_arg0 : StableHlo.TRef sig ⟨S100000x115x3, .f32⟩) (.of main_v1 : StableHlo.TRef sig ⟨S100000x115x3, .f32⟩) select
  :: StableHlo.unary main_v1 main_v2 ((extractStridedSlice S100000x21x3 ![0, 40, 0] · slices_S100000x115x3_S100000x21x3_0_40_0) : (⟨S100000x115x3, .f32⟩ : BufTy).Contents (Elt F) → (⟨S100000x21x3, .f32⟩ : BufTy).Contents (Elt F))
  :: StableHlo.unary main_v1 main_v3 ((extractStridedSlice S100000x21x3 ![0, 94, 0] · slices_S100000x115x3_S100000x21x3_0_94_0) : (⟨S100000x115x3, .f32⟩ : BufTy).Contents (Elt F) → (⟨S100000x21x3, .f32⟩ : BufTy).Contents (Elt F))
  :: StableHlo.unary main_v1 main_v4 ((extractStridedSlice S100000x25x3 ![0, 61, 0] · slices_S100000x115x3_S100000x25x3_0_61_0) : (⟨S100000x115x3, .f32⟩ : BufTy).Contents (Elt F) → (⟨S100000x25x3, .f32⟩ : BufTy).Contents (Elt F))
  :: StableHlo.unary main_v1 main_v5 ((extractStridedSlice S100000x40x3 ![0, 0, 0] · slices_S100000x115x3_S100000x40x3_0_0_0) : (⟨S100000x115x3, .f32⟩ : BufTy).Contents (Elt F) → (⟨S100000x40x3, .f32⟩ : BufTy).Contents (Elt F))
  :: StableHlo.nullary main_cst_13 (constant S_ .f32 0x00000000#32)
  :: StableHlo.unary main_cst_13 main_v6 (broadcastInDim S100000x21x3 ![] bcast_S_S100000x21x3 : (⟨S_, .f32⟩ : BufTy).Contents (Elt F) → (⟨S100000x21x3, .f32⟩ : BufTy).Contents (Elt F))
  :: StableHlo.binary main_v2 main_v6 main_v7 (cmpf .une : (⟨S100000x21x3, .f32⟩ : BufTy).Contents (Elt F) → (⟨S100000x21x3, .f32⟩ : BufTy).Contents (Elt F) → (⟨S100000x21x3, .i1⟩ : BufTy).Contents (Elt F))
  :: StableHlo.unary main_v7 main_v8 (uitofp .f32 : (⟨S100000x21x3, .i1⟩ : BufTy).Contents (Elt F) → (⟨S100000x21x3, .f32⟩ : BufTy).Contents (Elt F))
  :: StableHlo.nullary main_cst_14 (constant S_ .f32 0x00000000#32)
  :: StableHlo.binary main_v8 main_cst_14 main_v9 ((fun x v => Host.reduceAdd x v reducesTo_S100000x21x3_S_d0_1_2 h_S_) : (⟨S100000x21x3, .f32⟩ : BufTy).Contents (Elt F) → (⟨S_, .f32⟩ : BufTy).Contents (Elt F) → (⟨S_, .f32⟩ : BufTy).Contents (Elt F))
  :: StableHlo.nullary main_cst_15 (constant S_ .f32 0x00000000#32)
  :: StableHlo.unary main_cst_15 main_v10 (broadcastInDim S100000x21x3 ![] bcast_S_S100000x21x3 : (⟨S_, .f32⟩ : BufTy).Contents (Elt F) → (⟨S100000x21x3, .f32⟩ : BufTy).Contents (Elt F))
  :: StableHlo.binary main_v3 main_v10 main_v11 (cmpf .une : (⟨S100000x21x3, .f32⟩ : BufTy).Contents (Elt F) → (⟨S100000x21x3, .f32⟩ : BufTy).Contents (Elt F) → (⟨S100000x21x3, .i1⟩ : BufTy).Contents (Elt F))
  :: StableHlo.unary main_v11 main_v12 (uitofp .f32 : (⟨S100000x21x3, .i1⟩ : BufTy).Contents (Elt F) → (⟨S100000x21x3, .f32⟩ : BufTy).Contents (Elt F))
  :: StableHlo.nullary main_cst_16 (constant S_ .f32 0x00000000#32)
  :: StableHlo.binary main_v12 main_cst_16 main_v13 ((fun x v => Host.reduceAdd x v reducesTo_S100000x21x3_S_d0_1_2 h_S_) : (⟨S100000x21x3, .f32⟩ : BufTy).Contents (Elt F) → (⟨S_, .f32⟩ : BufTy).Contents (Elt F) → (⟨S_, .f32⟩ : BufTy).Contents (Elt F))
  :: StableHlo.binary main_v9 main_v13 main_v14 (cmpf .ogt : (⟨S_, .f32⟩ : BufTy).Contents (Elt F) → (⟨S_, .f32⟩ : BufTy).Contents (Elt F) → (⟨S_, .i1⟩ : BufTy).Contents (Elt F))
  :: StableHlo.TRef.ternary (.of main_v14 : StableHlo.TRef sig ⟨S_, .i1⟩) (.of main_v2 : StableHlo.TRef sig ⟨S100000x21x3, .f32⟩) (.of main_v3 : StableHlo.TRef sig ⟨S100000x21x3, .f32⟩) (.of main_v15 : StableHlo.TRef sig ⟨S100000x21x3, .f32⟩) (fun p a b => select (broadcastInDim S100000x21x3 ![] bcast_S_S100000x21x3 p) a b)
  :: StableHlo.nary ![main_v2, main_v4, main_v5] main_v16 (fun u => concatenate S100000x86x3 1 [⟨S100000x21x3, u 0⟩, ⟨S100000x25x3, u 1⟩, ⟨S100000x40x3, u 2⟩] concatenates_S100000x21x3_S100000x25x3_S100000x40x3_S100000x86x3_d1)
  :: StableHlo.nary ![main_v3, main_v4, main_v5] main_v17 (fun u => concatenate S100000x86x3 1 [⟨S100000x21x3, u 0⟩, ⟨S100000x25x3, u 1⟩, ⟨S100000x40x3, u 2⟩] concatenates_S100000x21x3_S100000x25x3_S100000x40x3_S100000x86x3_d1)
  :: StableHlo.TRef.ternary (.of main_v14 : StableHlo.TRef sig ⟨S_, .i1⟩) (.of main_v16 : StableHlo.TRef sig ⟨S100000x86x3, .f32⟩) (.of main_v17 : StableHlo.TRef sig ⟨S100000x86x3, .f32⟩) (.of main_v18 : StableHlo.TRef sig ⟨S100000x86x3, .f32⟩) (fun p a b => select (broadcastInDim S100000x86x3 ![] bcast_S_S100000x86x3 p) a b)
  :: StableHlo.unary main_v18 main_v19 ((extractStridedSlice S100000x86x1 ![0, 0, 0] · slices_S100000x86x3_S100000x86x1_0_0_0) : (⟨S100000x86x3, .f32⟩ : BufTy).Contents (Elt F) → (⟨S100000x86x1, .f32⟩ : BufTy).Contents (Elt F))
  :: StableHlo.reshape main_v19 main_v20 rfl shapeCasts_S100000x86x1_S100000x86
  :: StableHlo.unary main_v20 main_v21 (Host.negf : (⟨S100000x86, .f32⟩ : BufTy).Contents (Elt F) → (⟨S100000x86, .f32⟩ : BufTy).Contents (Elt F))
  :: StableHlo.unary main_v18 main_v22 ((extractStridedSlice S100000x86x1 ![0, 0, 0] · slices_S100000x86x3_S100000x86x1_0_0_0) : (⟨S100000x86x3, .f32⟩ : BufTy).Contents (Elt F) → (⟨S100000x86x1, .f32⟩ : BufTy).Contents (Elt F))
  :: StableHlo.reshape main_v22 main_v23 rfl shapeCasts_S100000x86x1_S100000x86
  :: StableHlo.TRef.ternary (.of main_v14 : StableHlo.TRef sig ⟨S_, .i1⟩) (.of main_v21 : StableHlo.TRef sig ⟨S100000x86, .f32⟩) (.of main_v23 : StableHlo.TRef sig ⟨S100000x86, .f32⟩) (.of main_v24 : StableHlo.TRef sig ⟨S100000x86, .f32⟩) (fun p a b => select (broadcastInDim S100000x86 ![] bcast_S_S100000x86 p) a b)
  :: StableHlo.unary main_v24 main_v25 (broadcastInDim S100000x86x1 ![0, 1] bcast_S100000x86_S100000x86x1_0_1 : (⟨S100000x86, .f32⟩ : BufTy).Contents (Elt F) → (⟨S100000x86x1, .f32⟩ : BufTy).Contents (Elt F))
  :: StableHlo.unary main_v18 main_v26 ((extractStridedSlice S100000x86x2 ![0, 0, 1] · slices_S100000x86x3_S100000x86x2_0_0_1) : (⟨S100000x86x3, .f32⟩ : BufTy).Contents (Elt F) → (⟨S100000x86x2, .f32⟩ : BufTy).Contents (Elt F))
  :: StableHlo.binary main_v25 main_v26 main_v27 ((fun a b => concatenate S100000x86x3 2 [⟨S100000x86x1, a⟩, ⟨S100000x86x2, b⟩] concatenates_S100000x86x1_S100000x86x2_S100000x86x3_d2) : (⟨S100000x86x1, .f32⟩ : BufTy).Contents (Elt F) → (⟨S100000x86x2, .f32⟩ : BufTy).Contents (Elt F) → (⟨S100000x86x3, .f32⟩ : BufTy).Contents (Elt F))
  :: StableHlo.reshape main_v15 main_v28 rfl shapeCasts_S100000x21x3_S100000x63
  :: StableHlo.nullary main_cst_17 (constant S_ .f32 0x00000000#32)
  :: StableHlo.binary main_v28 main_cst_17 main_v29 ((fun x v => Host.reduceAdd x v reducesTo_S100000x63_S100000_d1 h_S_) : (⟨S100000x63, .f32⟩ : BufTy).Contents (Elt F) → (⟨S_, .f32⟩ : BufTy).Contents (Elt F) → (⟨S100000, .f32⟩ : BufTy).Contents (Elt F))
  :: StableHlo.nullary main_cst_18 (constant S_ .f32 0x00000000#32)
  :: StableHlo.unary main_cst_18 main_v30 (broadcastInDim S100000 ![] bcast_S_S100000 : (⟨S_, .f32⟩ : BufTy).Contents (Elt F) → (⟨S100000, .f32⟩ : BufTy).Contents (Elt F))
  :: StableHlo.binary main_v29 main_v30 main_v31 (cmpf .une : (⟨S100000, .f32⟩ : BufTy).Contents (Elt F) → (⟨S100000, .f32⟩ : BufTy).Contents (Elt F) → (⟨S100000, .i1⟩ : BufTy).Contents (Elt F))
  :: StableHlo.unary main_v31 main_v32 (uitofp .f32 : (⟨S100000, .i1⟩ : BufTy).Contents (Elt F) → (⟨S100000, .f32⟩ : BufTy).Contents (Elt F))
  :: StableHlo.nullary main_cst_19 (constant S_ .f32 0x3F800000#32)
  :: StableHlo.unary main_cst_19 main_v33 (broadcastInDim S100000 ![] bcast_S_S100000 : (⟨S_, .f32⟩ : BufTy).Contents (Elt F) → (⟨S100000, .f32⟩ : BufTy).Contents (Elt F))
  :: StableHlo.binary main_v32 main_v33 main_v34 (addf : (⟨S100000, .f32⟩ : BufTy).Contents (Elt F) → (⟨S100000, .f32⟩ : BufTy).Contents (Elt F) → (⟨S100000, .f32⟩ : BufTy).Contents (Elt F))
  :: StableHlo.unary main_v27 main_v35 ((extractStridedSlice S99999x86x3 ![0, 0, 0] · slices_S100000x86x3_S99999x86x3_0_0_0) : (⟨S100000x86x3, .f32⟩ : BufTy).Contents (Elt F) → (⟨S99999x86x3, .f32⟩ : BufTy).Contents (Elt F))
  :: StableHlo.unary main_v27 main_v36 ((extractStridedSlice S99999x86x3 ![1, 0, 0] · slices_S100000x86x3_S99999x86x3_1_0_0) : (⟨S100000x86x3, .f32⟩ : BufTy).Contents (Elt F) → (⟨S99999x86x3, .f32⟩ : BufTy).Contents (Elt F))
  :: StableHlo.binary main_v35 main_v36 main_v37 (subf : (⟨S99999x86x3, .f32⟩ : BufTy).Contents (Elt F) → (⟨S99999x86x3, .f32⟩ : BufTy).Contents (Elt F) → (⟨S99999x86x3, .f32⟩ : BufTy).Contents (Elt F))
  :: [] )

set_option maxHeartbeats 40000000 in
/-- Each touches TensorCore buffers only. -/
theorem rops0_sub : (rops0 : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., binary_bufs_sub .., nullary_bufs_sub .., unary_bufs_sub .., ternary_bufs_sub .., unary_bufs_sub .., unary_bufs_sub .., unary_bufs_sub .., unary_bufs_sub .., nullary_bufs_sub .., unary_bufs_sub .., binary_bufs_sub .., unary_bufs_sub .., nullary_bufs_sub .., binary_bufs_sub .., nullary_bufs_sub .., unary_bufs_sub .., binary_bufs_sub .., unary_bufs_sub .., nullary_bufs_sub .., binary_bufs_sub .., binary_bufs_sub .., ternary_bufs_sub .., nary_bufs_sub .., nary_bufs_sub .., ternary_bufs_sub .., unary_bufs_sub .., reshape_bufs_sub .., unary_bufs_sub .., unary_bufs_sub .., reshape_bufs_sub .., ternary_bufs_sub .., unary_bufs_sub .., unary_bufs_sub .., binary_bufs_sub .., reshape_bufs_sub .., nullary_bufs_sub .., binary_bufs_sub .., nullary_bufs_sub .., unary_bufs_sub .., binary_bufs_sub .., unary_bufs_sub .., nullary_bufs_sub .., unary_bufs_sub .., binary_bufs_sub .., unary_bufs_sub .., unary_bufs_sub .., binary_bufs_sub ..⟩

set_option maxHeartbeats 40000000 in
/-- The operations of @main's window 1, in order. -/
abbrev rops1 : List (HloOp τ sig (Elt F)) :=
  ( StableHlo.nullary main_cst_20 (constant S_ .f32 0x00000000#32)
  :: StableHlo.unary main_cst_20 main_v38 (broadcastInDim S1x86x3 ![] bcast_S_S1x86x3 : (⟨S_, .f32⟩ : BufTy).Contents (Elt F) → (⟨S1x86x3, .f32⟩ : BufTy).Contents (Elt F))
  :: StableHlo.binary main_v37 main_v38 main_v39 ((fun a b => concatenate S100000x86x3 0 [⟨S99999x86x3, a⟩, ⟨S1x86x3, b⟩] concatenates_S99999x86x3_S1x86x3_S100000x86x3_d0) : (⟨S99999x86x3, .f32⟩ : BufTy).Contents (Elt F) → (⟨S1x86x3, .f32⟩ : BufTy).Contents (Elt F) → (⟨S100000x86x3, .f32⟩ : BufTy).Contents (Elt F))
  :: StableHlo.unary main_v27 main_v40 ((extractStridedSlice S100000x21x3 ![0, 0, 0] · slices_S100000x86x3_S100000x21x3_0_0_0) : (⟨S100000x86x3, .f32⟩ : BufTy).Contents (Elt F) → (⟨S100000x21x3, .f32⟩ : BufTy).Contents (Elt F))
  :: StableHlo.nullary main_c_21 (constantI S_ 32 21#32)
  :: StableHlo.unary main_c_21 main_v41 (broadcastInDim S210 ![] bcast_S_S210 : (⟨S_, .i32⟩ : BufTy).Contents (Elt F) → (⟨S210, .i32⟩ : BufTy).Contents (Elt F))
  :: StableHlo.binary main_c main_v41 main_v42 (addi : (⟨S210, .i32⟩ : BufTy).Contents (Elt F) → (⟨S210, .i32⟩ : BufTy).Contents (Elt F) → (⟨S210, .i32⟩ : BufTy).Contents (Elt F))
  :: StableHlo.ternary main_c_0 main_v42 main_c main_v43 (select : (⟨S210, .i1⟩ : BufTy).Contents (Elt F) → (⟨S210, .i32⟩ : BufTy).Contents (Elt F) → (⟨S210, .i32⟩ : BufTy).Contents (Elt F) → (⟨S210, .i32⟩ : BufTy).Contents (Elt F))
  :: StableHlo.unary main_v43 main_v44 (broadcastInDim S210x1 ![0] bcast_S210_S210x1_0 : (⟨S210, .i32⟩ : BufTy).Contents (Elt F) → (⟨S210x1, .i32⟩ : BufTy).Contents (Elt F))
  :: StableHlo.binary main_v40 main_v44 main_v45 ((fun x i => Host.gather gather_S100000x21x3_S210x1_S100000x210x3_02_1_n_n_1_1_10000013 x i) : (⟨S100000x21x3, .f32⟩ : BufTy).Contents (Elt F) → (⟨S210x1, .i32⟩ : BufTy).Contents (Elt F) → (⟨S100000x210x3, .f32⟩ : BufTy).Contents (Elt F))
  :: StableHlo.nullary main_c_22 (constantI S_ 32 21#32)
  :: StableHlo.unary main_c_22 main_v46 (broadcastInDim S210 ![] bcast_S_S210 : (⟨S_, .i32⟩ : BufTy).Contents (Elt F) → (⟨S210, .i32⟩ : BufTy).Contents (Elt F))
  :: StableHlo.binary main_c_1 main_v46 main_v47 (addi : (⟨S210, .i32⟩ : BufTy).Contents (Elt F) → (⟨S210, .i32⟩ : BufTy).Contents (Elt F) → (⟨S210, .i32⟩ : BufTy).Contents (Elt F))
  :: StableHlo.ternary main_c_2 main_v47 main_c_1 main_v48 (select : (⟨S210, .i1⟩ : BufTy).Contents (Elt F) → (⟨S210, .i32⟩ : BufTy).Contents (Elt F) → (⟨S210, .i32⟩ : BufTy).Contents (Elt F) → (⟨S210, .i32⟩ : BufTy).Contents (Elt F))
  :: StableHlo.unary main_v48 main_v49 (broadcastInDim S210x1 ![0] bcast_S210_S210x1_0 : (⟨S210, .i32⟩ : BufTy).Contents (Elt F) → (⟨S210x1, .i32⟩ : BufTy).Contents (Elt F))
  :: StableHlo.binary main_v40 main_v49 main_v50 ((fun x i => Host.gather gather_S100000x21x3_S210x1_S100000x210x3_02_1_n_n_1_1_10000013 x i) : (⟨S100000x21x3, .f32⟩ : BufTy).Contents (Elt F) → (⟨S210x1, .i32⟩ : BufTy).Contents (Elt F) → (⟨S100000x210x3, .f32⟩ : BufTy).Contents (Elt F))
  :: StableHlo.binary main_v45 main_v50 main_v51 (subf : (⟨S100000x210x3, .f32⟩ : BufTy).Contents (Elt F) → (⟨S100000x210x3, .f32⟩ : BufTy).Contents (Elt F) → (⟨S100000x210x3, .f32⟩ : BufTy).Contents (Elt F))
  :: StableHlo.binary main_v51 main_v51 main_v52 (mulf : (⟨S100000x210x3, .f32⟩ : BufTy).Contents (Elt F) → (⟨S100000x210x3, .f32⟩ : BufTy).Contents (Elt F) → (⟨S100000x210x3, .f32⟩ : BufTy).Contents (Elt F))
  :: StableHlo.nullary main_cst_23 (constant S_ .f32 0x00000000#32)
  :: StableHlo.binary main_v52 main_cst_23 main_v53 ((fun x v => Host.reduceAdd x v reducesTo_S100000x210x3_S100000x210_d2 h_S_) : (⟨S100000x210x3, .f32⟩ : BufTy).Contents (Elt F) → (⟨S_, .f32⟩ : BufTy).Contents (Elt F) → (⟨S100000x210, .f32⟩ : BufTy).Contents (Elt F))
  :: StableHlo.unary main_v53 main_v54 (Host.sqrt : (⟨S100000x210, .f32⟩ : BufTy).Contents (Elt F) → (⟨S100000x210, .f32⟩ : BufTy).Contents (Elt F))
  :: StableHlo.unary main_v27 main_v55 ((extractStridedSlice S100000x25x2 ![0, 21, 0] · slices_S100000x86x3_S100000x25x2_0_21_0) : (⟨S100000x86x3, .f32⟩ : BufTy).Contents (Elt F) → (⟨S100000x25x2, .f32⟩ : BufTy).Contents (Elt F))
  :: StableHlo.nullary main_c_24 (constantI S_ 32 25#32)
  :: StableHlo.unary main_c_24 main_v56 (broadcastInDim S300 ![] bcast_S_S300 : (⟨S_, .i32⟩ : BufTy).Contents (Elt F) → (⟨S300, .i32⟩ : BufTy).Contents (Elt F))
  :: StableHlo.binary main_c_3 main_v56 main_v57 (addi : (⟨S300, .i32⟩ : BufTy).Contents (Elt F) → (⟨S300, .i32⟩ : BufTy).Contents (Elt F) → (⟨S300, .i32⟩ : BufTy).Contents (Elt F))
  :: StableHlo.ternary main_c_4 main_v57 main_c_3 main_v58 (select : (⟨S300, .i1⟩ : BufTy).Contents (Elt F) → (⟨S300, .i32⟩ : BufTy).Contents (Elt F) → (⟨S300, .i32⟩ : BufTy).Contents (Elt F) → (⟨S300, .i32⟩ : BufTy).Contents (Elt F))
  :: StableHlo.unary main_v58 main_v59 (broadcastInDim S300x1 ![0] bcast_S300_S300x1_0 : (⟨S300, .i32⟩ : BufTy).Contents (Elt F) → (⟨S300x1, .i32⟩ : BufTy).Contents (Elt F))
  :: StableHlo.binary main_v55 main_v59 main_v60 ((fun x i => Host.gather gather_S100000x25x2_S300x1_S100000x300x2_02_1_n_n_1_1_10000012 x i) : (⟨S100000x25x2, .f32⟩ : BufTy).Contents (Elt F) → (⟨S300x1, .i32⟩ : BufTy).Contents (Elt F) → (⟨S100000x300x2, .f32⟩ : BufTy).Contents (Elt F))
  :: StableHlo.nullary main_c_25 (constantI S_ 32 25#32)
  :: StableHlo.unary main_c_25 main_v61 (broadcastInDim S300 ![] bcast_S_S300 : (⟨S_, .i32⟩ : BufTy).Contents (Elt F) → (⟨S300, .i32⟩ : BufTy).Contents (Elt F))
  :: StableHlo.binary main_c_5 main_v61 main_v62 (addi : (⟨S300, .i32⟩ : BufTy).Contents (Elt F) → (⟨S300, .i32⟩ : BufTy).Contents (Elt F) → (⟨S300, .i32⟩ : BufTy).Contents (Elt F))
  :: StableHlo.ternary main_c_6 main_v62 main_c_5 main_v63 (select : (⟨S300, .i1⟩ : BufTy).Contents (Elt F) → (⟨S300, .i32⟩ : BufTy).Contents (Elt F) → (⟨S300, .i32⟩ : BufTy).Contents (Elt F) → (⟨S300, .i32⟩ : BufTy).Contents (Elt F))
  :: StableHlo.unary main_v63 main_v64 (broadcastInDim S300x1 ![0] bcast_S300_S300x1_0 : (⟨S300, .i32⟩ : BufTy).Contents (Elt F) → (⟨S300x1, .i32⟩ : BufTy).Contents (Elt F))
  :: StableHlo.binary main_v55 main_v64 main_v65 ((fun x i => Host.gather gather_S100000x25x2_S300x1_S100000x300x2_02_1_n_n_1_1_10000012 x i) : (⟨S100000x25x2, .f32⟩ : BufTy).Contents (Elt F) → (⟨S300x1, .i32⟩ : BufTy).Contents (Elt F) → (⟨S100000x300x2, .f32⟩ : BufTy).Contents (Elt F))
  :: StableHlo.binary main_v60 main_v65 main_v66 (subf : (⟨S100000x300x2, .f32⟩ : BufTy).Contents (Elt F) → (⟨S100000x300x2, .f32⟩ : BufTy).Contents (Elt F) → (⟨S100000x300x2, .f32⟩ : BufTy).Contents (Elt F))
  :: StableHlo.binary main_v66 main_v66 main_v67 (mulf : (⟨S100000x300x2, .f32⟩ : BufTy).Contents (Elt F) → (⟨S100000x300x2, .f32⟩ : BufTy).Contents (Elt F) → (⟨S100000x300x2, .f32⟩ : BufTy).Contents (Elt F))
  :: StableHlo.nullary main_cst_26 (constant S_ .f32 0x00000000#32)
  :: StableHlo.binary main_v67 main_cst_26 main_v68 ((fun x v => Host.reduceAdd x v reducesTo_S100000x300x2_S100000x300_d2 h_S_) : (⟨S100000x300x2, .f32⟩ : BufTy).Contents (Elt F) → (⟨S_, .f32⟩ : BufTy).Contents (Elt F) → (⟨S100000x300, .f32⟩ : BufTy).Contents (Elt F))
  :: StableHlo.unary main_v68 main_v69 (Host.sqrt : (⟨S100000x300, .f32⟩ : BufTy).Contents (Elt F) → (⟨S100000x300, .f32⟩ : BufTy).Contents (Elt F))
  :: StableHlo.unary main_v27 main_v70 ((extractStridedSlice S100000x20x2 ![0, 46, 0] · slices_S100000x86x3_S100000x20x2_0_46_0) : (⟨S100000x86x3, .f32⟩ : BufTy).Contents (Elt F) → (⟨S100000x20x2, .f32⟩ : BufTy).Contents (Elt F))
  :: StableHlo.nullary main_c_27 (constantI S_ 32 20#32)
  :: StableHlo.unary main_c_27 main_v71 (broadcastInDim S190 ![] bcast_S_S190 : (⟨S_, .i32⟩ : BufTy).Contents (Elt F) → (⟨S190, .i32⟩ : BufTy).Contents (Elt F))
  :: StableHlo.binary main_c_7 main_v71 main_v72 (addi : (⟨S190, .i32⟩ : BufTy).Contents (Elt F) → (⟨S190, .i32⟩ : BufTy).Contents (Elt F) → (⟨S190, .i32⟩ : BufTy).Contents (Elt F))
  :: StableHlo.ternary main_c_8 main_v72 main_c_7 main_v73 (select : (⟨S190, .i1⟩ : BufTy).Contents (Elt F) → (⟨S190, .i32⟩ : BufTy).Contents (Elt F) → (⟨S190, .i32⟩ : BufTy).Contents (Elt F) → (⟨S190, .i32⟩ : BufTy).Contents (Elt F))
  :: StableHlo.unary main_v73 main_v74 (broadcastInDim S190x1 ![0] bcast_S190_S190x1_0 : (⟨S190, .i32⟩ : BufTy).Contents (Elt F) → (⟨S190x1, .i32⟩ : BufTy).Contents (Elt F))
  :: StableHlo.binary main_v70 main_v74 main_v75 ((fun x i => Host.gather gather_S100000x20x2_S190x1_S100000x190x2_02_1_n_n_1_1_10000012 x i) : (⟨S100000x20x2, .f32⟩ : BufTy).Contents (Elt F) → (⟨S190x1, .i32⟩ : BufTy).Contents (Elt F) → (⟨S100000x190x2, .f32⟩ : BufTy).Contents (Elt F))
  :: StableHlo.nullary main_c_28 (constantI S_ 32 20#32)
  :: StableHlo.unary main_c_28 main_v76 (broadcastInDim S190 ![] bcast_S_S190 : (⟨S_, .i32⟩ : BufTy).Contents (Elt F) → (⟨S190, .i32⟩ : BufTy).Contents (Elt F))
  :: StableHlo.binary main_c_9 main_v76 main_v77 (addi : (⟨S190, .i32⟩ : BufTy).Contents (Elt F) → (⟨S190, .i32⟩ : BufTy).Contents (Elt F) → (⟨S190, .i32⟩ : BufTy).Contents (Elt F))
  :: StableHlo.ternary main_c_10 main_v77 main_c_9 main_v78 (select : (⟨S190, .i1⟩ : BufTy).Contents (Elt F) → (⟨S190, .i32⟩ : BufTy).Contents (Elt F) → (⟨S190, .i32⟩ : BufTy).Contents (Elt F) → (⟨S190, .i32⟩ : BufTy).Contents (Elt F))
  :: StableHlo.unary main_v78 main_v79 (broadcastInDim S190x1 ![0] bcast_S190_S190x1_0 : (⟨S190, .i32⟩ : BufTy).Contents (Elt F) → (⟨S190x1, .i32⟩ : BufTy).Contents (Elt F))
  :: StableHlo.binary main_v70 main_v79 main_v80 ((fun x i => Host.gather gather_S100000x20x2_S190x1_S100000x190x2_02_1_n_n_1_1_10000012 x i) : (⟨S100000x20x2, .f32⟩ : BufTy).Contents (Elt F) → (⟨S190x1, .i32⟩ : BufTy).Contents (Elt F) → (⟨S100000x190x2, .f32⟩ : BufTy).Contents (Elt F))
  :: StableHlo.binary main_v75 main_v80 main_v81 (subf : (⟨S100000x190x2, .f32⟩ : BufTy).Contents (Elt F) → (⟨S100000x190x2, .f32⟩ : BufTy).Contents (Elt F) → (⟨S100000x190x2, .f32⟩ : BufTy).Contents (Elt F))
  :: StableHlo.binary main_v81 main_v81 main_v82 (mulf : (⟨S100000x190x2, .f32⟩ : BufTy).Contents (Elt F) → (⟨S100000x190x2, .f32⟩ : BufTy).Contents (Elt F) → (⟨S100000x190x2, .f32⟩ : BufTy).Contents (Elt F))
  :: StableHlo.nullary main_cst_29 (constant S_ .f32 0x00000000#32)
  :: StableHlo.binary main_v82 main_cst_29 main_v83 ((fun x v => Host.reduceAdd x v reducesTo_S100000x190x2_S100000x190_d2 h_S_) : (⟨S100000x190x2, .f32⟩ : BufTy).Contents (Elt F) → (⟨S_, .f32⟩ : BufTy).Contents (Elt F) → (⟨S100000x190, .f32⟩ : BufTy).Contents (Elt F))
  :: StableHlo.unary main_v83 main_v84 (Host.sqrt : (⟨S100000x190, .f32⟩ : BufTy).Contents (Elt F) → (⟨S100000x190, .f32⟩ : BufTy).Contents (Elt F))
  :: StableHlo.unary main_v27 main_v85 ((extractStridedSlice S100000x20x2 ![0, 66, 0] · slices_S100000x86x3_S100000x20x2_0_66_0) : (⟨S100000x86x3, .f32⟩ : BufTy).Contents (Elt F) → (⟨S100000x20x2, .f32⟩ : BufTy).Contents (Elt F))
  :: StableHlo.nullary main_c_30 (constantI S_ 32 20#32)
  :: StableHlo.unary main_c_30 main_v86 (broadcastInDim S190 ![] bcast_S_S190 : (⟨S_, .i32⟩ : BufTy).Contents (Elt F) → (⟨S190, .i32⟩ : BufTy).Contents (Elt F))
  :: [] )

set_option maxHeartbeats 40000000 in
/-- Each touches TensorCore buffers only. -/
theorem rops1_sub : (rops1 : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub .., unary_bufs_sub .., nullary_bufs_sub .., unary_bufs_sub ..⟩

set_option maxHeartbeats 40000000 in
/-- The operations of @main's window 2, in order. -/
abbrev rops2 : List (HloOp τ sig (Elt F)) :=
  ( StableHlo.binary main_c_7 main_v86 main_v87 (addi : (⟨S190, .i32⟩ : BufTy).Contents (Elt F) → (⟨S190, .i32⟩ : BufTy).Contents (Elt F) → (⟨S190, .i32⟩ : BufTy).Contents (Elt F))
  :: StableHlo.ternary main_c_11 main_v87 main_c_7 main_v88 (select : (⟨S190, .i1⟩ : BufTy).Contents (Elt F) → (⟨S190, .i32⟩ : BufTy).Contents (Elt F) → (⟨S190, .i32⟩ : BufTy).Contents (Elt F) → (⟨S190, .i32⟩ : BufTy).Contents (Elt F))
  :: StableHlo.unary main_v88 main_v89 (broadcastInDim S190x1 ![0] bcast_S190_S190x1_0 : (⟨S190, .i32⟩ : BufTy).Contents (Elt F) → (⟨S190x1, .i32⟩ : BufTy).Contents (Elt F))
  :: StableHlo.binary main_v85 main_v89 main_v90 ((fun x i => Host.gather gather_S100000x20x2_S190x1_S100000x190x2_02_1_n_n_1_1_10000012 x i) : (⟨S100000x20x2, .f32⟩ : BufTy).Contents (Elt F) → (⟨S190x1, .i32⟩ : BufTy).Contents (Elt F) → (⟨S100000x190x2, .f32⟩ : BufTy).Contents (Elt F))
  :: StableHlo.nullary main_c_31 (constantI S_ 32 20#32)
  :: StableHlo.unary main_c_31 main_v91 (broadcastInDim S190 ![] bcast_S_S190 : (⟨S_, .i32⟩ : BufTy).Contents (Elt F) → (⟨S190, .i32⟩ : BufTy).Contents (Elt F))
  :: StableHlo.binary main_c_9 main_v91 main_v92 (addi : (⟨S190, .i32⟩ : BufTy).Contents (Elt F) → (⟨S190, .i32⟩ : BufTy).Contents (Elt F) → (⟨S190, .i32⟩ : BufTy).Contents (Elt F))
  :: StableHlo.ternary main_c_12 main_v92 main_c_9 main_v93 (select : (⟨S190, .i1⟩ : BufTy).Contents (Elt F) → (⟨S190, .i32⟩ : BufTy).Contents (Elt F) → (⟨S190, .i32⟩ : BufTy).Contents (Elt F) → (⟨S190, .i32⟩ : BufTy).Contents (Elt F))
  :: StableHlo.unary main_v93 main_v94 (broadcastInDim S190x1 ![0] bcast_S190_S190x1_0 : (⟨S190, .i32⟩ : BufTy).Contents (Elt F) → (⟨S190x1, .i32⟩ : BufTy).Contents (Elt F))
  :: StableHlo.binary main_v85 main_v94 main_v95 ((fun x i => Host.gather gather_S100000x20x2_S190x1_S100000x190x2_02_1_n_n_1_1_10000012 x i) : (⟨S100000x20x2, .f32⟩ : BufTy).Contents (Elt F) → (⟨S190x1, .i32⟩ : BufTy).Contents (Elt F) → (⟨S100000x190x2, .f32⟩ : BufTy).Contents (Elt F))
  :: StableHlo.binary main_v90 main_v95 main_v96 (subf : (⟨S100000x190x2, .f32⟩ : BufTy).Contents (Elt F) → (⟨S100000x190x2, .f32⟩ : BufTy).Contents (Elt F) → (⟨S100000x190x2, .f32⟩ : BufTy).Contents (Elt F))
  :: StableHlo.binary main_v96 main_v96 main_v97 (mulf : (⟨S100000x190x2, .f32⟩ : BufTy).Contents (Elt F) → (⟨S100000x190x2, .f32⟩ : BufTy).Contents (Elt F) → (⟨S100000x190x2, .f32⟩ : BufTy).Contents (Elt F))
  :: StableHlo.nullary main_cst_32 (constant S_ .f32 0x00000000#32)
  :: StableHlo.binary main_v97 main_cst_32 main_v98 ((fun x v => Host.reduceAdd x v reducesTo_S100000x190x2_S100000x190_d2 h_S_) : (⟨S100000x190x2, .f32⟩ : BufTy).Contents (Elt F) → (⟨S_, .f32⟩ : BufTy).Contents (Elt F) → (⟨S100000x190, .f32⟩ : BufTy).Contents (Elt F))
  :: StableHlo.unary main_v98 main_v99 (Host.sqrt : (⟨S100000x190, .f32⟩ : BufTy).Contents (Elt F) → (⟨S100000x190, .f32⟩ : BufTy).Contents (Elt F))
  :: StableHlo.unary main_v27 main_v100 ((extractStridedSlice S100000x21x3 ![0, 0, 0] · slices_S100000x86x3_S100000x21x3_0_0_0) : (⟨S100000x86x3, .f32⟩ : BufTy).Contents (Elt F) → (⟨S100000x21x3, .f32⟩ : BufTy).Contents (Elt F))
  :: StableHlo.reshape main_v100 main_v101 rfl shapeCasts_S100000x21x3_S100000x63
  :: StableHlo.unary main_v27 main_v102 ((extractStridedSlice S100000x25x2 ![0, 21, 0] · slices_S100000x86x3_S100000x25x2_0_21_0) : (⟨S100000x86x3, .f32⟩ : BufTy).Contents (Elt F) → (⟨S100000x25x2, .f32⟩ : BufTy).Contents (Elt F))
  :: StableHlo.reshape main_v102 main_v103 rfl shapeCasts_S100000x25x2_S100000x50
  :: StableHlo.unary main_v27 main_v104 ((extractStridedSlice S100000x20x2 ![0, 46, 0] · slices_S100000x86x3_S100000x20x2_0_46_0) : (⟨S100000x86x3, .f32⟩ : BufTy).Contents (Elt F) → (⟨S100000x20x2, .f32⟩ : BufTy).Contents (Elt F))
  :: StableHlo.reshape main_v104 main_v105 rfl shapeCasts_S100000x20x2_S100000x40
  :: StableHlo.unary main_v39 main_v106 ((extractStridedSlice S100000x21x3 ![0, 0, 0] · slices_S100000x86x3_S100000x21x3_0_0_0) : (⟨S100000x86x3, .f32⟩ : BufTy).Contents (Elt F) → (⟨S100000x21x3, .f32⟩ : BufTy).Contents (Elt F))
  :: StableHlo.reshape main_v106 main_v107 rfl shapeCasts_S100000x21x3_S100000x63
  :: StableHlo.unary main_v39 main_v108 ((extractStridedSlice S100000x25x2 ![0, 21, 0] · slices_S100000x86x3_S100000x25x2_0_21_0) : (⟨S100000x86x3, .f32⟩ : BufTy).Contents (Elt F) → (⟨S100000x25x2, .f32⟩ : BufTy).Contents (Elt F))
  :: StableHlo.reshape main_v108 main_v109 rfl shapeCasts_S100000x25x2_S100000x50
  :: StableHlo.unary main_v39 main_v110 ((extractStridedSlice S100000x20x2 ![0, 46, 0] · slices_S100000x86x3_S100000x20x2_0_46_0) : (⟨S100000x86x3, .f32⟩ : BufTy).Contents (Elt F) → (⟨S100000x20x2, .f32⟩ : BufTy).Contents (Elt F))
  :: StableHlo.reshape main_v110 main_v111 rfl shapeCasts_S100000x20x2_S100000x40
  :: StableHlo.unary main_v32 main_v112 (broadcastInDim S100000x1 ![0] bcast_S100000_S100000x1_0 : (⟨S100000, .f32⟩ : BufTy).Contents (Elt F) → (⟨S100000x1, .f32⟩ : BufTy).Contents (Elt F))
  :: StableHlo.unary main_v34 main_v113 (broadcastInDim S100000x1 ![0] bcast_S100000_S100000x1_0 : (⟨S100000, .f32⟩ : BufTy).Contents (Elt F) → (⟨S100000x1, .f32⟩ : BufTy).Contents (Elt F))
  :: StableHlo.nary ![main_v101, main_v103, main_v105, main_v107, main_v109, main_v111, main_v54, main_v69, main_v84, main_v99, main_v112, main_v113] main_v114 (fun u => concatenate S100000x1198 1 [⟨S100000x63, u 0⟩, ⟨S100000x50, u 1⟩, ⟨S100000x40, u 2⟩, ⟨S100000x63, u 3⟩, ⟨S100000x50, u 4⟩, ⟨S100000x40, u 5⟩, ⟨S100000x210, u 6⟩, ⟨S100000x300, u 7⟩, ⟨S100000x190, u 8⟩, ⟨S100000x190, u 9⟩, ⟨S100000x1, u 10⟩, ⟨S100000x1, u 11⟩] concatenates_S100000x63_S100000x50_S100000x40_S100000x63_S100000x50_S100000x40_S100000x210_S100000x300_S100000x190_S100000x190_S100000x1_S100000x1_S100000x1198_d1)
  :: StableHlo.unary main_v114 main_v115 ((extractStridedSlice S200x1198 ![0, 0] · slices_S100000x1198_S200x1198_0_0) : (⟨S100000x1198, .f32⟩ : BufTy).Contents (Elt F) → (⟨S200x1198, .f32⟩ : BufTy).Contents (Elt F))
  :: StableHlo.reshape main_v115 main_v116 rfl shapeCasts_S200x1198_S1x200x1198
  :: [] )

set_option maxHeartbeats 40000000 in
/-- Each touches TensorCore buffers only. -/
theorem rops2_sub : (rops2 : List (HloOp τ sig (Elt F))).Forall fun op => op.bufs ⊆ tcRefs τ sig :=
  ⟨binary_bufs_sub .., ternary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., nary_bufs_sub .., unary_bufs_sub .., reshape_bufs_sub ..⟩

end Cert.ReferenceIdeal.Ops

end
-- ==== Proof.RI.Run.lean ====
import proofs.«101359_j2095944041143_1_alg».proof.Proof.RI.Ops
import proofs.«101359_j2095944041143_1_alg».proof.Proof.RI.Stages
import proofs.«101359_j2095944041143_1_alg».proof.Proof.LibNaryThree
import proofs.«101359_j2095944041143_1_alg».proof.Proof.LibNaryTwelve

noncomputable section

namespace Cert.ReferenceIdeal.Hand

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F]

abbrev rops : List (HloOp τ sig (Elt F)) := rops0 ++ (rops1 ++ rops2)

set_option maxRecDepth 16384 in
set_option maxHeartbeats 40000000 in
theorem part0_eq (c : Dev nD) : main_part0 (F := F) c = seq rops0 := rfl
set_option maxRecDepth 16384 in
set_option maxHeartbeats 40000000 in
theorem part1_eq (c : Dev nD) : main_part1 (F := F) c = seq rops1 := rfl
set_option maxRecDepth 16384 in
set_option maxHeartbeats 40000000 in
theorem part2_eq (c : Dev nD) : main_part2 (F := F) c = seq rops2 := rfl

theorem main_eq (c : Dev nD) : main (F := F) c = seq rops := by
  show (main_part0 (F := F) c >>= fun _ => main_part1 (F := F) c >>= fun _ => main_part2 (F := F) c) = _
  rw [part0_eq, part1_eq, part2_eq, seq_append, seq_append]

theorem scopedRefs_eq : (Finset.univ.filter fun b : Ref sig .tc => b.isScoped) = ∅ := by decide
theorem scopedSems_eq : (Finset.univ.filter fun sm : SemLoc sig => sm.isScoped .tc) = ∅ := by decide

theorem rops_sub : (rops : List (HloOp τ sig (Elt F))).Forall fun op => op.bufs ⊆ tcRefs τ sig := by
  rw [List.forall_iff_forall_mem]
  intro op hop
  rcases List.mem_append.mp hop with h | h
  · exact (List.forall_iff_forall_mem.mp rops0_sub) op h
  · rcases List.mem_append.mp h with h | h
    · exact (List.forall_iff_forall_mem.mp rops1_sub) op h
    · exact (List.forall_iff_forall_mem.mp rops2_sub) op h

theorem rops0_fresh : (rops0 : List (HloOp τ sig (Elt F))).Forall fun op => op.fresh = ∅ := by
  simp only [List.Forall]; repeat' constructor
theorem rops1_fresh : (rops1 : List (HloOp τ sig (Elt F))).Forall fun op => op.fresh = ∅ := by
  simp only [List.Forall]; repeat' constructor
theorem rops2_fresh : (rops2 : List (HloOp τ sig (Elt F))).Forall fun op => op.fresh = ∅ := by
  simp only [List.Forall]; repeat' constructor

theorem rops_fresh : ∀ op ∈ (rops : List (HloOp τ sig (Elt F))), op.fresh = ∅ := by
  intro op hop
  rcases List.mem_append.mp hop with h | h
  · exact (List.forall_iff_forall_mem.mp rops0_fresh) op h
  · rcases List.mem_append.mp h with h | h
    · exact (List.forall_iff_forall_mem.mp rops1_fresh) op h
    · exact (List.forall_iff_forall_mem.mp rops2_fresh) op h

theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (rops (F := F)) (launchContents m d) (Proc.devRef .tc b) :=
  run_seq scopedRefs_eq scopedSems_eq defs main (fun _ => rops) main_eq (fun _ => rops_sub) m ρ (fun _ => rops_fresh)

end Cert.ReferenceIdeal.Hand

end
-- ==== Proof.RI.Read.lean ====
import proofs.«101359_j2095944041143_1_alg».proof.Proof.RI.Run
import proofs.«101359_j2095944041143_1_alg».proof.Proof.LibCatArgs

set_option maxRecDepth 65536

noncomputable section

namespace Cert.ReferenceIdeal.Hand

open Cert.ReferenceIdeal Cert.ReferenceIdeal.Gen Cert.ReferenceIdeal.Ops Cert.ReferenceIdeal.Stages Idealize.ShloMosaic Idealize.ShloMosaic.TcCoe Idealize.SL.Sem Idealize.ShloMosaic.StableHlo

variable {F : FTy → Type} [FloatOps F]

theorem v16_result (G : Valuation τ sig (Elt F)) (hxs hy) :
    (StableHlo.nary ![main_v2, main_v4, main_v5] main_v16 (fun u => concatenate S100000x86x3 1 [⟨S100000x21x3, u 0⟩, ⟨S100000x25x3, u 1⟩, ⟨S100000x40x3, u 2⟩] Facts₀.concatenates_S100000x21x3_S100000x25x3_S100000x40x3_S100000x86x3_d1) hxs hy).result G (no_index (Proc.devRef .tc main_v16))
      = Cert.Lib.CatArgs.cat3 S100000x86x3 1 S100000x21x3 S100000x25x3 S100000x40x3 Facts₀.concatenates_S100000x21x3_S100000x25x3_S100000x40x3_S100000x86x3_d1 (G (Proc.devRef .tc main_v2)) (G (Proc.devRef .tc main_v4)) (G (Proc.devRef .tc main_v5)) := by
  rw [Cert.Lib.NaryThree.nary3_result]; rfl

theorem v17_result (G : Valuation τ sig (Elt F)) (hxs hy) :
    (StableHlo.nary ![main_v3, main_v4, main_v5] main_v17 (fun u => concatenate S100000x86x3 1 [⟨S100000x21x3, u 0⟩, ⟨S100000x25x3, u 1⟩, ⟨S100000x40x3, u 2⟩] Facts₀.concatenates_S100000x21x3_S100000x25x3_S100000x40x3_S100000x86x3_d1) hxs hy).result G (no_index (Proc.devRef .tc main_v17))
      = Cert.Lib.CatArgs.cat3 S100000x86x3 1 S100000x21x3 S100000x25x3 S100000x40x3 Facts₀.concatenates_S100000x21x3_S100000x25x3_S100000x40x3_S100000x86x3_d1 (G (Proc.devRef .tc main_v3)) (G (Proc.devRef .tc main_v4)) (G (Proc.devRef .tc main_v5)) := by
  rw [Cert.Lib.NaryThree.nary3_result]; rfl

theorem v114_result (G : Valuation τ sig (Elt F)) (hxs hy) :
    (StableHlo.nary ![main_v101, main_v103, main_v105, main_v107, main_v109, main_v111, main_v54, main_v69, main_v84, main_v99, main_v112, main_v113] main_v114 (fun u => concatenate S100000x1198 1 [⟨S100000x63, u 0⟩, ⟨S100000x50, u 1⟩, ⟨S100000x40, u 2⟩, ⟨S100000x63, u 3⟩, ⟨S100000x50, u 4⟩, ⟨S100000x40, u 5⟩, ⟨S100000x210, u 6⟩, ⟨S100000x300, u 7⟩, ⟨S100000x190, u 8⟩, ⟨S100000x190, u 9⟩, ⟨S100000x1, u 10⟩, ⟨S100000x1, u 11⟩] Facts₀.concatenates_S100000x63_S100000x50_S100000x40_S100000x63_S100000x50_S100000x40_S100000x210_S100000x300_S100000x190_S100000x190_S100000x1_S100000x1_S100000x1198_d1) hxs hy).result G (no_index (Proc.devRef .tc main_v114))
      = Cert.Lib.CatArgs.cat12 S100000x1198 1 S100000x63 S100000x50 S100000x40 S100000x63 S100000x50 S100000x40 S100000x210 S100000x300 S100000x190 S100000x190 S100000x1 S100000x1 Facts₀.concatenates_S100000x63_S100000x50_S100000x40_S100000x63_S100000x50_S100000x40_S100000x210_S100000x300_S100000x190_S100000x190_S100000x1_S100000x1_S100000x1198_d1 (G (Proc.devRef .tc main_v101)) (G (Proc.devRef .tc main_v103)) (G (Proc.devRef .tc main_v105)) (G (Proc.devRef .tc main_v107)) (G (Proc.devRef .tc main_v109)) (G (Proc.devRef .tc main_v111)) (G (Proc.devRef .tc main_v54)) (G (Proc.devRef .tc main_v69)) (G (Proc.devRef .tc main_v84)) (G (Proc.devRef .tc main_v99)) (G (Proc.devRef .tc main_v112)) (G (Proc.devRef .tc main_v113)) := by
  rw [Cert.Lib.NaryTwelve.nary12_result]; rfl

set_option maxHeartbeats 400000000 in
theorem ref_eq (V : Valuation τ sig (Elt F)) :
    after (rops (F := F)) V (Proc.devRef .tc main_v116) = r_main_v116 V := by
  simp only [rops, rops0, rops1, rops2, List.cons_append, List.nil_append]
  simp (disch := decide) only [after_cons, after_nil,
      nullary_result', unary_result', binary_result', ternary_result', quaternary_result', reshape_result', v16_result, v17_result, v114_result, Cert.Lib.CatArgs.concatenate_two,
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 400000000 in
theorem ref_arg0 (V : Valuation τ sig (Elt F)) :
    after (rops (F := F)) V (Proc.devRef .tc main_arg0) = V (Proc.devRef .tc main_arg0) := by
  simp only [rops, rops0, rops1, rops2, List.cons_append, List.nil_append]
  simp (disch := decide) only [after_cons, after_nil,
      nullary_result_ne', unary_result_ne', binary_result_ne', ternary_result_ne', quaternary_result_ne', reshape_result_ne',
      nary_result_ne', unaryIndexed_result_ne', binaryIndexed_result_ne']

end Cert.ReferenceIdeal.Hand

end
-- ==== Proof.Bridge.Pre.lean ====
import proofs.«101359_j2095944041143_1_alg».proof.Proof.Bridge.Base
import Idealize.ShloMosaic.Lib.ValueLayout
import Idealize.ShloMosaic.Lib.IdealHost
import Idealize.ShloMosaic.Lib.LayoutPointwise

noncomputable section

namespace Cert.Bridge.Pre

open Idealize.ShloMosaic Idealize.ShloMosaic.TcCoe Idealize.SL.Sem Idealize.ShloMosaic.StableHlo
open Idealize.ShloMosaic.ValueIdx
open Cert.KernelIdeal.Stages Cert.ReferenceIdeal.Stages

variable {α : Type}

theorem slice_slice_comm {s t t' u : Shape} (X : s.Idx → α)
    (oA : Fin s.rank → Nat) (hA : s.Slices oA t) (oB : Fin t.rank → Nat) (hB : t.Slices oB u)
    (oC : Fin s.rank → Nat) (hC : s.Slices oC t') (oD : Fin t'.rank → Nat) (hD : t'.Slices oD u)
    (hoff : ∀ a : Fin s.rank, oA a + oB (a.cast hA.1.symm) = oC a + oD (a.cast hC.1.symm)) :
    extractStridedSlice u oB (extractStridedSlice t oA X hA) hB
      = extractStridedSlice u oD (extractStridedSlice t' oC X hC) hD := by
  funext j
  show X _ = X _
  refine congrArg X (funext fun a => Fin.ext ?_)
  have e : j ((a.cast hA.1.symm).cast hB.1.symm) = j ((a.cast hC.1.symm).cast hD.1.symm) := rfl
  show oA a + (oB (a.cast hA.1.symm) + (j ((a.cast hA.1.symm).cast hB.1.symm)).val)
      = oC a + (oD (a.cast hC.1.symm) + (j ((a.cast hC.1.symm).cast hD.1.symm)).val)
  rw [e]
  have := hoff a
  omega

theorem slice_bcast_scalar {T t : Shape} (off : Fin T.rank → Nat) (h : T.Slices off t)
    (hT : (⟨0, ![]⟩ : Shape).BroadcastsInDim T ![]) (ht : (⟨0, ![]⟩ : Shape).BroadcastsInDim t ![])
    (x : (⟨0, ![]⟩ : Shape).Idx → α) :
    extractStridedSlice t off (broadcastInDim T ![] hT x) h = broadcastInDim t ![] ht x := by
  funext j
  show broadcastInDim T ![] hT x _ = _
  rw [broadcastInDim_scalar_apply, broadcastInDim_scalar_apply]

theorem slice_select_bcast {T t : Shape} (off : Fin T.rank → Nat) (h : T.Slices off t)
    (hT : (⟨0, ![]⟩ : Shape).BroadcastsInDim T ![]) (ht : (⟨0, ![]⟩ : Shape).BroadcastsInDim t ![])
    (p : (⟨0, ![]⟩ : Shape).Idx → BitVec 1) (a b : T.Idx → α) :
    extractStridedSlice t off (select (broadcastInDim T ![] hT p) a b) h
      = select (broadcastInDim t ![] ht p) (extractStridedSlice t off a h) (extractStridedSlice t off b h) := by
  rw [extractStridedSlice_select, slice_bcast_scalar off h hT ht p]

theorem rows3_apply {T n m c : ℕ} (X : (⟨3, ![T, m, c]⟩ : Shape).Idx → α)
    (h : (⟨3, ![T, m, c]⟩ : Shape).Slices ![0, 0, 0] ⟨3, ![n, m, c]⟩) (a : Fin n) (b : Fin m) (e : Fin c) (ha : a.val < T) :
    extractStridedSlice ⟨3, ![n, m, c]⟩ ![0, 0, 0] X h (ix3 a b e) = X (ix3 ⟨a.val, ha⟩ b e) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm)

theorem rows2_apply {T n m : ℕ} (X : (⟨2, ![T, m]⟩ : Shape).Idx → α)
    (h : (⟨2, ![T, m]⟩ : Shape).Slices ![0, 0] ⟨2, ![n, m]⟩) (a : Fin n) (b : Fin m) (ha : a.val < T) :
    extractStridedSlice ⟨2, ![n, m]⟩ ![0, 0] X h (ix2 a b) = X (ix2 ⟨a.val, ha⟩ b) :=
  extractStridedSlice_apply _ _ _ _ _ (fun ax => by
    match ax with
    | ⟨0, _⟩ => exact (Nat.zero_add _).symm
    | ⟨1, _⟩ => exact (Nat.zero_add _).symm)

theorem rows1_apply {T n : ℕ} (X : (⟨1, ![T]⟩ : Shape).Idx → α)
    (h : (⟨1, ![T]⟩ : Shape).Slices ![0] ⟨1, ![n]⟩) (a : Fin n) (ha : a.val < T) :
    extractStridedSlice ⟨1, ![n]⟩ ![0] X h (ix1 a) = X (ix1 ⟨a.val, ha⟩) :=
  extractStridedSlice_apply _ _ _ _ _ (fun ax => by
    match ax with
    | ⟨0, _⟩ => exact (Nat.zero_add _).symm)

section Concat3
variable {T p q r m c : ℕ}
  (A : (⟨3, ![T, p, c]⟩ : Shape).Idx → α) (B : (⟨3, ![T, q, c]⟩ : Shape).Idx → α) (C : (⟨3, ![T, r, c]⟩ : Shape).Idx → α)
  (hT : Shape.Concatenates [(⟨3, ![T, p, c]⟩ : Shape), ⟨3, ![T, q, c]⟩, ⟨3, ![T, r, c]⟩] ⟨3, ![T, m, c]⟩ 1)

theorem concat3_axis1_fst (a : Fin T) (b : Fin m) (e : Fin c) (b' : Fin p) (hb : b'.val = b.val) :
    concatenate ⟨3, ![T, m, c]⟩ 1 [⟨⟨3, ![T, p, c]⟩, A⟩, ⟨⟨3, ![T, q, c]⟩, B⟩, ⟨⟨3, ![T, r, c]⟩, C⟩] hT (ix3 a b e)
      = A (ix3 a b' e) :=
  concatenate_apply_piece (t := ⟨3, ![T, m, c]⟩) (1 : Fin 3) [⟨⟨3, ![T, p, c]⟩, A⟩, ⟨⟨3, ![T, q, c]⟩, B⟩, ⟨⟨3, ![T, r, c]⟩, C⟩] hT (ix3 a b e)
    0 (by simp) ⟨3, ![T, p, c]⟩ A rfl rfl 0 rfl (ix3 a b' e)
    (fun ax hax => by
      match ax with
      | ⟨0, _⟩ => rfl
      | ⟨1, _⟩ => exact absurd rfl hax
      | ⟨2, _⟩ => rfl)
    (by show 0 + b'.val = b.val; omega)

theorem concat3_axis1_snd (a : Fin T) (b : Fin m) (e : Fin c) (b' : Fin q) (hb : p + b'.val = b.val) :
    concatenate ⟨3, ![T, m, c]⟩ 1 [⟨⟨3, ![T, p, c]⟩, A⟩, ⟨⟨3, ![T, q, c]⟩, B⟩, ⟨⟨3, ![T, r, c]⟩, C⟩] hT (ix3 a b e)
      = B (ix3 a b' e) :=
  concatenate_apply_piece (t := ⟨3, ![T, m, c]⟩) (1 : Fin 3) [⟨⟨3, ![T, p, c]⟩, A⟩, ⟨⟨3, ![T, q, c]⟩, B⟩, ⟨⟨3, ![T, r, c]⟩, C⟩] hT (ix3 a b e)
    1 (by simp) ⟨3, ![T, q, c]⟩ B rfl rfl p (by simp) (ix3 a b' e)
    (fun ax hax => by
      match ax with
      | ⟨0, _⟩ => rfl
      | ⟨1, _⟩ => exact absurd rfl hax
      | ⟨2, _⟩ => rfl)
    hb

theorem concat3_axis1_thd (a : Fin T) (b : Fin m) (e : Fin c) (b' : Fin r) (hb : p + q + b'.val = b.val) :
    concatenate ⟨3, ![T, m, c]⟩ 1 [⟨⟨3, ![T, p, c]⟩, A⟩, ⟨⟨3, ![T, q, c]⟩, B⟩, ⟨⟨3, ![T, r, c]⟩, C⟩] hT (ix3 a b e)
      = C (ix3 a b' e) :=
  concatenate_apply_piece (t := ⟨3, ![T, m, c]⟩) (1 : Fin 3) [⟨⟨3, ![T, p, c]⟩, A⟩, ⟨⟨3, ![T, q, c]⟩, B⟩, ⟨⟨3, ![T, r, c]⟩, C⟩] hT (ix3 a b e)
    2 (by simp) ⟨3, ![T, r, c]⟩ C rfl rfl (p + q) (by simp) (ix3 a b' e)
    (fun ax hax => by
      match ax with
      | ⟨0, _⟩ => rfl
      | ⟨1, _⟩ => exact absurd rfl hax
      | ⟨2, _⟩ => rfl)
    hb

end Concat3

theorem rows_concat3_axis1 {T n p q r m c : ℕ}
    (A : (⟨3, ![T, p, c]⟩ : Shape).Idx → α) (B : (⟨3, ![T, q, c]⟩ : Shape).Idx → α) (C : (⟨3, ![T, r, c]⟩ : Shape).Idx → α)
    (hT : Shape.Concatenates [(⟨3, ![T, p, c]⟩ : Shape), ⟨3, ![T, q, c]⟩, ⟨3, ![T, r, c]⟩] ⟨3, ![T, m, c]⟩ 1)
    (hn : Shape.Concatenates [(⟨3, ![n, p, c]⟩ : Shape), ⟨3, ![n, q, c]⟩, ⟨3, ![n, r, c]⟩] ⟨3, ![n, m, c]⟩ 1)
    (hm : (⟨3, ![T, m, c]⟩ : Shape).Slices ![0, 0, 0] ⟨3, ![n, m, c]⟩)
    (hp : (⟨3, ![T, p, c]⟩ : Shape).Slices ![0, 0, 0] ⟨3, ![n, p, c]⟩)
    (hq : (⟨3, ![T, q, c]⟩ : Shape).Slices ![0, 0, 0] ⟨3, ![n, q, c]⟩)
    (hr : (⟨3, ![T, r, c]⟩ : Shape).Slices ![0, 0, 0] ⟨3, ![n, r, c]⟩) :
    extractStridedSlice ⟨3, ![n, m, c]⟩ ![0, 0, 0]
        (concatenate ⟨3, ![T, m, c]⟩ 1 [⟨⟨3, ![T, p, c]⟩, A⟩, ⟨⟨3, ![T, q, c]⟩, B⟩, ⟨⟨3, ![T, r, c]⟩, C⟩] hT) hm
      = concatenate ⟨3, ![n, m, c]⟩ 1
          [⟨⟨3, ![n, p, c]⟩, extractStridedSlice ⟨3, ![n, p, c]⟩ ![0, 0, 0] A hp⟩,
           ⟨⟨3, ![n, q, c]⟩, extractStridedSlice ⟨3, ![n, q, c]⟩ ![0, 0, 0] B hq⟩,
           ⟨⟨3, ![n, r, c]⟩, extractStridedSlice ⟨3, ![n, r, c]⟩ ![0, 0, 0] C hr⟩] hn := by
  funext j
  obtain ⟨a, b, e, rfl⟩ : ∃ a b e, j = ix3 a b e := ⟨_, _, _, eq_ix3 j⟩
  have hnT : n ≤ T := by have := hm.2 0; simpa using this
  have hsum : p + (q + (r + 0)) = m := hT.2.2
  have ha : a.val < T := Nat.lt_of_lt_of_le a.isLt hnT
  rw [rows3_apply _ hm a b e ha]
  by_cases h1 : b.val < p
  · rw [concat3_axis1_fst A B C hT _ b e ⟨b.val, h1⟩ rfl, concat3_axis1_fst _ _ _ hn a b e ⟨b.val, h1⟩ rfl,
      rows3_apply A hp a _ e ha]
  · by_cases h2 : b.val < p + q
    · have hb : b.val - p < q := by omega
      rw [concat3_axis1_snd A B C hT _ b e ⟨b.val - p, hb⟩ (by show p + (b.val - p) = b.val; omega),
        concat3_axis1_snd _ _ _ hn a b e ⟨b.val - p, hb⟩ (by show p + (b.val - p) = b.val; omega),
        rows3_apply B hq a _ e ha]
    · have hb : b.val - (p + q) < r := by have := b.isLt; omega
      rw [concat3_axis1_thd A B C hT _ b e ⟨b.val - (p + q), hb⟩ (by show p + q + (b.val - (p + q)) = b.val; omega),
        concat3_axis1_thd _ _ _ hn a b e ⟨b.val - (p + q), hb⟩ (by show p + q + (b.val - (p + q)) = b.val; omega),
        rows3_apply C hr a _ e ha]

theorem rows_concat2_axis2 {T n m p q c : ℕ}
    (A : (⟨3, ![T, m, p]⟩ : Shape).Idx → α) (B : (⟨3, ![T, m, q]⟩ : Shape).Idx → α)
    (hT : Shape.Concatenates [(⟨3, ![T, m, p]⟩ : Shape), ⟨3, ![T, m, q]⟩] ⟨3, ![T, m, c]⟩ 2)
    (hn : Shape.Concatenates [(⟨3, ![n, m, p]⟩ : Shape), ⟨3, ![n, m, q]⟩] ⟨3, ![n, m, c]⟩ 2)
    (hc : (⟨3, ![T, m, c]⟩ : Shape).Slices ![0, 0, 0] ⟨3, ![n, m, c]⟩)
    (hp : (⟨3, ![T, m, p]⟩ : Shape).Slices ![0, 0, 0] ⟨3, ![n, m, p]⟩)
    (hq : (⟨3, ![T, m, q]⟩ : Shape).Slices ![0, 0, 0] ⟨3, ![n, m, q]⟩) :
    extractStridedSlice ⟨3, ![n, m, c]⟩ ![0, 0, 0]
        (concatenate ⟨3, ![T, m, c]⟩ 2 [⟨⟨3, ![T, m, p]⟩, A⟩, ⟨⟨3, ![T, m, q]⟩, B⟩] hT) hc
      = concatenate ⟨3, ![n, m, c]⟩ 2
          [⟨⟨3, ![n, m, p]⟩, extractStridedSlice ⟨3, ![n, m, p]⟩ ![0, 0, 0] A hp⟩,
           ⟨⟨3, ![n, m, q]⟩, extractStridedSlice ⟨3, ![n, m, q]⟩ ![0, 0, 0] B hq⟩] hn := by
  funext j
  obtain ⟨a, b, e, rfl⟩ : ∃ a b e, j = ix3 a b e := ⟨_, _, _, eq_ix3 j⟩
  have hnT : n ≤ T := by have := hc.2 0; simpa using this
  have hsum : p + (q + 0) = c := hT.2.2
  have ha : a.val < T := Nat.lt_of_lt_of_le a.isLt hnT
  rw [rows3_apply _ hc a b e ha]
  by_cases h1 : e.val < p
  · rw [concatenate_pair_apply_left (t := ⟨3, ![T, m, c]⟩) (2 : Fin 3) A B hT _ rfl (ix3 ⟨a.val, ha⟩ b ⟨e.val, h1⟩)
        (fun ax => by
          match ax with
          | ⟨0, _⟩ => rfl
          | ⟨1, _⟩ => rfl
          | ⟨2, _⟩ => rfl),
      concatenate_pair_apply_left (t := ⟨3, ![n, m, c]⟩) (2 : Fin 3) _ _ hn _ rfl (ix3 a b ⟨e.val, h1⟩)
        (fun ax => by
          match ax with
          | ⟨0, _⟩ => rfl
          | ⟨1, _⟩ => rfl
          | ⟨2, _⟩ => rfl),
      rows3_apply A hp a b _ ha]
  · have he : e.val - p < q := by have := e.isLt; omega
    rw [concatenate_pair_apply_right (t := ⟨3, ![T, m, c]⟩) (2 : Fin 3) A B hT _ rfl rfl (ix3 ⟨a.val, ha⟩ b ⟨e.val - p, he⟩)
        (fun ax hax => by
          match ax with
          | ⟨0, _⟩ => rfl
          | ⟨1, _⟩ => rfl
          | ⟨2, _⟩ => exact absurd rfl hax)
        (by show e.val - p + p = e.val; omega),
      concatenate_pair_apply_right (t := ⟨3, ![n, m, c]⟩) (2 : Fin 3) _ _ hn _ rfl rfl (ix3 a b ⟨e.val - p, he⟩)
        (fun ax hax => by
          match ax with
          | ⟨0, _⟩ => rfl
          | ⟨1, _⟩ => rfl
          | ⟨2, _⟩ => exact absurd rfl hax)
        (by show e.val - p + p = e.val; omega),
      rows3_apply B hq a b _ ha]

theorem rows_shapeCast_drop1 {T n m : ℕ} (X : (⟨3, ![T, m, 1]⟩ : Shape).Idx → α)
    (hT : (⟨3, ![T, m, 1]⟩ : Shape).ShapeCasts ⟨2, ![T, m]⟩) (hn : (⟨3, ![n, m, 1]⟩ : Shape).ShapeCasts ⟨2, ![n, m]⟩)
    (h3 : (⟨3, ![T, m, 1]⟩ : Shape).Slices ![0, 0, 0] ⟨3, ![n, m, 1]⟩)
    (h2 : (⟨2, ![T, m]⟩ : Shape).Slices ![0, 0] ⟨2, ![n, m]⟩) :
    extractStridedSlice ⟨2, ![n, m]⟩ ![0, 0] (shapeCast ⟨2, ![T, m]⟩ X hT) h2
      = shapeCast ⟨2, ![n, m]⟩ (extractStridedSlice ⟨3, ![n, m, 1]⟩ ![0, 0, 0] X h3) hn := by
  funext j
  obtain ⟨a, b, rfl⟩ : ∃ a b, j = ix2 a b := ⟨_, _, eq_ix2 j⟩
  have hnT : n ≤ T := by have := h2.2 0; simpa using this
  have ha : a.val < T := Nat.lt_of_lt_of_le a.isLt hnT
  rw [rows2_apply _ h2 a b ha,
    shapeCast_apply X hT (ix2 ⟨a.val, ha⟩ b) (ix3 ⟨a.val, ha⟩ b (0 : Fin 1)) (by
      rw [Shape.rowMajor_val_three, Shape.rowMajor_val_two]
      show (a.val * m + b.val) * 1 + 0 = a.val * m + b.val
      omega),
    shapeCast_apply _ hn (ix2 a b) (ix3 a b (0 : Fin 1)) (by
      rw [Shape.rowMajor_val_three, Shape.rowMajor_val_two]
      show (a.val * m + b.val) * 1 + 0 = a.val * m + b.val
      omega),
    rows3_apply X h3 a b 0 ha]

theorem rows_bcast_add1 {T n m : ℕ} (X : (⟨2, ![T, m]⟩ : Shape).Idx → α)
    (hT : (⟨2, ![T, m]⟩ : Shape).BroadcastsInDim ⟨3, ![T, m, 1]⟩ ![0, 1])
    (hn : (⟨2, ![n, m]⟩ : Shape).BroadcastsInDim ⟨3, ![n, m, 1]⟩ ![0, 1])
    (h3 : (⟨3, ![T, m, 1]⟩ : Shape).Slices ![0, 0, 0] ⟨3, ![n, m, 1]⟩)
    (h2 : (⟨2, ![T, m]⟩ : Shape).Slices ![0, 0] ⟨2, ![n, m]⟩) :
    extractStridedSlice ⟨3, ![n, m, 1]⟩ ![0, 0, 0] (broadcastInDim ⟨3, ![T, m, 1]⟩ ![0, 1] hT X) h3
      = broadcastInDim ⟨3, ![n, m, 1]⟩ ![0, 1] hn (extractStridedSlice ⟨2, ![n, m]⟩ ![0, 0] X h2) := by
  funext j
  obtain ⟨a, b, e, rfl⟩ : ∃ a b e, j = ix3 a b e := ⟨_, _, _, eq_ix3 j⟩
  have hnT : n ≤ T := by have := h2.2 0; simpa using this
  have ha : a.val < T := Nat.lt_of_lt_of_le a.isLt hnT
  rw [rows3_apply _ h3 a b e ha,
    broadcastInDim_apply _ hT X (ix3 ⟨a.val, ha⟩ b e) (ix2 ⟨a.val, ha⟩ b) (fun ax => by
      match ax with
      | ⟨0, _⟩ =>
        show a.val = if T = 1 then 0 else a.val
        split <;> omega
      | ⟨1, _⟩ =>
        show b.val = if m = 1 then 0 else b.val
        have := b.isLt
        split <;> omega),
    broadcastInDim_apply _ hn _ (ix3 a b e) (ix2 a b) (fun ax => by
      match ax with
      | ⟨0, _⟩ =>
        show a.val = if n = 1 then 0 else a.val
        have := a.isLt
        split <;> omega
      | ⟨1, _⟩ =>
        show b.val = if m = 1 then 0 else b.val
        have := b.isLt
        split <;> omega),
    rows2_apply X h2 a b ha]

theorem rows_shapeCast_21x3 {T n : ℕ} (X : (⟨3, ![T, 21, 3]⟩ : Shape).Idx → α)
    (hT : (⟨3, ![T, 21, 3]⟩ : Shape).ShapeCasts ⟨2, ![T, 63]⟩) (hn : (⟨3, ![n, 21, 3]⟩ : Shape).ShapeCasts ⟨2, ![n, 63]⟩)
    (h3 : (⟨3, ![T, 21, 3]⟩ : Shape).Slices ![0, 0, 0] ⟨3, ![n, 21, 3]⟩)
    (h2 : (⟨2, ![T, 63]⟩ : Shape).Slices ![0, 0] ⟨2, ![n, 63]⟩) :
    extractStridedSlice ⟨2, ![n, 63]⟩ ![0, 0] (shapeCast ⟨2, ![T, 63]⟩ X hT) h2
      = shapeCast ⟨2, ![n, 63]⟩ (extractStridedSlice ⟨3, ![n, 21, 3]⟩ ![0, 0, 0] X h3) hn := by
  funext j
  obtain ⟨a, k, rfl⟩ : ∃ a k, j = ix2 a k := ⟨_, _, eq_ix2 j⟩
  have hnT : n ≤ T := by have := h2.2 0; simpa using this
  have ha : a.val < T := Nat.lt_of_lt_of_le a.isLt hnT
  have hk := k.isLt
  have hk1 : k.val / 3 < 21 := by omega
  have hk2 : k.val % 3 < 3 := by omega
  rw [rows2_apply _ h2 a k ha,
    shapeCast_apply X hT (ix2 ⟨a.val, ha⟩ k) (ix3 ⟨a.val, ha⟩ ⟨k.val / 3, hk1⟩ ⟨k.val % 3, hk2⟩) (by
      rw [Shape.rowMajor_val_three, Shape.rowMajor_val_two]
      show (a.val * 21 + k.val / 3) * 3 + k.val % 3 = a.val * 63 + k.val
      omega),
    shapeCast_apply _ hn (ix2 a k) (ix3 a ⟨k.val / 3, hk1⟩ ⟨k.val % 3, hk2⟩) (by
      rw [Shape.rowMajor_val_three, Shape.rowMajor_val_two]
      show (a.val * 21 + k.val / 3) * 3 + k.val % 3 = a.val * 63 + k.val
      omega),
    rows3_apply X h3 a _ _ ha]

theorem rows_reduceAdd_axis1 {T n m : ℕ} (X : FVec Ideal ⟨2, ![T, m]⟩ .f32) (init : (⟨0, ![]⟩ : Shape).Idx → Ideal .f32)
    (hT : (⟨2, ![T, m]⟩ : Shape).ReducesTo [1] ⟨1, ![T]⟩) (hn : (⟨2, ![n, m]⟩ : Shape).ReducesTo [1] ⟨1, ![n]⟩)
    (hu : 0 < (⟨0, ![]⟩ : Shape).numel)
    (h2 : (⟨2, ![T, m]⟩ : Shape).Slices ![0, 0] ⟨2, ![n, m]⟩) (h1 : (⟨1, ![T]⟩ : Shape).Slices ![0] ⟨1, ![n]⟩) :
    extractStridedSlice ⟨1, ![n]⟩ ![0] (Host.reduceAdd X init hT hu) h1
      = Host.reduceAdd (extractStridedSlice ⟨2, ![n, m]⟩ ![0, 0] X h2) init hn hu := by
  funext j
  obtain ⟨a, rfl⟩ : ∃ a, j = ix1 a := ⟨_, eq_ix1 j⟩
  have hnT : n ≤ T := by have := h1.2 0; simpa using this
  have ha : a.val < T := Nat.lt_of_lt_of_le a.isLt hnT
  have hT' : (⟨2, ![T, m]⟩ : Shape).Reduces [1] ⟨1, ![T]⟩ := ⟨hT.1, Nat.one_pos, hT.2⟩
  have hn' : (⟨2, ![n, m]⟩ : Shape).Reduces [1] ⟨1, ![n]⟩ := ⟨hn.1, Nat.one_pos, hn.2⟩
  rw [rows1_apply _ h1 a ha, hostReduceAdd_apply, hostReduceAdd_apply, Ideal.hostReduceAdd_single hT hT',
    Ideal.hostReduceAdd_single hn hn']
  refine congrArg (init (Shape.Idx.first hu) + ·) (Finset.sum_congr rfl fun k _ => ?_)
  have e1 : hT'.lift (ix1 ⟨a.val, ha⟩) k = ix2 ⟨a.val, ha⟩ k := by
    funext ax
    match ax with
    | ⟨0, _⟩ => rfl
    | ⟨1, _⟩ => rfl
  have e2 : hn'.lift (ix1 a) k = ix2 a k := by
    funext ax
    match ax with
    | ⟨0, _⟩ => rfl
    | ⟨1, _⟩ => rfl
  rw [e1, e2]
  exact (rows2_apply X h2 a k ha).symm

theorem slice_hostNegf {F : FTy → Type} [FloatOps F] {φ : FTy} {s t : Shape} (off : Fin s.rank → Nat) (h : s.Slices off t)
    (a : FVec F s φ) : extractStridedSlice t off (Host.negf a) h = Host.negf (extractStridedSlice t off a h) := rfl

theorem slice_uitofp {F : FTy → Type} [FloatOps F] {φ : FTy} {w : ℕ} {s t : Shape} (off : Fin s.rank → Nat)
    (h : s.Slices off t) (a : IVec s w) :
    extractStridedSlice t off (uitofp φ a : FVec F s φ) h = uitofp φ (extractStridedSlice t off a h) := rfl

section Stages
variable {W : Valuation Cert.KernelIdeal.τ Cert.KernelIdeal.sig (Elt Ideal)}
  {V : Valuation Cert.ReferenceIdeal.τ Cert.ReferenceIdeal.sig (Elt Ideal)}

theorem v4_rows (h : Agree W V) :
    extractStridedSlice Cert.KernelIdeal.S201x115x3 ![0, 0, 0]
        (V (Proc.devRef .tc Cert.ReferenceIdeal.main_arg0) :
          (⟨Cert.ReferenceIdeal.S100000x115x3, .f32⟩ : BufTy).Contents (Elt Ideal)) (by decide)
      = k_main_v4 W := by
  unfold k_main_v4
  rw [h.hx]

theorem v5_rows (h : Agree W V) :
    extractStridedSlice Cert.KernelIdeal.S201x115x3 ![0, 0, 0] (r_main_v0 V) (by decide) = k_main_v5 W := by
  unfold r_main_v0 k_main_v5
  rw [← v4_rows h]
  exact extractStridedSlice_cmpf _ _ _ _ _

theorem call0_v1_rows :
    extractStridedSlice Cert.KernelIdeal.S201x115x3 ![0, 0, 0] (r_main_call0_v0 V) (by decide) = k_main_call0_v1 W := by
  unfold r_main_call0_v0 k_main_call0_v1 k_main_call0_v0
  exact slice_bcast_scalar _ _ _ _ _

theorem v6_rows (h : Agree W V) :
    extractStridedSlice Cert.KernelIdeal.S201x115x3 ![0, 0, 0] (r_main_v1 V) (by decide) = k_main_v6 W := by
  unfold r_main_v1 k_main_v6
  rw [← v5_rows h, ← call0_v1_rows (W := W) (V := V), ← v4_rows h]
  exact extractStridedSlice_select _ _ _ _ _

theorem v7_rows (h : Agree W V) :
    extractStridedSlice Cert.KernelIdeal.S201x21x3 ![0, 0, 0] (r_main_v2 V) (by decide) = k_main_v7 W := by
  unfold r_main_v2 k_main_v7
  rw [← v6_rows h]
  exact slice_slice_comm _ _ _ _ _ _ _ _ _ (fun a => by
    match a with
    | ⟨0, _⟩ => rfl
    | ⟨1, _⟩ => rfl
    | ⟨2, _⟩ => rfl)

theorem v8_rows (h : Agree W V) :
    extractStridedSlice Cert.KernelIdeal.S201x21x3 ![0, 0, 0] (r_main_v3 V) (by decide) = k_main_v8 W := by
  unfold r_main_v3 k_main_v8
  rw [← v6_rows h]
  exact slice_slice_comm _ _ _ _ _ _ _ _ _ (fun a => by
    match a with
    | ⟨0, _⟩ => rfl
    | ⟨1, _⟩ => rfl
    | ⟨2, _⟩ => rfl)

theorem v9_rows (h : Agree W V) :
    extractStridedSlice Cert.KernelIdeal.S201x25x3 ![0, 0, 0] (r_main_v4 V) (by decide) = k_main_v9 W := by
  unfold r_main_v4 k_main_v9
  rw [← v6_rows h]
  exact slice_slice_comm _ _ _ _ _ _ _ _ _ (fun a => by
    match a with
    | ⟨0, _⟩ => rfl
    | ⟨1, _⟩ => rfl
    | ⟨2, _⟩ => rfl)

theorem v10_rows (h : Agree W V) :
    extractStridedSlice Cert.KernelIdeal.S201x40x3 ![0, 0, 0] (r_main_v5 V) (by decide) = k_main_v10 W := by
  unfold r_main_v5 k_main_v10
  rw [← v6_rows h]
  exact slice_slice_comm _ _ _ _ _ _ _ _ _ (fun a => by
    match a with
    | ⟨0, _⟩ => rfl
    | ⟨1, _⟩ => rfl
    | ⟨2, _⟩ => rfl)

theorem v11_rows (h : Agree W V) :
    extractStridedSlice Cert.KernelIdeal.S201x21x3 ![0, 0, 0] (r_main_v15 V) (by decide) = k_main_v11 W := by
  unfold r_main_v15 k_main_v11
  rw [h.hcond, ← v7_rows h, ← v8_rows h]
  exact slice_select_bcast _ _ _ _ _ _ _

theorem v12_rows (h : Agree W V) :
    extractStridedSlice Cert.KernelIdeal.S201x86x3 ![0, 0, 0] (r_main_v16 V) (by decide) = k_main_v12 W := by
  unfold r_main_v16 k_main_v12
  rw [← v7_rows h, ← v9_rows h, ← v10_rows h]
  exact rows_concat3_axis1 _ _ _ _ _ _ _ _ _

theorem v13_rows (h : Agree W V) :
    extractStridedSlice Cert.KernelIdeal.S201x86x3 ![0, 0, 0] (r_main_v17 V) (by decide) = k_main_v13 W := by
  unfold r_main_v17 k_main_v13
  rw [← v8_rows h, ← v9_rows h, ← v10_rows h]
  exact rows_concat3_axis1 _ _ _ _ _ _ _ _ _

theorem v14_rows (h : Agree W V) :
    extractStridedSlice Cert.KernelIdeal.S201x86x3 ![0, 0, 0] (r_main_v18 V) (by decide) = k_main_v14 W := by
  unfold r_main_v18 k_main_v14
  rw [h.hcond, ← v12_rows h, ← v13_rows h]
  exact slice_select_bcast _ _ _ _ _ _ _

theorem v15_rows (h : Agree W V) :
    extractStridedSlice Cert.KernelIdeal.S201x86x1 ![0, 0, 0] (r_main_v19 V) (by decide) = k_main_v15 W := by
  unfold r_main_v19 k_main_v15
  rw [← v14_rows h]
  exact slice_slice_comm _ _ _ _ _ _ _ _ _ (fun a => by
    match a with
    | ⟨0, _⟩ => rfl
    | ⟨1, _⟩ => rfl
    | ⟨2, _⟩ => rfl)

theorem v16_rows (h : Agree W V) :
    extractStridedSlice Cert.KernelIdeal.S201x86 ![0, 0] (r_main_v20 V) (by decide) = k_main_v16 W := by
  unfold r_main_v20 k_main_v16
  rw [← v15_rows h]
  exact rows_shapeCast_drop1 _ _ _ _ _

theorem v17_rows (h : Agree W V) :
    extractStridedSlice Cert.KernelIdeal.S201x86 ![0, 0] (r_main_v21 V) (by decide) = k_main_v17 W := by
  unfold r_main_v21 k_main_v17
  rw [← v16_rows h]
  exact slice_hostNegf _ _ _

theorem v18_rows (h : Agree W V) :
    extractStridedSlice Cert.KernelIdeal.S201x86x1 ![0, 0, 0] (r_main_v22 V) (by decide) = k_main_v18 W := by
  unfold r_main_v22 k_main_v18
  rw [← v14_rows h]
  exact slice_slice_comm _ _ _ _ _ _ _ _ _ (fun a => by
    match a with
    | ⟨0, _⟩ => rfl
    | ⟨1, _⟩ => rfl
    | ⟨2, _⟩ => rfl)

theorem v19_rows (h : Agree W V) :
    extractStridedSlice Cert.KernelIdeal.S201x86 ![0, 0] (r_main_v23 V) (by decide) = k_main_v19 W := by
  unfold r_main_v23 k_main_v19
  rw [← v18_rows h]
  exact rows_shapeCast_drop1 _ _ _ _ _

theorem v20_rows (h : Agree W V) :
    extractStridedSlice Cert.KernelIdeal.S201x86 ![0, 0] (r_main_v24 V) (by decide) = k_main_v20 W := by
  unfold r_main_v24 k_main_v20
  rw [h.hcond, ← v17_rows h, ← v19_rows h]
  exact slice_select_bcast _ _ _ _ _ _ _

theorem v21_rows (h : Agree W V) :
    extractStridedSlice Cert.KernelIdeal.S201x86x1 ![0, 0, 0] (r_main_v25 V) (by decide) = k_main_v21 W := by
  unfold r_main_v25 k_main_v21
  rw [← v20_rows h]
  exact rows_bcast_add1 _ _ _ _ _

theorem v22_rows (h : Agree W V) :
    extractStridedSlice Cert.KernelIdeal.S201x86x2 ![0, 0, 0] (r_main_v26 V) (by decide) = k_main_v22 W := by
  unfold r_main_v26 k_main_v22
  rw [← v14_rows h]
  exact slice_slice_comm _ _ _ _ _ _ _ _ _ (fun a => by
    match a with
    | ⟨0, _⟩ => rfl
    | ⟨1, _⟩ => rfl
    | ⟨2, _⟩ => rfl)

variable (W V) in
theorem xfeat_rows (h : Agree W V) :
    extractStridedSlice Cert.KernelIdeal.S201x86x3 ![0, 0, 0] (r_main_v27 V) (by decide) = k_main_v23 W := by
  unfold r_main_v27 k_main_v23
  rw [← v21_rows h, ← v22_rows h]
  exact rows_concat2_axis2 _ _ _ _ _ _ _

theorem v24_rows (h : Agree W V) :
    extractStridedSlice Cert.KernelIdeal.S201x63 ![0, 0] (r_main_v28 V) (by decide) = k_main_v24 W := by
  unfold r_main_v28 k_main_v24
  rw [← v11_rows h]
  exact rows_shapeCast_21x3 _ _ _ _ _

theorem v25_rows (h : Agree W V) :
    extractStridedSlice Cert.KernelIdeal.S201 ![0] (r_main_v29 V) (by decide) = k_main_v25 W := by
  unfold r_main_v29 k_main_v25
  rw [← v24_rows h]
  exact rows_reduceAdd_axis1 _ _ _ _ _ _ _

theorem v26_rows :
    extractStridedSlice Cert.KernelIdeal.S201 ![0] (r_main_v30 V) (by decide) = k_main_v26 W := by
  unfold r_main_v30 k_main_v26
  exact slice_bcast_scalar _ _ _ _ _

theorem v27_rows (h : Agree W V) :
    extractStridedSlice Cert.KernelIdeal.S201 ![0] (r_main_v31 V) (by decide) = k_main_v27 W := by
  unfold r_main_v31 k_main_v27
  rw [← v25_rows h, ← v26_rows (W := W) (V := V)]
  exact extractStridedSlice_cmpf _ _ _ _ _

variable (W V) in
theorem mask_rows (h : Agree W V) :
    extractStridedSlice Cert.KernelIdeal.S201 ![0] (r_main_v32 V) (by decide) = k_main_v28 W := by
  unfold r_main_v32 k_main_v28
  rw [← v27_rows h]
  exact slice_uitofp _ _ _

theorem v29_rows :
    extractStridedSlice Cert.KernelIdeal.S201 ![0] (r_main_v33 V) (by decide) = k_main_v29 W := by
  unfold r_main_v33 k_main_v29
  exact slice_bcast_scalar _ _ _ _ _

variable (W V) in
theorem token_rows (h : Agree W V) :
    extractStridedSlice Cert.KernelIdeal.S201 ![0] (r_main_v34 V) (by decide) = k_main_v30 W := by
  unfold r_main_v34 k_main_v30
  rw [← mask_rows W V h, ← v29_rows (W := W) (V := V)]
  exact extractStridedSlice_addf _ _ _ _

end Stages

end Cert.Bridge.Pre

end
-- ==== Proof.Bridge.Dist.lean ====
import proofs.«101359_j2095944041143_1_alg».proof.Proof.Bridge.Base
import Idealize.ShloMosaic.Lib.IdealHost
import Idealize.ShloMosaic.Lib.LayoutPointwise

noncomputable section

namespace Cert.Bridge.Dist

open Idealize.ShloMosaic Idealize.ShloMosaic.TcCoe Idealize.SL.Sem Idealize.ShloMosaic.StableHlo
open Idealize.ShloMosaic.ValueIdx
open Cert.KernelIdeal.Stages Cert.ReferenceIdeal.Stages
open scoped BigOperators

section Gather
variable {α : Type}

abbrev axis1Dims (T N D E : ℕ) (ss : Fin 3 → ℕ)
    (wf : GatherDims.WF ⟨3, ![T, N, D]⟩ ⟨2, ![E, 1]⟩ ⟨3, ![T, E, D]⟩ [0, 2] [1] [] [1] [] 1 ss) :
    GatherDims ⟨3, ![T, N, D]⟩ ⟨2, ![E, 1]⟩ ⟨3, ![T, E, D]⟩ where
  offsetDims := [0, 2]
  collapsedSliceDims := [1]
  operandBatchingDims := []
  startIndicesBatchingDims := []
  startIndexMap := [1]
  indexVectorDim := 1
  sliceSizes := ss
  wf := wf

theorem gather_axis1Dims_apply {T N D E w : ℕ} (ss : Fin 3 → ℕ)
    (wf : GatherDims.WF ⟨3, ![T, N, D]⟩ ⟨2, ![E, 1]⟩ ⟨3, ![T, E, D]⟩ [0, 2] [1] [] [1] [] 1 ss)
    (x : (⟨3, ![T, N, D]⟩ : Shape).Idx → α) (idx : IVec ⟨2, ![E, 1]⟩ w) (hN : 0 < N)
    (a : Fin T) (e : Fin E) (c : Fin D) :
    Host.gather (axis1Dims T N D E ss wf) x idx (ix3 a e c)
      = x (ix3 a ⟨min (idx (ix2 e (0 : Fin 1))).toInt.toNat (N - 1), by omega⟩ c) := by
  unfold Host.gather
  congr 1
  funext b
  apply Fin.ext
  match b with
  | ⟨0, _⟩ =>
    show 0 + 0 + a.val = a.val
    omega
  | ⟨1, _⟩ =>
    have hss : ss 1 = 1 := (axis1Dims T N D E ss wf).slice_collapsed 1 (List.mem_singleton.mpr rfl)
    have hsi : (axis1Dims T N D E ss wf).siIdx (ix3 a e c) ⟨0, Nat.one_pos⟩ = ix2 e (0 : Fin 1) := by
      funext b; refine Fin.ext ?_
      match b with
      | ⟨0, _⟩ => rfl
      | ⟨1, _⟩ => rfl
    show min (idx ((axis1Dims T N D E ss wf).siIdx (ix3 a e c) ⟨0, Nat.one_pos⟩)).toInt.toNat (N - ss 1) + 0 + 0 = _
    rw [hsi, hss]
    rfl
  | ⟨2, _⟩ =>
    show 0 + 0 + c.val = c.val
    omega

end Gather

section Slices
variable {α : Type}

theorem slice3_apply {s0 s1 s2 t0 t1 t2 o0 o1 o2 : ℕ} (x : (⟨3, ![s0, s1, s2]⟩ : Shape).Idx → α)
    (h : (⟨3, ![s0, s1, s2]⟩ : Shape).Slices ![o0, o1, o2] ⟨3, ![t0, t1, t2]⟩)
    (h0 : o0 + t0 ≤ s0) (h1 : o1 + t1 ≤ s1) (h2 : o2 + t2 ≤ s2) (a : Fin t0) (b : Fin t1) (c : Fin t2) :
    extractStridedSlice ⟨3, ![t0, t1, t2]⟩ ![o0, o1, o2] x h (ix3 a b c)
      = x (ix3 ⟨o0 + a.val, by omega⟩ ⟨o1 + b.val, by omega⟩ ⟨o2 + c.val, by omega⟩) := by
  show x _ = x _
  congr 1
  funext d
  apply Fin.ext
  match d with
  | ⟨0, _⟩ => rfl
  | ⟨1, _⟩ => rfl
  | ⟨2, _⟩ => rfl

theorem slice2_apply {s0 s1 t0 t1 o0 o1 : ℕ} (x : (⟨2, ![s0, s1]⟩ : Shape).Idx → α)
    (h : (⟨2, ![s0, s1]⟩ : Shape).Slices ![o0, o1] ⟨2, ![t0, t1]⟩)
    (h0 : o0 + t0 ≤ s0) (h1 : o1 + t1 ≤ s1) (a : Fin t0) (b : Fin t1) :
    extractStridedSlice ⟨2, ![t0, t1]⟩ ![o0, o1] x h (ix2 a b)
      = x (ix2 ⟨o0 + a.val, by omega⟩ ⟨o1 + b.val, by omega⟩) := by
  show x _ = x _
  congr 1
  funext d
  apply Fin.ext
  match d with
  | ⟨0, _⟩ => rfl
  | ⟨1, _⟩ => rfl

theorem exists_ix3 {n0 n1 n2 : ℕ} (j : (⟨3, ![n0, n1, n2]⟩ : Shape).Idx) :
    ∃ (a : Fin n0) (b : Fin n1) (c : Fin n2), j = ix3 a b c := ⟨j 0, j 1, j 2, eq_ix3 j⟩

theorem exists_ix2 {n0 n1 : ℕ} (j : (⟨2, ![n0, n1]⟩ : Shape).Idx) :
    ∃ (a : Fin n0) (b : Fin n1), j = ix2 a b := ⟨j 0, j 1, eq_ix2 j⟩

theorem rows_cols3 {T n N D N' D' o1 o2 : ℕ} (x : (⟨3, ![T, N, D]⟩ : Shape).Idx → α) (hn : n ≤ T)
    (h1 : o1 + N' ≤ N) (h2 : o2 + D' ≤ D)
    (hc : (⟨3, ![T, N, D]⟩ : Shape).Slices ![0, o1, o2] ⟨3, ![T, N', D']⟩)
    (hr : (⟨3, ![T, N', D']⟩ : Shape).Slices ![0, 0, 0] ⟨3, ![n, N', D']⟩)
    (hr' : (⟨3, ![T, N, D]⟩ : Shape).Slices ![0, 0, 0] ⟨3, ![n, N, D]⟩)
    (hc' : (⟨3, ![n, N, D]⟩ : Shape).Slices ![0, o1, o2] ⟨3, ![n, N', D']⟩) :
    extractStridedSlice ⟨3, ![n, N', D']⟩ ![0, 0, 0] (extractStridedSlice ⟨3, ![T, N', D']⟩ ![0, o1, o2] x hc) hr
      = extractStridedSlice ⟨3, ![n, N', D']⟩ ![0, o1, o2] (extractStridedSlice ⟨3, ![n, N, D]⟩ ![0, 0, 0] x hr') hc' := by
  funext j
  obtain ⟨a, b, c, rfl⟩ := exists_ix3 j
  rw [slice3_apply _ hr (by omega) (by omega) (by omega), slice3_apply _ hc (by omega) (by omega) (by omega),
    slice3_apply _ hc' (by omega) (by omega) (by omega), slice3_apply _ hr' (by omega) (by omega) (by omega)]
  congr 1
  funext d
  apply Fin.ext
  match d with
  | ⟨0, _⟩ => show 0 + (0 + a.val) = 0 + (0 + a.val); rfl
  | ⟨1, _⟩ => show o1 + (0 + b.val) = 0 + (o1 + b.val); omega
  | ⟨2, _⟩ => show o2 + (0 + c.val) = 0 + (o2 + c.val); omega

theorem rows3_apply {T n N D : ℕ} (hn : n ≤ T) (x : (⟨3, ![T, N, D]⟩ : Shape).Idx → α)
    (h : (⟨3, ![T, N, D]⟩ : Shape).Slices ![0, 0, 0] ⟨3, ![n, N, D]⟩) (a : Fin n) (b : Fin N) (c : Fin D) :
    extractStridedSlice ⟨3, ![n, N, D]⟩ ![0, 0, 0] x h (ix3 a b c) = x (ix3 (a.castLE hn) b c) := by
  show x _ = x _
  congr 1
  funext d
  apply Fin.ext
  match d with
  | ⟨0, _⟩ => show 0 + a.val = a.val; omega
  | ⟨1, _⟩ => show 0 + b.val = b.val; omega
  | ⟨2, _⟩ => show 0 + c.val = c.val; omega

theorem rows2_apply {T n E : ℕ} (hn : n ≤ T) (x : (⟨2, ![T, E]⟩ : Shape).Idx → α)
    (h : (⟨2, ![T, E]⟩ : Shape).Slices ![0, 0] ⟨2, ![n, E]⟩) (a : Fin n) (b : Fin E) :
    extractStridedSlice ⟨2, ![n, E]⟩ ![0, 0] x h (ix2 a b) = x (ix2 (a.castLE hn) b) := by
  show x _ = x _
  congr 1
  funext d
  apply Fin.ext
  match d with
  | ⟨0, _⟩ => show 0 + a.val = a.val; omega
  | ⟨1, _⟩ => show 0 + b.val = b.val; omega

end Slices

section Chain

theorem reduces_last (T E D : ℕ) : (⟨3, ![T, E, D]⟩ : Shape).Reduces [2] ⟨2, ![T, E]⟩ :=
  ⟨rfl, Nat.succ_pos 1, fun b => match b with
    | ⟨0, _⟩ => rfl
    | ⟨1, _⟩ => rfl⟩

theorem reduce_last_apply {T E D : ℕ} (x : FVec Ideal ⟨3, ![T, E, D]⟩ .f32)
    (init : (⟨0, ![]⟩ : Shape).Idx → Ideal .f32)
    (h' : (⟨3, ![T, E, D]⟩ : Shape).ReducesTo [2] ⟨2, ![T, E]⟩) (hu : 0 < (⟨0, ![]⟩ : Shape).numel)
    (a : Fin T) (e : Fin E) :
    Host.reduceAdd x init h' hu (ix2 a e) = init (Shape.Idx.first hu) + ∑ k : Fin D, x (ix3 a e k) := by
  refine (hostReduceAdd_apply x init h' hu (ix2 a e)).trans ?_
  refine (Ideal.hostReduceAdd_single h' (reduces_last T E D) x _ _).trans ?_
  congr 1
  refine Finset.sum_congr rfl fun k _ => congrArg x ?_
  funext b
  apply Fin.ext
  match b with
  | ⟨0, _⟩ => rfl
  | ⟨1, _⟩ => rfl
  | ⟨2, _⟩ => rfl

theorem reduce_last_rows {T n E D : ℕ} (hn : n ≤ T) (x : FVec Ideal ⟨3, ![T, E, D]⟩ .f32)
    (init : (⟨0, ![]⟩ : Shape).Idx → Ideal .f32)
    (hT : (⟨3, ![T, E, D]⟩ : Shape).ReducesTo [2] ⟨2, ![T, E]⟩)
    (hn' : (⟨3, ![n, E, D]⟩ : Shape).ReducesTo [2] ⟨2, ![n, E]⟩) (hu : 0 < (⟨0, ![]⟩ : Shape).numel)
    (h2 : (⟨2, ![T, E]⟩ : Shape).Slices ![0, 0] ⟨2, ![n, E]⟩)
    (h3 : (⟨3, ![T, E, D]⟩ : Shape).Slices ![0, 0, 0] ⟨3, ![n, E, D]⟩) :
    extractStridedSlice ⟨2, ![n, E]⟩ ![0, 0] (Host.reduceAdd x init hT hu) h2
      = Host.reduceAdd (extractStridedSlice ⟨3, ![n, E, D]⟩ ![0, 0, 0] x h3) init hn' hu := by
  funext j
  obtain ⟨a, e, rfl⟩ := exists_ix2 j
  rw [rows2_apply hn _ h2, reduce_last_apply, reduce_last_apply]
  congr 1
  refine Finset.sum_congr rfl fun k _ => ?_
  rw [rows3_apply hn _ h3]

theorem gather_axis1_rows {α : Type} {T n N D E w : ℕ} (hn : n ≤ T) (hN : 0 < N) (ssT ssn : Fin 3 → ℕ)
    (wfT : GatherDims.WF ⟨3, ![T, N, D]⟩ ⟨2, ![E, 1]⟩ ⟨3, ![T, E, D]⟩ [0, 2] [1] [] [1] [] 1 ssT)
    (wfn : GatherDims.WF ⟨3, ![n, N, D]⟩ ⟨2, ![E, 1]⟩ ⟨3, ![n, E, D]⟩ [0, 2] [1] [] [1] [] 1 ssn)
    (x : (⟨3, ![T, N, D]⟩ : Shape).Idx → α) (idx : IVec ⟨2, ![E, 1]⟩ w)
    (hx : (⟨3, ![T, N, D]⟩ : Shape).Slices ![0, 0, 0] ⟨3, ![n, N, D]⟩)
    (hg : (⟨3, ![T, E, D]⟩ : Shape).Slices ![0, 0, 0] ⟨3, ![n, E, D]⟩) :
    extractStridedSlice ⟨3, ![n, E, D]⟩ ![0, 0, 0] (Host.gather (axis1Dims T N D E ssT wfT) x idx) hg
      = Host.gather (axis1Dims n N D E ssn wfn) (extractStridedSlice ⟨3, ![n, N, D]⟩ ![0, 0, 0] x hx) idx := by
  funext j
  obtain ⟨a, e, c, rfl⟩ := exists_ix3 j
  rw [rows3_apply hn _ hg, gather_axis1Dims_apply _ _ _ _ hN, gather_axis1Dims_apply _ _ _ _ hN,
    rows3_apply hn _ hx]

theorem slice_sqrt {s t : Shape} (off : Fin s.rank → ℕ) (h : s.Slices off t) (y : FVec Ideal s .f32) :
    extractStridedSlice t off (Host.sqrt y) h = Host.sqrt (extractStridedSlice t off y h) := rfl

def pairdist {T N D E : ℕ} (ss : Fin 3 → ℕ)
    (wf : GatherDims.WF ⟨3, ![T, N, D]⟩ ⟨2, ![E, 1]⟩ ⟨3, ![T, E, D]⟩ [0, 2] [1] [] [1] [] 1 ss)
    (hR : (⟨3, ![T, E, D]⟩ : Shape).ReducesTo [2] ⟨2, ![T, E]⟩) (hu : 0 < (⟨0, ![]⟩ : Shape).numel)
    (x : FVec Ideal ⟨3, ![T, N, D]⟩ .f32) (i1 i2 : IVec ⟨2, ![E, 1]⟩ 32)
    (init : (⟨0, ![]⟩ : Shape).Idx → Ideal .f32) : FVec Ideal ⟨2, ![T, E]⟩ .f32 :=
  Host.sqrt (Host.reduceAdd
    (mulf (subf (Host.gather (axis1Dims T N D E ss wf) x i1) (Host.gather (axis1Dims T N D E ss wf) x i2))
      (subf (Host.gather (axis1Dims T N D E ss wf) x i1) (Host.gather (axis1Dims T N D E ss wf) x i2)))
    init hR hu)

theorem pairdist_rows {T n N D E : ℕ} (hn : n ≤ T) (hN : 0 < N) (ssT ssn : Fin 3 → ℕ)
    (wfT : GatherDims.WF ⟨3, ![T, N, D]⟩ ⟨2, ![E, 1]⟩ ⟨3, ![T, E, D]⟩ [0, 2] [1] [] [1] [] 1 ssT)
    (wfn : GatherDims.WF ⟨3, ![n, N, D]⟩ ⟨2, ![E, 1]⟩ ⟨3, ![n, E, D]⟩ [0, 2] [1] [] [1] [] 1 ssn)
    (hRT : (⟨3, ![T, E, D]⟩ : Shape).ReducesTo [2] ⟨2, ![T, E]⟩)
    (hRn : (⟨3, ![n, E, D]⟩ : Shape).ReducesTo [2] ⟨2, ![n, E]⟩) (hu : 0 < (⟨0, ![]⟩ : Shape).numel)
    (x : FVec Ideal ⟨3, ![T, N, D]⟩ .f32) (i1 i2 : IVec ⟨2, ![E, 1]⟩ 32)
    (init : (⟨0, ![]⟩ : Shape).Idx → Ideal .f32)
    (h2 : (⟨2, ![T, E]⟩ : Shape).Slices ![0, 0] ⟨2, ![n, E]⟩)
    (hx : (⟨3, ![T, N, D]⟩ : Shape).Slices ![0, 0, 0] ⟨3, ![n, N, D]⟩) :
    extractStridedSlice ⟨2, ![n, E]⟩ ![0, 0] (pairdist ssT wfT hRT hu x i1 i2 init) h2
      = pairdist ssn wfn hRn hu (extractStridedSlice ⟨3, ![n, N, D]⟩ ![0, 0, 0] x hx) i1 i2 init := by
  have hg : (⟨3, ![T, E, D]⟩ : Shape).Slices ![0, 0, 0] ⟨3, ![n, E, D]⟩ :=
    ⟨rfl, fun a => match a with
      | ⟨0, _⟩ => by show 0 + n ≤ T; omega
      | ⟨1, _⟩ => by show 0 + E ≤ E; omega
      | ⟨2, _⟩ => by show 0 + D ≤ D; omega⟩
  unfold pairdist
  rw [slice_sqrt, reduce_last_rows hn _ _ hRT hRn hu h2 hg, extractStridedSlice_mulf, extractStridedSlice_subf,
    gather_axis1_rows hn hN ssT ssn wfT wfn x i1 hx hg, gather_axis1_rows hn hN ssT ssn wfT wfn x i2 hx hg]

end Chain

section Tables

theorem lit0_eq : Cert.KernelIdeal.lit0 = Cert.ReferenceIdeal.lit0 := by
  funext i; fin_cases i <;> rfl
theorem lit1_eq : Cert.KernelIdeal.lit1 = Cert.ReferenceIdeal.lit1 := by
  funext i; fin_cases i <;> rfl
theorem lit2_eq : Cert.KernelIdeal.lit2 = Cert.ReferenceIdeal.lit2 := by
  funext i; fin_cases i <;> rfl
theorem lit3_eq : Cert.KernelIdeal.lit3 = Cert.ReferenceIdeal.lit3 := by
  funext i; fin_cases i <;> rfl
theorem lit4_eq : Cert.KernelIdeal.lit4 = Cert.ReferenceIdeal.lit4 := by
  funext i; fin_cases i <;> rfl
theorem lit5_eq : Cert.KernelIdeal.lit5 = Cert.ReferenceIdeal.lit5 := by
  funext i; fin_cases i <;> rfl

end Tables

section Hand
variable {W : Valuation Cert.KernelIdeal.τ Cert.KernelIdeal.sig (Elt Ideal)}
  {V : Valuation Cert.ReferenceIdeal.τ Cert.ReferenceIdeal.sig (Elt Ideal)}

theorem hand_idx1 (h : Agree W V) : k_main_v38 W = r_main_v44 V := by
  unfold k_main_v38 k_main_v37 k_main_v36 k_main_v35 k_main_c_16 r_main_v44 r_main_v43 r_main_v42 r_main_v41 r_main_c_21
    r_main_c r_main_c_0
  rw [h.hc, h.hc_0, lit0_eq]

theorem hand_idx2 (h : Agree W V) : k_main_v43 W = r_main_v49 V := by
  unfold k_main_v43 k_main_v42 k_main_v41 k_main_v40 k_main_c_17 r_main_v49 r_main_v48 r_main_v47 r_main_v46 r_main_c_22
    r_main_c_1 r_main_c_2
  rw [h.hc_1, h.hc_2, lit1_eq]

theorem hand_pts (hxf : extractStridedSlice Cert.KernelIdeal.S201x86x3 ![0, 0, 0] (r_main_v27 V) (by decide) = k_main_v23 W) :
    extractStridedSlice Cert.KernelIdeal.S201x21x3 ![0, 0, 0] (r_main_v40 V) (by decide) = k_main_v34 W := by
  unfold r_main_v40 k_main_v34
  rw [← hxf]
  exact rows_cols3 (T := 100000) (n := 201) (N := 86) (D := 3) (N' := 21) (D' := 3) (o1 := 0) (o2 := 0)
    (r_main_v27 V) (by decide) (by decide) (by decide) _ _ _ _

theorem hdist_rows (h : Agree W V)
    (hxf : extractStridedSlice Cert.KernelIdeal.S201x86x3 ![0, 0, 0] (r_main_v27 V) (by decide) = k_main_v23 W) :
    extractStridedSlice Cert.KernelIdeal.S201x210 ![0, 0] (r_main_v54 V) (by decide) = k_main_v48 W := by
  have hk : k_main_v48 W = pairdist (T := 201) (N := 21) (D := 3) (E := 210) ![201, 1, 3]
      Cert.KernelIdeal.Facts₀.gather_S201x21x3_S210x1_S201x210x3_02_1_n_n_1_1_20113_wf
      Cert.KernelIdeal.Facts₀.reducesTo_S201x210x3_S201x210_d2 Cert.KernelIdeal.Facts₀.h_S_
      (k_main_v34 W) (k_main_v38 W) (k_main_v43 W) (k_main_cst_18 W) := rfl
  have hr : r_main_v54 V = pairdist (T := 100000) (N := 21) (D := 3) (E := 210) ![100000, 1, 3]
      Cert.ReferenceIdeal.Facts₀.gather_S100000x21x3_S210x1_S100000x210x3_02_1_n_n_1_1_10000013_wf
      Cert.ReferenceIdeal.Facts₀.reducesTo_S100000x210x3_S100000x210_d2 Cert.ReferenceIdeal.Facts₀.h_S_
      (r_main_v40 V) (r_main_v44 V) (r_main_v49 V) (r_main_cst_23 V) := rfl
  rw [hk, hr, hand_idx1 h, hand_idx2 h, ← hand_pts hxf]
  exact pairdist_rows (T := 100000) (n := 201) (N := 21) (D := 3) (E := 210) (by decide) (by decide)
    _ _ _ _ _ _ _ _ _ _ _ _ _

end Hand

section Pose
variable {W : Valuation Cert.KernelIdeal.τ Cert.KernelIdeal.sig (Elt Ideal)}
  {V : Valuation Cert.ReferenceIdeal.τ Cert.ReferenceIdeal.sig (Elt Ideal)}

theorem pose_idx1 (h : Agree W V) : k_main_v53 W = r_main_v59 V := by
  unfold k_main_v53 k_main_v52 k_main_v51 k_main_v50 k_main_c_19 r_main_v59 r_main_v58 r_main_v57 r_main_v56 r_main_c_24
    r_main_c_3 r_main_c_4
  rw [h.hc_3, h.hc_4, lit2_eq]

theorem pose_idx2 (h : Agree W V) : k_main_v58 W = r_main_v64 V := by
  unfold k_main_v58 k_main_v57 k_main_v56 k_main_v55 k_main_c_20 r_main_v64 r_main_v63 r_main_v62 r_main_v61 r_main_c_25
    r_main_c_5 r_main_c_6
  rw [h.hc_5, h.hc_6, lit3_eq]

theorem pose_pts (hxf : extractStridedSlice Cert.KernelIdeal.S201x86x3 ![0, 0, 0] (r_main_v27 V) (by decide) = k_main_v23 W) :
    extractStridedSlice Cert.KernelIdeal.S201x25x2 ![0, 0, 0] (r_main_v55 V) (by decide) = k_main_v49 W := by
  unfold r_main_v55 k_main_v49
  rw [← hxf]
  exact rows_cols3 (T := 100000) (n := 201) (N := 86) (D := 3) (N' := 25) (D' := 2) (o1 := 21) (o2 := 0)
    (r_main_v27 V) (by decide) (by decide) (by decide) _ _ _ _

theorem pdist_rows (h : Agree W V)
    (hxf : extractStridedSlice Cert.KernelIdeal.S201x86x3 ![0, 0, 0] (r_main_v27 V) (by decide) = k_main_v23 W) :
    extractStridedSlice Cert.KernelIdeal.S201x300 ![0, 0] (r_main_v69 V) (by decide) = k_main_v63 W := by
  have hk : k_main_v63 W = pairdist (T := 201) (N := 25) (D := 2) (E := 300) ![201, 1, 2]
      Cert.KernelIdeal.Facts₀.gather_S201x25x2_S300x1_S201x300x2_02_1_n_n_1_1_20112_wf
      Cert.KernelIdeal.Facts₀.reducesTo_S201x300x2_S201x300_d2 Cert.KernelIdeal.Facts₀.h_S_
      (k_main_v49 W) (k_main_v53 W) (k_main_v58 W) (k_main_cst_21 W) := rfl
  have hr : r_main_v69 V = pairdist (T := 100000) (N := 25) (D := 2) (E := 300) ![100000, 1, 2]
      Cert.ReferenceIdeal.Facts₀.gather_S100000x25x2_S300x1_S100000x300x2_02_1_n_n_1_1_10000012_wf
      Cert.ReferenceIdeal.Facts₀.reducesTo_S100000x300x2_S100000x300_d2 Cert.ReferenceIdeal.Facts₀.h_S_
      (r_main_v55 V) (r_main_v59 V) (r_main_v64 V) (r_main_cst_26 V) := rfl
  rw [hk, hr, pose_idx1 h, pose_idx2 h, ← pose_pts hxf]
  exact pairdist_rows (T := 100000) (n := 201) (N := 25) (D := 2) (E := 300) (by decide) (by decide)
    _ _ _ _ _ _ _ _ _ _ _ _ _

end Pose

section OuterLips
variable {W : Valuation Cert.KernelIdeal.τ Cert.KernelIdeal.sig (Elt Ideal)}
  {V : Valuation Cert.ReferenceIdeal.τ Cert.ReferenceIdeal.sig (Elt Ideal)}

theorem olip_idx1 (h : Agree W V) : k_main_v68 W = r_main_v74 V := by
  unfold k_main_v68 k_main_v67 k_main_v66 k_main_v65 k_main_c_22 r_main_v74 r_main_v73 r_main_v72 r_main_v71 r_main_c_27
    r_main_c_7 r_main_c_8
  rw [h.hc_7, h.hc_8, lit4_eq]

theorem olip_idx2 (h : Agree W V) : k_main_v73 W = r_main_v79 V := by
  unfold k_main_v73 k_main_v72 k_main_v71 k_main_v70 k_main_c_23 r_main_v79 r_main_v78 r_main_v77 r_main_v76 r_main_c_28
    r_main_c_9 r_main_c_10
  rw [h.hc_9, h.hc_10, lit5_eq]

theorem olip_pts (hxf : extractStridedSlice Cert.KernelIdeal.S201x86x3 ![0, 0, 0] (r_main_v27 V) (by decide) = k_main_v23 W) :
    extractStridedSlice Cert.KernelIdeal.S201x20x2 ![0, 0, 0] (r_main_v70 V) (by decide) = k_main_v64 W := by
  unfold r_main_v70 k_main_v64
  rw [← hxf]
  exact rows_cols3 (T := 100000) (n := 201) (N := 86) (D := 3) (N' := 20) (D' := 2) (o1 := 46) (o2 := 0)
    (r_main_v27 V) (by decide) (by decide) (by decide) _ _ _ _

theorem oldist_rows (h : Agree W V)
    (hxf : extractStridedSlice Cert.KernelIdeal.S201x86x3 ![0, 0, 0] (r_main_v27 V) (by decide) = k_main_v23 W) :
    extractStridedSlice Cert.KernelIdeal.S201x190 ![0, 0] (r_main_v84 V) (by decide) = k_main_v78 W := by
  have hk : k_main_v78 W = pairdist (T := 201) (N := 20) (D := 2) (E := 190) ![201, 1, 2]
      Cert.KernelIdeal.Facts₀.gather_S201x20x2_S190x1_S201x190x2_02_1_n_n_1_1_20112_wf
      Cert.KernelIdeal.Facts₀.reducesTo_S201x190x2_S201x190_d2 Cert.KernelIdeal.Facts₀.h_S_
      (k_main_v64 W) (k_main_v68 W) (k_main_v73 W) (k_main_cst_24 W) := rfl
  have hr : r_main_v84 V = pairdist (T := 100000) (N := 20) (D := 2) (E := 190) ![100000, 1, 2]
      Cert.ReferenceIdeal.Facts₀.gather_S100000x20x2_S190x1_S100000x190x2_02_1_n_n_1_1_10000012_wf
      Cert.ReferenceIdeal.Facts₀.reducesTo_S100000x190x2_S100000x190_d2 Cert.ReferenceIdeal.Facts₀.h_S_
      (r_main_v70 V) (r_main_v74 V) (r_main_v79 V) (r_main_cst_29 V) := rfl
  rw [hk, hr, olip_idx1 h, olip_idx2 h, ← olip_pts hxf]
  exact pairdist_rows (T := 100000) (n := 201) (N := 20) (D := 2) (E := 190) (by decide) (by decide)
    _ _ _ _ _ _ _ _ _ _ _ _ _

end OuterLips

section InnerLips
variable {W : Valuation Cert.KernelIdeal.τ Cert.KernelIdeal.sig (Elt Ideal)}
  {V : Valuation Cert.ReferenceIdeal.τ Cert.ReferenceIdeal.sig (Elt Ideal)}

theorem ilip_idx1 (h : Agree W V) : k_main_v83 W = r_main_v89 V := by
  unfold k_main_v83 k_main_v82 k_main_v81 k_main_v80 k_main_c_25 r_main_v89 r_main_v88 r_main_v87 r_main_v86 r_main_c_30
    r_main_c_7 r_main_c_11
  rw [h.hc_7, h.hc_11, lit4_eq]

theorem ilip_idx2 (h : Agree W V) : k_main_v88 W = r_main_v94 V := by
  unfold k_main_v88 k_main_v87 k_main_v86 k_main_v85 k_main_c_26 r_main_v94 r_main_v93 r_main_v92 r_main_v91 r_main_c_31
    r_main_c_9 r_main_c_12
  rw [h.hc_9, h.hc_12, lit5_eq]

theorem ilip_pts (hxf : extractStridedSlice Cert.KernelIdeal.S201x86x3 ![0, 0, 0] (r_main_v27 V) (by decide) = k_main_v23 W) :
    extractStridedSlice Cert.KernelIdeal.S201x20x2 ![0, 0, 0] (r_main_v85 V) (by decide) = k_main_v79 W := by
  unfold r_main_v85 k_main_v79
  rw [← hxf]
  exact rows_cols3 (T := 100000) (n := 201) (N := 86) (D := 3) (N' := 20) (D' := 2) (o1 := 66) (o2 := 0)
    (r_main_v27 V) (by decide) (by decide) (by decide) _ _ _ _

theorem ildist_rows (h : Agree W V)
    (hxf : extractStridedSlice Cert.KernelIdeal.S201x86x3 ![0, 0, 0] (r_main_v27 V) (by decide) = k_main_v23 W) :
    extractStridedSlice Cert.KernelIdeal.S201x190 ![0, 0] (r_main_v99 V) (by decide) = k_main_v93 W := by
  have hk : k_main_v93 W = pairdist (T := 201) (N := 20) (D := 2) (E := 190) ![201, 1, 2]
      Cert.KernelIdeal.Facts₀.gather_S201x20x2_S190x1_S201x190x2_02_1_n_n_1_1_20112_wf
      Cert.KernelIdeal.Facts₀.reducesTo_S201x190x2_S201x190_d2 Cert.KernelIdeal.Facts₀.h_S_
      (k_main_v79 W) (k_main_v83 W) (k_main_v88 W) (k_main_cst_27 W) := rfl
  have hr : r_main_v99 V = pairdist (T := 100000) (N := 20) (D := 2) (E := 190) ![100000, 1, 2]
      Cert.ReferenceIdeal.Facts₀.gather_S100000x20x2_S190x1_S100000x190x2_02_1_n_n_1_1_10000012_wf
      Cert.ReferenceIdeal.Facts₀.reducesTo_S100000x190x2_S100000x190_d2 Cert.ReferenceIdeal.Facts₀.h_S_
      (r_main_v85 V) (r_main_v89 V) (r_main_v94 V) (r_main_cst_32 V) := rfl
  rw [hk, hr, ilip_idx1 h, ilip_idx2 h, ← ilip_pts hxf]
  exact pairdist_rows (T := 100000) (n := 201) (N := 20) (D := 2) (E := 190) (by decide) (by decide)
    _ _ _ _ _ _ _ _ _ _ _ _ _

end InnerLips

end Cert.Bridge.Dist

end
-- ==== Proof.Bridge.Fin.lean ====
import proofs.«101359_j2095944041143_1_alg».proof.Proof.Bridge.Base
import Idealize.ShloMosaic.Lib.Pipeline.Value
import Idealize.ShloMosaic.Lib.ValueIdx
import Idealize.ShloMosaic.Lib.LayoutPointwise

noncomputable section

namespace Cert.Bridge.Fin

open Idealize.ShloMosaic Idealize.ShloMosaic.TcCoe Idealize.SL.Sem Idealize.ShloMosaic.StableHlo
open Idealize.ShloMosaic.ValueIdx
open Cert.KernelIdeal.Stages Cert.ReferenceIdeal.Stages

section Generic
variable {α : Type}

theorem slice_slice {s t u : Shape} (off1 : Fin s.rank → Nat) (off2 : Fin t.rank → Nat) (off3 : Fin s.rank → Nat)
    (x : s.Idx → α) (h1 : s.Slices off1 t) (h2 : t.Slices off2 u) (h3 : s.Slices off3 u)
    (hoff : ∀ a : Fin s.rank, off3 a = off1 a + off2 (a.cast h1.1.symm)) :
    extractStridedSlice u off2 (extractStridedSlice t off1 x h1) h2 = extractStridedSlice u off3 x h3 := by
  funext j
  unfold extractStridedSlice
  refine congrArg x (funext fun a => Fin.ext ?_)
  show off1 a + (off2 (a.cast h1.1.symm) + (j ((a.cast h1.1.symm).cast h2.1.symm)).val) = off3 a + (j (a.cast h3.1.symm)).val
  rw [hoff a]
  have e : j ((a.cast h1.1.symm).cast h2.1.symm) = j (a.cast h3.1.symm) := rfl
  rw [e]; omega

theorem slice_slice_eq {s t t' u : Shape} (off1 : Fin s.rank → Nat) (off2 : Fin t.rank → Nat)
    (off1' : Fin s.rank → Nat) (off2' : Fin t'.rank → Nat)
    (x : s.Idx → α) (h1 : s.Slices off1 t) (h2 : t.Slices off2 u) (h1' : s.Slices off1' t') (h2' : t'.Slices off2' u)
    (hoff : ∀ a : Fin s.rank, off1 a + off2 (a.cast h1.1.symm) = off1' a + off2' (a.cast h1'.1.symm)) :
    extractStridedSlice u off2 (extractStridedSlice t off1 x h1) h2
      = extractStridedSlice u off2' (extractStridedSlice t' off1' x h1') h2' := by
  have h3 : s.Slices (fun a => off1 a + off2 (a.cast h1.1.symm)) u :=
    ⟨h2.1.trans h1.1, fun a => by
      have e1 := h1.2 a
      have e2 := h2.2 (a.cast h1.1.symm)
      have e : u.size ((a.cast h1.1.symm).cast h2.1.symm) = u.size (a.cast (h2.1.trans h1.1).symm) := rfl
      rw [e] at e2
      show off1 a + off2 (a.cast h1.1.symm) + u.size (a.cast (h2.1.trans h1.1).symm) ≤ s.size a
      omega⟩
  rw [slice_slice off1 off2 _ x h1 h2 h3 (fun _ => rfl), slice_slice off1' off2' _ x h1' h2' h3 hoff]

theorem rows_shapeCast32 {N n p q c : ℕ} (X : (⟨3, ![N, p, q]⟩ : Shape).Idx → α)
    (hC : (⟨3, ![N, p, q]⟩ : Shape).ShapeCasts ⟨2, ![N, c]⟩) (hC' : (⟨3, ![n, p, q]⟩ : Shape).ShapeCasts ⟨2, ![n, c]⟩)
    (hS2 : (⟨2, ![N, c]⟩ : Shape).Slices ![0, 0] ⟨2, ![n, c]⟩)
    (hS3 : (⟨3, ![N, p, q]⟩ : Shape).Slices ![0, 0, 0] ⟨3, ![n, p, q]⟩) :
    extractStridedSlice ⟨2, ![n, c]⟩ ![0, 0] (shapeCast ⟨2, ![N, c]⟩ X hC) hS2
      = shapeCast ⟨2, ![n, c]⟩ (extractStridedSlice ⟨3, ![n, p, q]⟩ ![0, 0, 0] X hS3) hC' := by
  funext j
  unfold extractStridedSlice shapeCast
  refine congrArg X (Shape.reshapeEquiv_eq_of_rowMajor hC ?_)
  have e := Shape.rowMajor_reshapeEquiv hC' j
  rw [Shape.rowMajor_val_three, Shape.rowMajor_val_two] at e ⊢
  generalize Shape.reshapeEquiv hC' j = k at e ⊢
  have e' : ((k 0).val * p + (k 1).val) * q + (k 2).val = (j 0).val * c + (j 1).val := e
  show ((0 + (k 0).val) * p + (0 + (k 1).val)) * q + (0 + (k 2).val) = (0 + (j 0).val) * c + (0 + (j 1).val)
  simp only [Nat.zero_add]
  exact e'

theorem rows_bcast_col {N n : ℕ} (hN : N ≠ 1) (hn : n ≠ 1) (x : (⟨1, ![N]⟩ : Shape).Idx → α)
    (dims : Fin 1 → Fin 2) (hd : dims 0 = 0)
    (hB : (⟨1, ![N]⟩ : Shape).BroadcastsInDim ⟨2, ![N, 1]⟩ dims)
    (hB' : (⟨1, ![n]⟩ : Shape).BroadcastsInDim ⟨2, ![n, 1]⟩ dims)
    (hS2 : (⟨2, ![N, 1]⟩ : Shape).Slices ![0, 0] ⟨2, ![n, 1]⟩) (hS1 : (⟨1, ![N]⟩ : Shape).Slices ![0] ⟨1, ![n]⟩) :
    extractStridedSlice ⟨2, ![n, 1]⟩ ![0, 0] (broadcastInDim ⟨2, ![N, 1]⟩ dims hB x) hS2
      = broadcastInDim ⟨2, ![n, 1]⟩ dims hB' (extractStridedSlice ⟨1, ![n]⟩ ![0] x hS1) := by
  funext j
  have hjN : (j 0).val < N := by
    have h : 0 + n ≤ N := hS2.2 0
    have hj : (j 0).val < n := (j 0).isLt
    omega
  refine (extractStridedSlice_apply ![0, 0] _ hS2 j (ix2 ⟨(j 0).val, hjN⟩ (j 1)) (fun a => ?_)).trans
    ((broadcastInDim_apply dims hB x _ (ix1 ⟨(j 0).val, hjN⟩) (fun a => ?_)).trans
      ((broadcastInDim_apply dims hB' _ j (ix1 (j 0)) (fun a => ?_)).trans
        (extractStridedSlice_apply ![0] x hS1 (ix1 (j 0)) (ix1 ⟨(j 0).val, hjN⟩) (fun a => ?_))).symm)
  · match a with
    | ⟨0, _⟩ => show (j 0).val = 0 + (j 0).val; omega
    | ⟨1, _⟩ => show (j 1).val = 0 + (j 1).val; omega
  · match a with
    | ⟨0, _⟩ =>
      show (j 0).val = if N = 1 then 0 else ((ix2 (⟨(j 0).val, hjN⟩ : Fin N) (j 1)) (dims 0)).val
      rw [if_neg hN, hd]
  · match a with
    | ⟨0, _⟩ =>
      show (j 0).val = if n = 1 then 0 else (j (dims 0)).val
      rw [if_neg hn, hd]
  · match a with
    | ⟨0, _⟩ => show (j 0).val = 0 + (j 0).val; omega

theorem rows_cat0_left {N M K n p q : ℕ} (A : (⟨3, ![M, p, q]⟩ : Shape).Idx → α) (B : (⟨3, ![K, p, q]⟩ : Shape).Idx → α)
    (hC : Shape.Concatenates [(⟨3, ![M, p, q]⟩ : Shape), ⟨3, ![K, p, q]⟩] ⟨3, ![N, p, q]⟩ 0)
    (hS : (⟨3, ![N, p, q]⟩ : Shape).Slices ![0, 0, 0] ⟨3, ![n, p, q]⟩)
    (hS' : (⟨3, ![M, p, q]⟩ : Shape).Slices ![0, 0, 0] ⟨3, ![n, p, q]⟩) :
    extractStridedSlice ⟨3, ![n, p, q]⟩ ![0, 0, 0] (concatenate ⟨3, ![N, p, q]⟩ 0 [⟨_, A⟩, ⟨_, B⟩] hC) hS
      = extractStridedSlice ⟨3, ![n, p, q]⟩ ![0, 0, 0] A hS' := by
  funext j
  show concatenate ⟨3, ![N, p, q]⟩ 0 [⟨_, A⟩, ⟨_, B⟩] hC _ = A _
  exact concatenate_pair_apply_left 0 A B hC _ rfl _ (fun b => rfl)

theorem preExtent_cols (N C : ℕ) (ss : List Shape) (cols : List ℕ) (hss : ss = cols.map fun c => (⟨2, ![N, c]⟩ : Shape))
    (k : ℕ) :
    (((ss.take k)).map fun s => if h : s.rank = (⟨2, ![N, C]⟩ : Shape).rank then
        s.size ((1 : Fin (⟨2, ![N, C]⟩ : Shape).rank).cast h.symm) else 0).sum = (cols.take k).sum := by
  subst hss
  rw [← List.map_take, List.map_map]
  refine congrArg List.sum ?_
  conv_rhs => rw [← List.map_id (List.take k cols)]
  refine List.map_congr_left fun c _ => ?_
  show (if h : (⟨2, ![N, c]⟩ : Shape).rank = (⟨2, ![N, C]⟩ : Shape).rank then
    (⟨2, ![N, c]⟩ : Shape).size ((1 : Fin (⟨2, ![N, C]⟩ : Shape).rank).cast h.symm) else 0) = c
  rw [dif_pos rfl]
  rfl

theorem cat1_rows_apply {N n C : ℕ} (xs ys : List ((s : Shape) × (s.Idx → α))) (cols : List ℕ)
    (hxs : xs.map (·.1) = cols.map fun c => (⟨2, ![N, c]⟩ : Shape))
    (hys : ys.map (·.1) = cols.map fun c => (⟨2, ![n, c]⟩ : Shape))
    (hX : Shape.Concatenates (xs.map (·.1)) ⟨2, ![N, C]⟩ 1) (hY : Shape.Concatenates (ys.map (·.1)) ⟨2, ![n, C]⟩ 1)
    (hS : (⟨2, ![N, C]⟩ : Shape).Slices ![0, 0] ⟨2, ![n, C]⟩)
    (j : (⟨2, ![n, C]⟩ : Shape).Idx)
    (k : ℕ) (c : ℕ)
    (x : (⟨2, ![N, c]⟩ : Shape).Idx → α) (y : (⟨2, ![n, c]⟩ : Shape).Idx → α)
    (hxk : xs[k]? = some ⟨⟨2, ![N, c]⟩, x⟩) (hyk : ys[k]? = some ⟨⟨2, ![n, c]⟩, y⟩)
    (pre : ℕ) (hpre : (cols.take k).sum = pre)
    (hs : (⟨2, ![N, c]⟩ : Shape).Slices ![0, 0] ⟨2, ![n, c]⟩)
    (hxy : y = extractStridedSlice ⟨2, ![n, c]⟩ ![0, 0] x hs)
    (hlo : pre ≤ (j 1).val) (hhi : (j 1).val < pre + c) :
    concatenate ⟨2, ![n, C]⟩ 1 ys hY j
      = extractStridedSlice ⟨2, ![n, C]⟩ ![0, 0] (concatenate ⟨2, ![N, C]⟩ 1 xs hX) hS j := by
  obtain ⟨hkx, hxk⟩ := List.getElem?_eq_some_iff.1 hxk
  obtain ⟨hky, hyk⟩ := List.getElem?_eq_some_iff.1 hyk
  have hprex : (((xs.take k).map (·.1)).map fun s => if h : s.rank = (⟨2, ![N, C]⟩ : Shape).rank then
      s.size ((1 : Fin (⟨2, ![N, C]⟩ : Shape).rank).cast h.symm) else 0).sum = pre := by
    rw [List.map_take]
    exact (preExtent_cols N C _ cols hxs k).trans hpre
  have hprey : (((ys.take k).map (·.1)).map fun s => if h : s.rank = (⟨2, ![n, C]⟩ : Shape).rank then
      s.size ((1 : Fin (⟨2, ![n, C]⟩ : Shape).rank).cast h.symm) else 0).sum = pre := by
    rw [List.map_take]
    exact (preExtent_cols n C _ cols hys k).trans hpre
  have hjn : (j 0).val < n := (j 0).isLt
  have hjC : (j 1).val < C := (j 1).isLt
  have hjN : (j 0).val < N := by
    have h : 0 + n ≤ N := hS.2 0
    omega
  have hcol : (j 1).val - pre < c := by omega
  refine (concatenate_apply_piece 1 ys hY j k hky _ y hyk rfl pre hprey
    (ix2 (⟨(j 0).val, hjn⟩ : Fin n) (⟨(j 1).val - pre, hcol⟩ : Fin c)) (fun b hb => ?_) ?_).trans ?_
  · match b with
    | ⟨0, _⟩ => rfl
    | ⟨1, _⟩ => exact absurd rfl hb
  · show pre + ((j 1).val - pre) = (j 1).val
    omega
  refine Eq.symm ((extractStridedSlice_apply ![0, 0] _ hS j
    (ix2 (⟨(j 0).val, hjN⟩ : Fin N) (⟨(j 1).val, hjC⟩ : Fin C)) (fun a => ?_)).trans ?_)
  · match a with
    | ⟨0, _⟩ => show (j 0).val = 0 + (j 0).val; omega
    | ⟨1, _⟩ => show (j 1).val = 0 + (j 1).val; omega
  refine (concatenate_apply_piece 1 xs hX _ k hkx _ x hxk rfl pre hprex
    (ix2 (⟨(j 0).val, hjN⟩ : Fin N) (⟨(j 1).val - pre, hcol⟩ : Fin c)) (fun b hb => ?_) ?_).trans ?_
  · match b with
    | ⟨0, _⟩ => rfl
    | ⟨1, _⟩ => exact absurd rfl hb
  · show pre + ((j 1).val - pre) = (j 1).val
    omega
  rw [hxy]
  refine (extractStridedSlice_apply ![0, 0] x hs _ _ (fun a => ?_)).symm
  match a with
  | ⟨0, _⟩ => show (j 0).val = 0 + (j 0).val; omega
  | ⟨1, _⟩ => show (j 1).val - pre = 0 + ((j 1).val - pre); omega

theorem piece_reshape {N m n P Q p q c o : ℕ} (X : (⟨3, ![N, P, Q]⟩ : Shape).Idx → α)
    (hm : (⟨3, ![N, P, Q]⟩ : Shape).Slices ![0, 0, 0] ⟨3, ![m, P, Q]⟩)
    (hk : (⟨3, ![m, P, Q]⟩ : Shape).Slices ![0, o, 0] ⟨3, ![n, p, q]⟩)
    (hr : (⟨3, ![N, P, Q]⟩ : Shape).Slices ![0, o, 0] ⟨3, ![N, p, q]⟩)
    (hCk : (⟨3, ![n, p, q]⟩ : Shape).ShapeCasts ⟨2, ![n, c]⟩) (hCr : (⟨3, ![N, p, q]⟩ : Shape).ShapeCasts ⟨2, ![N, c]⟩)
    (hS : (⟨2, ![N, c]⟩ : Shape).Slices ![0, 0] ⟨2, ![n, c]⟩)
    (hS3 : (⟨3, ![N, p, q]⟩ : Shape).Slices ![0, 0, 0] ⟨3, ![n, p, q]⟩) :
    shapeCast ⟨2, ![n, c]⟩
        (extractStridedSlice ⟨3, ![n, p, q]⟩ ![0, o, 0] (extractStridedSlice ⟨3, ![m, P, Q]⟩ ![0, 0, 0] X hm) hk) hCk
      = extractStridedSlice ⟨2, ![n, c]⟩ ![0, 0]
          (shapeCast ⟨2, ![N, c]⟩ (extractStridedSlice ⟨3, ![N, p, q]⟩ ![0, o, 0] X hr) hCr) hS := by
  rw [rows_shapeCast32 _ hCr hCk hS hS3]
  refine congrArg (fun z => shapeCast ⟨2, ![n, c]⟩ z hCk) ?_
  refine slice_slice_eq ![0, 0, 0] ![0, o, 0] ![0, o, 0] ![0, 0, 0] X hm hk hr hS3 (fun a => ?_)
  match a with
  | ⟨0, _⟩ => rfl
  | ⟨1, _⟩ => show 0 + o = o + 0; omega
  | ⟨2, _⟩ => rfl

theorem rows_rows2 {N m n c : ℕ} (X : (⟨2, ![N, c]⟩ : Shape).Idx → α)
    (hm : (⟨2, ![N, c]⟩ : Shape).Slices ![0, 0] ⟨2, ![m, c]⟩) (hk : (⟨2, ![m, c]⟩ : Shape).Slices ![0, 0] ⟨2, ![n, c]⟩)
    (hS : (⟨2, ![N, c]⟩ : Shape).Slices ![0, 0] ⟨2, ![n, c]⟩) :
    extractStridedSlice ⟨2, ![n, c]⟩ ![0, 0] (extractStridedSlice ⟨2, ![m, c]⟩ ![0, 0] X hm) hk
      = extractStridedSlice ⟨2, ![n, c]⟩ ![0, 0] X hS :=
  slice_slice ![0, 0] ![0, 0] ![0, 0] X hm hk hS (fun a => by
    match a with
    | ⟨0, _⟩ => rfl
    | ⟨1, _⟩ => rfl)

theorem piece_col {N m n : ℕ} (hN : N ≠ 1) (hn : n ≠ 1) (x : (⟨1, ![N]⟩ : Shape).Idx → α)
    (dims : Fin 1 → Fin 2) (hd : dims 0 = 0)
    (hm : (⟨1, ![N]⟩ : Shape).Slices ![0] ⟨1, ![m]⟩) (hk : (⟨1, ![m]⟩ : Shape).Slices ![0] ⟨1, ![n]⟩)
    (hB : (⟨1, ![N]⟩ : Shape).BroadcastsInDim ⟨2, ![N, 1]⟩ dims)
    (hB' : (⟨1, ![n]⟩ : Shape).BroadcastsInDim ⟨2, ![n, 1]⟩ dims)
    (hS2 : (⟨2, ![N, 1]⟩ : Shape).Slices ![0, 0] ⟨2, ![n, 1]⟩) (hS1 : (⟨1, ![N]⟩ : Shape).Slices ![0] ⟨1, ![n]⟩) :
    broadcastInDim ⟨2, ![n, 1]⟩ dims hB' (extractStridedSlice ⟨1, ![n]⟩ ![0] (extractStridedSlice ⟨1, ![m]⟩ ![0] x hm) hk)
      = extractStridedSlice ⟨2, ![n, 1]⟩ ![0, 0] (broadcastInDim ⟨2, ![N, 1]⟩ dims hB x) hS2 := by
  rw [rows_bcast_col hN hn x dims hd hB hB' hS2 hS1]
  refine congrArg (fun z : (⟨1, ![n]⟩ : Shape).Idx → α => broadcastInDim ⟨2, ![n, 1]⟩ dims hB' z) ?_
  exact slice_slice ![0] ![0] ![0] x hm hk hS1 (fun a => by
    match a with
    | ⟨0, _⟩ => rfl)

end Generic

section Stages
variable (W : Valuation Cert.KernelIdeal.τ Cert.KernelIdeal.sig (Elt Ideal))
variable (V : Valuation Cert.ReferenceIdeal.τ Cert.ReferenceIdeal.sig (Elt Ideal))

theorem dxyz_rows
    (hxf : extractStridedSlice Cert.KernelIdeal.S201x86x3 ![0, 0, 0] (r_main_v27 V) (by decide) = k_main_v23 W) :
    extractStridedSlice Cert.KernelIdeal.S200x86x3 ![0, 0, 0] (r_main_v39 V) (by decide) = k_main_v33 W := by
  unfold r_main_v39 r_main_v37 r_main_v35 r_main_v36 k_main_v33 k_main_v31 k_main_v32
  rw [← hxf]
  generalize r_main_v27 V = X
  generalize r_main_v38 V = Z
  beta_reduce
  refine (rows_cat0_left _ Z _ _ (by decide)).trans ?_
  rw [extractStridedSlice_subf]
  refine congrArg₂ subf ?_ ?_
  · exact slice_slice_eq _ _ _ _ X _ _ _ _ (fun a => by
      match a with
      | ⟨0, _⟩ => rfl
      | ⟨1, _⟩ => rfl
      | ⟨2, _⟩ => rfl)
  · exact slice_slice_eq _ _ _ _ X _ _ _ _ (fun a => by
      match a with
      | ⟨0, _⟩ => rfl
      | ⟨1, _⟩ => rfl
      | ⟨2, _⟩ => rfl)

theorem piece0
    (hxf : extractStridedSlice Cert.KernelIdeal.S201x86x3 ![0, 0, 0] (r_main_v27 V) (by decide) = k_main_v23 W) :
    k_main_v95 W = extractStridedSlice Cert.KernelIdeal.S200x63 ![0, 0] (r_main_v101 V) (by decide) := by
  unfold k_main_v95 k_main_v94 r_main_v101 r_main_v100
  rw [← hxf]
  generalize r_main_v27 V = X
  beta_reduce
  exact piece_reshape (o := 0) X _ _ _ _ _ _ (by decide)

theorem piece1
    (hxf : extractStridedSlice Cert.KernelIdeal.S201x86x3 ![0, 0, 0] (r_main_v27 V) (by decide) = k_main_v23 W) :
    k_main_v97 W = extractStridedSlice Cert.KernelIdeal.S200x50 ![0, 0] (r_main_v103 V) (by decide) := by
  unfold k_main_v97 k_main_v96 r_main_v103 r_main_v102
  rw [← hxf]
  generalize r_main_v27 V = X
  beta_reduce
  exact piece_reshape (o := 21) X _ _ _ _ _ _ (by decide)

theorem piece2
    (hxf : extractStridedSlice Cert.KernelIdeal.S201x86x3 ![0, 0, 0] (r_main_v27 V) (by decide) = k_main_v23 W) :
    k_main_v99 W = extractStridedSlice Cert.KernelIdeal.S200x40 ![0, 0] (r_main_v105 V) (by decide) := by
  unfold k_main_v99 k_main_v98 r_main_v105 r_main_v104
  rw [← hxf]
  generalize r_main_v27 V = X
  beta_reduce
  exact piece_reshape (o := 46) X _ _ _ _ _ _ (by decide)

theorem piece3
    (hxf : extractStridedSlice Cert.KernelIdeal.S201x86x3 ![0, 0, 0] (r_main_v27 V) (by decide) = k_main_v23 W) :
    k_main_v101 W = extractStridedSlice Cert.KernelIdeal.S200x63 ![0, 0] (r_main_v107 V) (by decide) := by
  unfold k_main_v101 k_main_v100 r_main_v107 r_main_v106
  rw [← dxyz_rows W V hxf]
  generalize r_main_v39 V = X
  beta_reduce
  exact piece_reshape (o := 0) X _ _ _ _ _ _ (by decide)

theorem piece4
    (hxf : extractStridedSlice Cert.KernelIdeal.S201x86x3 ![0, 0, 0] (r_main_v27 V) (by decide) = k_main_v23 W) :
    k_main_v103 W = extractStridedSlice Cert.KernelIdeal.S200x50 ![0, 0] (r_main_v109 V) (by decide) := by
  unfold k_main_v103 k_main_v102 r_main_v109 r_main_v108
  rw [← dxyz_rows W V hxf]
  generalize r_main_v39 V = X
  beta_reduce
  exact piece_reshape (o := 21) X _ _ _ _ _ _ (by decide)

theorem piece5
    (hxf : extractStridedSlice Cert.KernelIdeal.S201x86x3 ![0, 0, 0] (r_main_v27 V) (by decide) = k_main_v23 W) :
    k_main_v105 W = extractStridedSlice Cert.KernelIdeal.S200x40 ![0, 0] (r_main_v111 V) (by decide) := by
  unfold k_main_v105 k_main_v104 r_main_v111 r_main_v110
  rw [← dxyz_rows W V hxf]
  generalize r_main_v39 V = X
  beta_reduce
  exact piece_reshape (o := 46) X _ _ _ _ _ _ (by decide)

theorem piece6
    (hh : extractStridedSlice Cert.KernelIdeal.S201x210 ![0, 0] (r_main_v54 V) (by decide) = k_main_v48 W) :
    k_main_v106 W = extractStridedSlice Cert.KernelIdeal.S200x210 ![0, 0] (r_main_v54 V) (by decide) := by
  unfold k_main_v106
  rw [← hh]
  generalize r_main_v54 V = X
  beta_reduce
  exact rows_rows2 X _ _ _

theorem piece7
    (hp : extractStridedSlice Cert.KernelIdeal.S201x300 ![0, 0] (r_main_v69 V) (by decide) = k_main_v63 W) :
    k_main_v107 W = extractStridedSlice Cert.KernelIdeal.S200x300 ![0, 0] (r_main_v69 V) (by decide) := by
  unfold k_main_v107
  rw [← hp]
  generalize r_main_v69 V = X
  beta_reduce
  exact rows_rows2 X _ _ _

theorem piece8
    (hol : extractStridedSlice Cert.KernelIdeal.S201x190 ![0, 0] (r_main_v84 V) (by decide) = k_main_v78 W) :
    k_main_v108 W = extractStridedSlice Cert.KernelIdeal.S200x190 ![0, 0] (r_main_v84 V) (by decide) := by
  unfold k_main_v108
  rw [← hol]
  generalize r_main_v84 V = X
  beta_reduce
  exact rows_rows2 X _ _ _

theorem piece9
    (hil : extractStridedSlice Cert.KernelIdeal.S201x190 ![0, 0] (r_main_v99 V) (by decide) = k_main_v93 W) :
    k_main_v109 W = extractStridedSlice Cert.KernelIdeal.S200x190 ![0, 0] (r_main_v99 V) (by decide) := by
  unfold k_main_v109
  rw [← hil]
  generalize r_main_v99 V = X
  beta_reduce
  exact rows_rows2 X _ _ _

theorem piece10
    (hmask : extractStridedSlice Cert.KernelIdeal.S201 ![0] (r_main_v32 V) (by decide) = k_main_v28 W) :
    k_main_v111 W = extractStridedSlice Cert.KernelIdeal.S200x1 ![0, 0] (r_main_v112 V) (by decide) := by
  unfold k_main_v111 k_main_v110 r_main_v112
  rw [← hmask]
  generalize r_main_v32 V = x
  beta_reduce
  exact piece_col (by decide) (by decide) x _ rfl _ _ _ _ _ (by decide)

theorem piece11
    (htok : extractStridedSlice Cert.KernelIdeal.S201 ![0] (r_main_v34 V) (by decide) = k_main_v30 W) :
    k_main_v113 W = extractStridedSlice Cert.KernelIdeal.S200x1 ![0, 0] (r_main_v113 V) (by decide) := by
  unfold k_main_v113 k_main_v112 r_main_v113
  rw [← htok]
  generalize r_main_v34 V = x
  beta_reduce
  exact piece_col (by decide) (by decide) x _ rfl _ _ _ _ _ (by decide)

def featCols : List ℕ := [63, 50, 40, 63, 50, 40, 210, 300, 190, 190, 1, 1]

theorem cat_eq
    (hxf : extractStridedSlice Cert.KernelIdeal.S201x86x3 ![0, 0, 0] (r_main_v27 V) (by decide) = k_main_v23 W)
    (hmask : extractStridedSlice Cert.KernelIdeal.S201 ![0] (r_main_v32 V) (by decide) = k_main_v28 W)
    (htok : extractStridedSlice Cert.KernelIdeal.S201 ![0] (r_main_v34 V) (by decide) = k_main_v30 W)
    (hh : extractStridedSlice Cert.KernelIdeal.S201x210 ![0, 0] (r_main_v54 V) (by decide) = k_main_v48 W)
    (hp : extractStridedSlice Cert.KernelIdeal.S201x300 ![0, 0] (r_main_v69 V) (by decide) = k_main_v63 W)
    (hol : extractStridedSlice Cert.KernelIdeal.S201x190 ![0, 0] (r_main_v84 V) (by decide) = k_main_v78 W)
    (hil : extractStridedSlice Cert.KernelIdeal.S201x190 ![0, 0] (r_main_v99 V) (by decide) = k_main_v93 W) :
    k_main_v114 W = r_main_v115 V := by
  have q0 := piece0 W V hxf
  have q1 := piece1 W V hxf
  have q2 := piece2 W V hxf
  have q3 := piece3 W V hxf
  have q4 := piece4 W V hxf
  have q5 := piece5 W V hxf
  have q6 := piece6 W V hh
  have q7 := piece7 W V hp
  have q8 := piece8 W V hol
  have q9 := piece9 W V hil
  have q10 := piece10 W V hmask
  have q11 := piece11 W V htok
  unfold k_main_v114 r_main_v115 r_main_v114
  generalize k_main_v95 W = y0 at q0 ⊢
  generalize k_main_v97 W = y1 at q1 ⊢
  generalize k_main_v99 W = y2 at q2 ⊢
  generalize k_main_v101 W = y3 at q3 ⊢
  generalize k_main_v103 W = y4 at q4 ⊢
  generalize k_main_v105 W = y5 at q5 ⊢
  generalize k_main_v106 W = y6 at q6 ⊢
  generalize k_main_v107 W = y7 at q7 ⊢
  generalize k_main_v108 W = y8 at q8 ⊢
  generalize k_main_v109 W = y9 at q9 ⊢
  generalize k_main_v111 W = y10 at q10 ⊢
  generalize k_main_v113 W = y11 at q11 ⊢
  generalize r_main_v101 V = x0 at q0 ⊢
  generalize r_main_v103 V = x1 at q1 ⊢
  generalize r_main_v105 V = x2 at q2 ⊢
  generalize r_main_v107 V = x3 at q3 ⊢
  generalize r_main_v109 V = x4 at q4 ⊢
  generalize r_main_v111 V = x5 at q5 ⊢
  generalize r_main_v54 V = x6 at q6 ⊢
  generalize r_main_v69 V = x7 at q7 ⊢
  generalize r_main_v84 V = x8 at q8 ⊢
  generalize r_main_v99 V = x9 at q9 ⊢
  generalize r_main_v112 V = x10 at q10 ⊢
  generalize r_main_v113 V = x11 at q11 ⊢
  beta_reduce
  funext j
  have hj : (j 1).val < 1198 := (j 1).isLt
  by_cases h1 : (j 1).val < 63
  · exact cat1_rows_apply _ _ featCols rfl rfl _ _ _ j 0 63 x0 y0 rfl rfl 0 rfl (by decide) q0
      (by omega) (by omega)
  by_cases h2 : (j 1).val < 113
  · exact cat1_rows_apply _ _ featCols rfl rfl _ _ _ j 1 50 x1 y1 rfl rfl 63 rfl (by decide) q1
      (by omega) (by omega)
  by_cases h3 : (j 1).val < 153
  · exact cat1_rows_apply _ _ featCols rfl rfl _ _ _ j 2 40 x2 y2 rfl rfl 113 rfl (by decide) q2
      (by omega) (by omega)
  by_cases h4 : (j 1).val < 216
  · exact cat1_rows_apply _ _ featCols rfl rfl _ _ _ j 3 63 x3 y3 rfl rfl 153 rfl (by decide) q3
      (by omega) (by omega)
  by_cases h5 : (j 1).val < 266
  · exact cat1_rows_apply _ _ featCols rfl rfl _ _ _ j 4 50 x4 y4 rfl rfl 216 rfl (by decide) q4
      (by omega) (by omega)
  by_cases h6 : (j 1).val < 306
  · exact cat1_rows_apply _ _ featCols rfl rfl _ _ _ j 5 40 x5 y5 rfl rfl 266 rfl (by decide) q5
      (by omega) (by omega)
  by_cases h7 : (j 1).val < 516
  · exact cat1_rows_apply _ _ featCols rfl rfl _ _ _ j 6 210 x6 y6 rfl rfl 306 rfl (by decide) q6
      (by omega) (by omega)
  by_cases h8 : (j 1).val < 816
  · exact cat1_rows_apply _ _ featCols rfl rfl _ _ _ j 7 300 x7 y7 rfl rfl 516 rfl (by decide) q7
      (by omega) (by omega)
  by_cases h9 : (j 1).val < 1006
  · exact cat1_rows_apply _ _ featCols rfl rfl _ _ _ j 8 190 x8 y8 rfl rfl 816 rfl (by decide) q8
      (by omega) (by omega)
  by_cases h10 : (j 1).val < 1196
  · exact cat1_rows_apply _ _ featCols rfl rfl _ _ _ j 9 190 x9 y9 rfl rfl 1006 rfl (by decide) q9
      (by omega) (by omega)
  by_cases h11 : (j 1).val < 1197
  · exact cat1_rows_apply _ _ featCols rfl rfl _ _ _ j 10 1 x10 y10 rfl rfl 1196 rfl (by decide) q10
      (by omega) (by omega)
  · exact cat1_rows_apply _ _ featCols rfl rfl _ _ _ j 11 1 x11 y11 rfl rfl 1197 rfl (by decide) q11
      (by omega) (by omega)

theorem out_eq
    (hxf : extractStridedSlice Cert.KernelIdeal.S201x86x3 ![0, 0, 0] (r_main_v27 V) (by decide) = k_main_v23 W)
    (hmask : extractStridedSlice Cert.KernelIdeal.S201 ![0] (r_main_v32 V) (by decide) = k_main_v28 W)
    (htok : extractStridedSlice Cert.KernelIdeal.S201 ![0] (r_main_v34 V) (by decide) = k_main_v30 W)
    (hh : extractStridedSlice Cert.KernelIdeal.S201x210 ![0, 0] (r_main_v54 V) (by decide) = k_main_v48 W)
    (hp : extractStridedSlice Cert.KernelIdeal.S201x300 ![0, 0] (r_main_v69 V) (by decide) = k_main_v63 W)
    (hol : extractStridedSlice Cert.KernelIdeal.S201x190 ![0, 0] (r_main_v84 V) (by decide) = k_main_v78 W)
    (hil : extractStridedSlice Cert.KernelIdeal.S201x190 ![0, 0] (r_main_v99 V) (by decide) = k_main_v93 W) :
    k_main_v115 W = r_main_v116 V := by
  unfold k_main_v115 r_main_v116
  rw [cat_eq W V hxf hmask htok hh hp hol hil]

end Stages

end Cert.Bridge.Fin

end
-- ==== Proof.Bridge.Cond.lean ====
import proofs.«101359_j2095944041143_1_alg».proof.Proof.KI.Stages
import proofs.«101359_j2095944041143_1_alg».proof.Proof.RI.Stages
import proofs.«101359_j2095944041143_1_alg».proof.Proof.Bridge.CountSpec
import Idealize.ShloMosaic.Lib.IdealHost
import Idealize.ShloMosaic.Lib.Pipeline.Value

noncomputable section

namespace Cert.Bridge.Cond

open Idealize.ShloMosaic Idealize.ShloMosaic.TcCoe Idealize.SL.Sem Idealize.ShloMosaic.StableHlo
open Idealize.ShloMosaic.ValueIdx
open Cert.KernelIdeal.Stages Cert.ReferenceIdeal.Stages
open scoped BigOperators

def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

theorem cmp_une_self (v : EReal) : Ideal.cmp .une v v = 0#1 := by simp [Ideal.cmp]

theorem uitofp_cmp_une_zero (v : EReal) :
    (FloatOps.uitofp (F := Ideal) .f32 (Ideal.cmp .une v 0) : EReal) = Cert.Count.nz v := by
  unfold Cert.Count.nz
  by_cases h : v = 0
  · rw [if_pos h, h]; show (((Ideal.cmp .une (0 : EReal) 0).toNat : ℝ) : EReal) = 0
    simp [Ideal.cmp]
  · rw [if_neg h]; show (((Ideal.cmp .une v 0).toNat : ℝ) : EReal) = 1
    simp [Ideal.cmp, h]

theorem ref_clean (V : Valuation Cert.ReferenceIdeal.τ Cert.ReferenceIdeal.sig (Elt Ideal)) :
    r_main_v1 V = V (Proc.devRef .tc Cert.ReferenceIdeal.main_arg0) := by
  funext i
  show Scalar.select (Ideal.cmp .une _ _) _ _ = _
  rw [cmp_une_self, select_zero]

theorem zero_bcast_apply (hb : Cert.ReferenceIdeal.S_.BroadcastsInDim Cert.ReferenceIdeal.S100000x21x3 ![])
    (j : Cert.ReferenceIdeal.S100000x21x3.Idx) :
    broadcastInDim Cert.ReferenceIdeal.S100000x21x3 ![] hb
      (constant (F := Ideal) Cert.ReferenceIdeal.S_ .f32 0x00000000#32) j = (0 : EReal) := by
  rw [broadcastInDim_scalar_apply]
  exact Ideal.ofBits_zero_f32

theorem rows_apply (o : ℕ) (ho : o + 21 ≤ 115) (x : Cert.ReferenceIdeal.S100000x115x3.Idx → EReal)
    (hs : Cert.ReferenceIdeal.S100000x115x3.Slices ![0, o, 0] Cert.ReferenceIdeal.S100000x21x3)
    (t : Fin 100000) (a : Fin 21) (k : Fin 3) :
    extractStridedSlice Cert.ReferenceIdeal.S100000x21x3 ![0, o, 0] x hs (ix3 t a k)
      = x (ix3 t ⟨o + a.val, by omega⟩ k) :=
  extractStridedSlice_apply _ _ _ _ _ fun d => by
    match d with
    | ⟨0, _⟩ => exact (Nat.zero_add _).symm
    | ⟨1, _⟩ => rfl
    | ⟨2, _⟩ => exact (Nat.zero_add _).symm

theorem reduce_indicator (o : ℕ) (ho : o + 21 ≤ 115) (x : Cert.ReferenceIdeal.S100000x115x3.Idx → EReal)
    (w : FVec Ideal Cert.ReferenceIdeal.S100000x21x3 .f32)
    (hw : ∀ (t : Fin 100000) (a : Fin 21) (k : Fin 3),
      w (ix3 t a k) = Cert.Count.nz (x (ix3 t ⟨o + a.val, by omega⟩ k)))
    (hr : Cert.ReferenceIdeal.S100000x21x3.ReducesTo [0, 1, 2] Cert.ReferenceIdeal.S_)
    (hu : 0 < Cert.ReferenceIdeal.S_.numel) :
    Host.reduceAdd w (constant (F := Ideal) Cert.ReferenceIdeal.S_ .f32 0x00000000#32) hr hu
      = fun _ => Cert.Count.total o ho x := by
  funext j
  rw [hostReduceAdd_apply, Ideal.hostReduceAdd_total hr (fun b => b.elim0), sum_idx3]
  show Ideal.ofBits .f32 0x00000000#32 + _ = _
  rw [Ideal.ofBits_zero_f32, zero_add]
  unfold Cert.Count.total Cert.Count.countIn
  refine Finset.sum_congr rfl fun t _ => Finset.sum_congr rfl fun a _ => Finset.sum_congr rfl fun k _ => ?_
  rw [hw]
  exact congrArg (fun s => Cert.Count.nz (x (ix3 s _ k))) (Fin.ext (Nat.zero_add _).symm)

theorem ref_left (V : Valuation Cert.ReferenceIdeal.τ Cert.ReferenceIdeal.sig (Elt Ideal)) :
    r_main_v9 V = fun _ => Cert.Count.total 40 (by omega) (V (Proc.devRef .tc Cert.ReferenceIdeal.main_arg0)) := by
  refine reduce_indicator 40 (by omega) _ (r_main_v8 V) (fun t a k => ?_) _ _
  show FloatOps.uitofp (F := Ideal) .f32 (Ideal.cmp .une (r_main_v2 V (ix3 t a k)) (r_main_v6 V (ix3 t a k))) = _
  rw [show r_main_v6 V (ix3 t a k) = (0 : EReal) from zero_bcast_apply _ _, uitofp_cmp_une_zero]
  refine congrArg Cert.Count.nz ?_
  unfold r_main_v2
  rw [ref_clean]
  exact rows_apply 40 (by omega) _ _ t a k

theorem ref_right (V : Valuation Cert.ReferenceIdeal.τ Cert.ReferenceIdeal.sig (Elt Ideal)) :
    r_main_v13 V = fun _ => Cert.Count.total 94 (by omega) (V (Proc.devRef .tc Cert.ReferenceIdeal.main_arg0)) := by
  refine reduce_indicator 94 (by omega) _ (r_main_v12 V) (fun t a k => ?_) _ _
  show FloatOps.uitofp (F := Ideal) .f32 (Ideal.cmp .une (r_main_v3 V (ix3 t a k)) (r_main_v10 V (ix3 t a k))) = _
  rw [show r_main_v10 V (ix3 t a k) = (0 : EReal) from zero_bcast_apply _ _, uitofp_cmp_une_zero]
  refine congrArg Cert.Count.nz ?_
  unfold r_main_v3
  rw [ref_clean]
  exact rows_apply 94 (by omega) _ _ t a k

theorem cond_eq (W : Valuation Cert.KernelIdeal.τ Cert.KernelIdeal.sig (Elt Ideal))
    (V : Valuation Cert.ReferenceIdeal.τ Cert.ReferenceIdeal.sig (Elt Ideal))
    (x : (⟨3, ![100000, 115, 3]⟩ : Shape).Idx → EReal)
    (hV : V (Proc.devRef .tc Cert.ReferenceIdeal.main_arg0) = x)
    (hl : W (Proc.devRef .tc Cert.KernelIdeal.main_v0_0) = fun _ => Cert.Count.total 40 (by omega) x)
    (hr : W (Proc.devRef .tc Cert.KernelIdeal.main_v0_1) = fun _ => Cert.Count.total 94 (by omega) x) :
    k_main_v3 W = r_main_v14 V := by
  have e1 : k_main_v1 W = r_main_v9 V := by
    rw [ref_left, hV]; unfold k_main_v1; rw [hl]; rfl
  have e2 : k_main_v2 W = r_main_v13 V := by
    rw [ref_right, hV]; unfold k_main_v2; rw [hr]; rfl
  unfold k_main_v3 r_main_v14
  rw [e1, e2]

end Cert.Bridge.Cond

end
-- ==== Proof.Final.lean ====
import proofs.«101359_j2095944041143_1_alg».proof.Proof.KI.Value
import proofs.«101359_j2095944041143_1_alg».proof.Proof.RI.Read
import proofs.«101359_j2095944041143_1_alg».proof.Proof.Bridge.Pre
import proofs.«101359_j2095944041143_1_alg».proof.Proof.Bridge.Dist
import proofs.«101359_j2095944041143_1_alg».proof.Proof.Bridge.Fin
import proofs.«101359_j2095944041143_1_alg».proof.Proof.Bridge.Cond

noncomputable section

namespace Cert.Final

open Idealize.ShloMosaic Idealize.ShloMosaic.TcCoe Idealize.SL.Sem Idealize.ShloMosaic.StableHlo
open Cert.KernelIdeal.Stages Cert.ReferenceIdeal.Stages Cert.KernelIdeal.Hand

theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hag : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.Bridge.Agree (Wf m c) (launchContents m' c) where
  hx := (Wf_arg0 m c).trans hag.symm
  hcond := Cert.Bridge.Cond.cond_eq (Wf m c) (launchContents m' c) (m ((c.tc : Thread Cert.KernelIdeal.nD Cert.KernelIdeal.τ).loc Cert.KernelIdeal.main_arg0))
    hag (Wf_left m c) (Wf_right m c)
  toConsts := Wf_consts m c

theorem result_eq (m) (m') (c : Dev Cert.KernelIdeal.nD)
    (hag : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    k_main_v115 (Wf m c) = r_main_v116 (launchContents m' c) :=
  have h := agree m m' c hag
  have hxf := Cert.Bridge.Pre.xfeat_rows (Wf m c) (launchContents m' c) h
  Cert.Bridge.Fin.out_eq (Wf m c) (launchContents m' c) hxf
    (Cert.Bridge.Pre.mask_rows (Wf m c) (launchContents m' c) h) (Cert.Bridge.Pre.token_rows (Wf m c) (launchContents m' c) h)
    (Cert.Bridge.Dist.hdist_rows h hxf) (Cert.Bridge.Dist.pdist_rows h hxf)
    (Cert.Bridge.Dist.oldist_rows h hxf) (Cert.Bridge.Dist.ildist_rows h hxf)

end Cert.Final

end
-- ==== Proof.lean ====
import proofs.«101359_j2095944041143_1_alg».proof.Defs
import proofs.«101359_j2095944041143_1_alg».proof.Proof.K.Frame
import proofs.«101359_j2095944041143_1_alg».proof.Proof.Final
import proofs.«101359_j2095944041143_1_alg».proof.Proof.Gen.Pre_finite_inputs
import Idealize.ShloMosaic.Adequacy
import Idealize.ShloMosaic.Init

/-! Which hand dominates is decided by comparing two counts of nonzero coordinates (left-hand rows 40–60 against right-hand
rows 94–114) over all 100000 frames; every feature of the first 200 frames depends on the frames only through that test.
The kernel adds the counts up over twenty blocks of 5000 frames and the reference sums over the whole array: over the
extended reals these are the same sums in another grouping, so the test has one outcome. Every later operation acts frame
by frame, so the reference's first 200 rows are what the kernel computes from its first 201 frames. -/

noncomputable section

namespace Cert.Proof

open Idealize.ShloMosaic Idealize.ShloMosaic.TcCoe Idealize.SL.Sem Idealize.ShloMosaic.StableHlo

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c Cert.ReferenceIdeal.main_arg0).trans (Cert.ReferenceIdeal.Hand.ref_arg0 _))
    (Cert.ReferenceIdeal.Hand.run (F := Ideal) m ρ)

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Stages.k_main_v115 (Cert.KernelIdeal.Hand.Wf m c), Cert.KernelIdeal.Hand.value_run m ρ, ?_⟩
  refine (θ_run Cert.ReferenceIdeal.defs _ _).mono (fun _ h c => ⟨?_, ?_⟩) (Cert.ReferenceIdeal.Hand.run (F := Ideal) m' ρ')
  · exact (h c Cert.ReferenceIdeal.main_v116).trans ((Cert.ReferenceIdeal.Hand.ref_eq _).trans (Cert.Final.result_eq m m' c (hagree c)).symm)
  · exact (h c Cert.ReferenceIdeal.main_arg0).trans (Cert.ReferenceIdeal.Hand.ref_arg0 _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
